-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S100x128 : Shape := ⟨2, ![100, 128]⟩
abbrev S100x256 : Shape := ⟨2, ![100, 256]⟩

abbrev nBuf : Space → Nat
  | .hbm => 113
  | .vmem => 76
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S50000x1, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S50000x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S128x128, .f32⟩
  | .hbm, ⟨67, _⟩ => ⟨S100x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S50000x128, .f32⟩
  | .hbm, ⟨88, _⟩ => ⟨S1x128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S50000x128, .f32⟩
  | .hbm, ⟨99, _⟩ => ⟨S1x128, .f32⟩
  | .hbm, ⟨100, _⟩ => ⟨S1x128, .f32⟩
  | .hbm, ⟨101, _⟩ => ⟨S_, .f32⟩
  | .hbm, ⟨102, _⟩ => ⟨S1x128, .f32⟩
  | .hbm, ⟨103, _⟩ => ⟨S1x128, .f32⟩
  | .hbm, ⟨104, _⟩ => ⟨S_, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S50000x128, .f32⟩
  | .hbm, ⟨110, _⟩ => ⟨S128x128, .f32⟩
  | .hbm, ⟨111, _⟩ => ⟨S100x128, .f32⟩
  | .hbm, ⟨112, _⟩ => ⟨S100x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x1, .i32⟩
  | .local _ .vmem, ⟨33, _⟩ => ⟨S2000x1, .i32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S128x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x1, .i32⟩
  | .local _ .vmem, ⟨71, _⟩ => ⟨S2000x1, .i32⟩
  | .local _ .vmem, ⟨72, _⟩ => ⟨S2000x128, .f32⟩
  | .local _ .vmem, ⟨73, _⟩ => ⟨S2000x128, .f32⟩
  | .local _ .vmem, ⟨74, _⟩ => ⟨S128x128, .f32⟩
  | .local _ .vmem, ⟨75, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v21_2 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v28_2 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35_0 : Ref sig .tc := ⟨.hbm, 65, rfl⟩
abbrev main_v35_1 : Ref sig .tc := ⟨.hbm, 66, rfl⟩
abbrev main_v36 : Ref sig .tc := ⟨.hbm, 67, rfl⟩
abbrev main_c_5 : Ref sig .tc := ⟨.hbm, 68, rfl⟩
abbrev main_v37 : Ref sig .tc := ⟨.hbm, 69, rfl⟩
abbrev main_v38 : Ref sig .tc := ⟨.hbm, 70, rfl⟩
abbrev main_c_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53_0 : Ref sig .tc := ⟨.hbm, 87, rfl⟩
abbrev main_v53_1 : Ref sig .tc := ⟨.hbm, 88, rfl⟩
abbrev main_v53_2 : Ref sig .tc := ⟨.hbm, 89, rfl⟩
abbrev main_cst_8 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60_0 : Ref sig .tc := ⟨.hbm, 98, rfl⟩
abbrev main_v60_1 : Ref sig .tc := ⟨.hbm, 99, rfl⟩
abbrev main_v60_2 : Ref sig .tc := ⟨.hbm, 100, rfl⟩
abbrev main_cst_10 : Ref sig .tc := ⟨.hbm, 101, rfl⟩
abbrev main_v61 : Ref sig .tc := ⟨.hbm, 102, rfl⟩
abbrev main_v62 : Ref sig .tc := ⟨.hbm, 103, rfl⟩
abbrev main_cst_11 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67_0 : Ref sig .tc := ⟨.hbm, 109, rfl⟩
abbrev main_v67_1 : Ref sig .tc := ⟨.hbm, 110, rfl⟩
abbrev main_v68 : Ref sig .tc := ⟨.hbm, 111, rfl⟩
abbrev main_v69 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_scratch0 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg6_0 : Ref sig .tc := ⟨.vmem, 47, rfl⟩
abbrev cc3_scratch0 : Ref sig .tc := ⟨.vmem, 48, rfl⟩
abbrev cc3_scratch1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc4_stg8_0 : Ref sig .tc := ⟨.vmem, 60, rfl⟩
abbrev cc4_stg9_0 : Ref sig .tc := ⟨.vmem, 61, rfl⟩
abbrev cc4_scratch0 : Ref sig .tc := ⟨.vmem, 62, rfl⟩
abbrev cc4_scratch1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc5_stg6_0 : Ref sig .tc := ⟨.vmem, 72, rfl⟩
abbrev cc5_stg6_1 : Ref sig .tc := ⟨.vmem, 73, rfl⟩
abbrev cc5_stg7_0 : Ref sig .tc := ⟨.vmem, 74, rfl⟩
abbrev cc5_scratch0 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem4_1 : DmaSem sig := 40
abbrev cc3_sem5_0 : DmaSem sig := 41
abbrev cc3_sem6_0 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem7_1 : DmaSem sig := 52
abbrev cc4_sem8_0 : DmaSem sig := 53
abbrev cc4_sem9_0 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc5_sem6_0 : DmaSem sig := 63
abbrev cc5_sem6_1 : DmaSem sig := 64
abbrev cc5_sem7_0 : DmaSem sig := 65

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v50 : BitVec 1 := Scalar.cmpi .eq arg0 c24_i32
  let v51 : BitVec 32 := Scalar.extui v50
  let c0_i32_28 : BitVec 32 := 0#32
  let v52 : BitVec 1 := Scalar.cmpi .ne v51 c0_i32_28
  v52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_20 : BitVec 32 := 0#32
  let v44 : BitVec 1 := Scalar.cmpi .ne v43 c0_i32_20
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_20 : BitVec 32 := 0#32
  let v34 : BitVec 1 := Scalar.cmpi .ne v33 c0_i32_20
  v34

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v50 : BitVec 1 := Scalar.cmpi .eq arg0 c24_i32
  let v51 : BitVec 32 := Scalar.extui v50
  let c0_i32_28 : BitVec 32 := 0#32
  let v52 : BitVec 1 := Scalar.cmpi .ne v51 c0_i32_28
  v52

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_20 : BitVec 32 := 0#32
  let v44 : BitVec 1 := Scalar.cmpi .ne v43 c0_i32_20
  v44

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S2000x128 : S1x128.Broadcasts S2000x128
  reduces_S2000x128_S128 : S2000x128.Reduces [0] S128
  bcast_S_S1x128 : S_.BroadcastsInDim S1x128 (![] : Fin 0 → Fin S1x128.rank)
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  slices_S128x128_S100x128_0_0 : S128x128.Slices ![0, 0] S100x128
  concatenates_S100x128_S100x128_S100x256_d1 : Shape.Concatenates [S100x128, S100x128] S100x256 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .i32 = 32 ∨ (Rect.block (s := S50000x1) S2000x1.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S50000x1.size a
  hwx5_5 : ∀ i : grid5.Coords, EltTy.bits .i32 = 32 ∨ (Rect.block (s := S50000x1) S2000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v21_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v28_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v35_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v35_1) S128x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v35_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v53_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v53_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v60_0) S2000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v60_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v60_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | 9 => fun i => !(k4_cond2 i == 1#1) | ⟨_ + 10, h⟩ => absurd h (Nat.not_lt.2 (Nat.le_add_left _ _))

abbrev win5_0 : Pipeline.Window sig grid5 :=
  Pipeline.Window.ofSpec (Memref.whole main_v60_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v67_0) S2000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v67_1) S128x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev idle5 : Fin 8 → grid5.Coords → Bool := fun | 0 => fun _ => false | 1 => fun _ => false | 2 => fun _ => false | 3 => fun _ => false | 4 => fun _ => false | 5 => fun _ => false | 6 => fun _ => false | 7 => fun i => !(k5_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100x128 : Shape := ⟨2, ![100, 128]⟩
abbrev S50000x1 : Shape := ⟨2, ![50000, 1]⟩
abbrev S100x256 : Shape := ⟨2, ![100, 256]⟩

abbrev nBuf : Space → Nat
  | .hbm => 264
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S50000x128, .f32⟩
  | 42 => ⟨S50000x128, .f32⟩
  | 43 => ⟨S50000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S100x128, .f32⟩
  | 1 => ⟨S50000x1, .i32⟩
  | 2 => ⟨S100x128, .f32⟩
  | 3 => ⟨S_, .f32⟩
  | 4 => ⟨S100x128, .f32⟩
  | 5 => ⟨S50000x1, .i32⟩
  | 6 => ⟨S100x128, .f32⟩
  | 7 => ⟨S100x256, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_4 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_call1_cst : Ref sig .tc := ⟨.hbm, 85, rfl⟩
abbrev main_call1_v0 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_5 : Ref sig .tc := ⟨.hbm, 92, rfl⟩
abbrev main_v43 : Ref sig .tc := ⟨.hbm, 93, rfl⟩
abbrev main_cst_6 : Ref sig .tc := ⟨.hbm, 94, rfl⟩
abbrev main_v44 : Ref sig .tc := ⟨.hbm, 95, rfl⟩
abbrev main_v45 : Ref sig .tc := ⟨.hbm, 96, rfl⟩
abbrev main_c_7 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_cst_3 : Ref sig .tc := ⟨.hbm, 114, rfl⟩
abbrev main_call2_v12 : Ref sig .tc := ⟨.hbm, 115, rfl⟩
abbrev main_call2_cst_4 : Ref sig .tc := ⟨.hbm, 116, rfl⟩
abbrev main_call2_call0_v0 : Ref sig .tc := ⟨.hbm, 117, rfl⟩
abbrev main_call2_call0_v1 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_cst_8 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_call3_cst : Ref sig .tc := ⟨.hbm, 136, rfl⟩
abbrev main_call3_v0 : Ref sig .tc := ⟨.hbm, 137, rfl⟩
abbrev main_v62 : Ref sig .tc := ⟨.hbm, 138, rfl⟩
abbrev main_c_9 : Ref sig .tc := ⟨.hbm, 139, rfl⟩
abbrev main_v63 : Ref sig .tc := ⟨.hbm, 140, rfl⟩
abbrev main_v64 : Ref sig .tc := ⟨.hbm, 141, rfl⟩
abbrev main_c_10 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_11 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_cst_12 : Ref sig .tc := ⟨.hbm, 157, rfl⟩
abbrev main_v78 : Ref sig .tc := ⟨.hbm, 158, rfl⟩
abbrev main_cst_13 : Ref sig .tc := ⟨.hbm, 159, rfl⟩
abbrev main_v79 : Ref sig .tc := ⟨.hbm, 160, rfl⟩
abbrev main_v80 : Ref sig .tc := ⟨.hbm, 161, rfl⟩
abbrev main_c_14 : Ref sig .tc := ⟨.hbm, 162, rfl⟩
abbrev main_call4_cst : Ref sig .tc := ⟨.hbm, 163, rfl⟩
abbrev main_call4_v0 : Ref sig .tc := ⟨.hbm, 164, rfl⟩
abbrev main_call4_v1 : Ref sig .tc := ⟨.hbm, 165, rfl⟩
abbrev main_call4_cst_0 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_call4_v5 : Ref sig .tc := ⟨.hbm, 170, rfl⟩
abbrev main_call4_v6 : Ref sig .tc := ⟨.hbm, 171, rfl⟩
abbrev main_call4_v7 : Ref sig .tc := ⟨.hbm, 172, rfl⟩
abbrev main_call4_cst_1 : Ref sig .tc := ⟨.hbm, 173, rfl⟩
abbrev main_call4_v8 : Ref sig .tc := ⟨.hbm, 174, rfl⟩
abbrev main_call4_cst_2 : Ref sig .tc := ⟨.hbm, 175, rfl⟩
abbrev main_call4_v9 : Ref sig .tc := ⟨.hbm, 176, rfl⟩
abbrev main_call4_v10 : Ref sig .tc := ⟨.hbm, 177, rfl⟩
abbrev main_call4_v11 : Ref sig .tc := ⟨.hbm, 178, rfl⟩
abbrev main_call4_cst_3 : Ref sig .tc := ⟨.hbm, 179, rfl⟩
abbrev main_call4_v12 : Ref sig .tc := ⟨.hbm, 180, rfl⟩
abbrev main_call4_cst_4 : Ref sig .tc := ⟨.hbm, 181, rfl⟩
abbrev main_call4_call0_v0 : Ref sig .tc := ⟨.hbm, 182, rfl⟩
abbrev main_call4_call0_v1 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_cst_15 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_call5_cst : Ref sig .tc := ⟨.hbm, 201, rfl⟩
abbrev main_call5_v0 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_cst_16 : Ref sig .tc := ⟨.hbm, 208, rfl⟩
abbrev main_v102 : Ref sig .tc := ⟨.hbm, 209, rfl⟩
abbrev main_cst_17 : Ref sig .tc := ⟨.hbm, 210, rfl⟩
abbrev main_v103 : Ref sig .tc := ⟨.hbm, 211, rfl⟩
abbrev main_v104 : Ref sig .tc := ⟨.hbm, 212, rfl⟩
abbrev main_c_18 : Ref sig .tc := ⟨.hbm, 213, rfl⟩
abbrev main_call6_cst : Ref sig .tc := ⟨.hbm, 214, rfl⟩
abbrev main_call6_v0 : Ref sig .tc := ⟨.hbm, 215, rfl⟩
abbrev main_call6_v1 : Ref sig .tc := ⟨.hbm, 216, rfl⟩
abbrev main_call6_cst_0 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_call6_v5 : Ref sig .tc := ⟨.hbm, 221, rfl⟩
abbrev main_call6_v6 : Ref sig .tc := ⟨.hbm, 222, rfl⟩
abbrev main_call6_v7 : Ref sig .tc := ⟨.hbm, 223, rfl⟩
abbrev main_call6_cst_1 : Ref sig .tc := ⟨.hbm, 224, rfl⟩
abbrev main_call6_v8 : Ref sig .tc := ⟨.hbm, 225, rfl⟩
abbrev main_call6_cst_2 : Ref sig .tc := ⟨.hbm, 226, rfl⟩
abbrev main_call6_v9 : Ref sig .tc := ⟨.hbm, 227, rfl⟩
abbrev main_call6_v10 : Ref sig .tc := ⟨.hbm, 228, rfl⟩
abbrev main_call6_v11 : Ref sig .tc := ⟨.hbm, 229, rfl⟩
abbrev main_call6_cst_3 : Ref sig .tc := ⟨.hbm, 230, rfl⟩
abbrev main_call6_v12 : Ref sig .tc := ⟨.hbm, 231, rfl⟩
abbrev main_call6_cst_4 : Ref sig .tc := ⟨.hbm, 232, rfl⟩
abbrev main_call6_call0_v0 : Ref sig .tc := ⟨.hbm, 233, rfl⟩
abbrev main_call6_call0_v1 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_cst_19 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_call7_cst : Ref sig .tc := ⟨.hbm, 252, rfl⟩
abbrev main_call7_v0 : Ref sig .tc := ⟨.hbm, 253, rfl⟩
abbrev main_v121 : Ref sig .tc := ⟨.hbm, 254, rfl⟩
abbrev main_cst_20 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_cst_21 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100x128 : S_.BroadcastsInDim S100x128 (![] : Fin 0 → Fin S100x128.rank)
  bcast_S50000_S50000x1_0 : S50000.BroadcastsInDim S50000x1 (![0] : Fin 1 → Fin S50000x1.rank)
  concatenates_S100x128_S100x128_S100x256_d1 : Shape.Concatenates [S100x128, S100x128] S100x256 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S100x128_S50000x1_S50000x128_1_0_0_1_wf : ScatterDims.WF S100x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S100x128_S50000x1_S50000x128_1_0_0_1 : ScatterDims S100x128 S50000x1 S50000x128 where
  updateWindowDims := [1]
  insertedWindowDims := [0]
  scatterDimsToOperandDims := [0]
  indexVectorDim := 1
  wf := scatter_S100x128_S50000x1_S50000x128_1_0_0_1_wf

class Facts : Prop extends Facts₀ where

variable [Facts]
-- ==== Proof.K.RunCond.lean ====
/-
  The run of the program's thirteen items (seven stretches of host operations around six kernel regions) to the last
  contents of EVERY unscoped buffer, given each region's segment record. The frame claim reads the nineteen arguments
  off those contents and the value claim reads the result buffer.
-/
import proofs.«400309_j11605001633947_1_alg».proof.Proof.Gen.Kernel.Regions

set_option maxRecDepth 1268

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given one segment record per kernel region, entered from the contents the item before left and
    left at the contents the next item finds: every weakly fair execution terminates and every final memory holds each
    unscoped buffer at the last contents `V13 m outs c` — the result buffer among them, and each argument, which no item
    writes. The launch is the several-regions one over the same segment list as the frame's; only what is read off
    the last contents differs. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c)) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, hpre3 c, hpost3 c, hpre4 c, hpost4 c, hpre5 c, hpost5 c, sep_mono .rfl (hE6 c)⟩)
    (hinit := ?_) (QY := fun c s => ∀ b ∈ Pipeline.ucRefs τ sig, s.mem (((c : Thread nD τ)).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

end Cert.Kernel.Gen

end
-- ==== Proof.LibRegion.lean ====
import Idealize.ShloMosaic.Lib.Pipeline.RegionsLoop
import Idealize.ShloMosaic.Lib.Pipeline.Frame
import Idealize.ShloMosaic.Lib.Pipeline.FrameBody
import Idealize.ShloMosaic.Lib.Pipeline.Value

noncomputable section

namespace Cert

open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)

section chain
variable {τ : Topo} {sig : RefSig} {Val : EltTy → Type} (V : Valuation τ sig Val) {a b d : Ref sig .tc}
  (x : (Proc.devRef (τ := τ) .tc a).ty.Contents Val) (y : (Proc.devRef (τ := τ) .tc b).ty.Contents Val)
  (z : (Proc.devRef (τ := τ) .tc d).ty.Contents Val)

theorem upd1_at0 : Function.update V (Proc.devRef .tc a) x (Proc.devRef .tc a) = x := Function.update_self ..

theorem upd2_at0 (hab : a ≠ b) :
    Function.update (Function.update V (Proc.devRef .tc a) x) (Proc.devRef .tc b) y (Proc.devRef .tc a) = x := by
  rw [Function.update_of_ne (StableHlo.devRef_ne_of_ne hab), upd1_at0]

theorem upd3_at0 (hab : a ≠ b) (had : a ≠ d) :
    Function.update (Function.update (Function.update V (Proc.devRef .tc a) x) (Proc.devRef .tc b) y) (Proc.devRef .tc d) z
      (Proc.devRef .tc a) = x := by
  rw [Function.update_of_ne (StableHlo.devRef_ne_of_ne had), upd2_at0 V x y hab]

end chain

theorem zeroOff2 : (![0, 0] : Fin 2 → ℕ) = fun _ => 0 := by funext a; fin_cases a <;> rfl

-- A buffer whose last store covered it whole reads that store's payload.
theorem read_writes_unit {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

variable {nD : ℕ} {τ : Topo} {sig : RefSig} {Λ₀ : Idealize.SL.Sem.Labels} {n : ℕ} {F : FTy → Type} [FloatOps F]
  {cfgs : Fin n → Pipeline.Cfg sig Λ₀} (defs₀ : Defs nD τ sig (Elt F) Λ₀)
  (pd : (p : Fin n) → (c : Dev nD) → Dat τ (Elt F) Unit ℕ (UR sig nD τ) ℕ (cfgs p) c) {p : Fin n}

set_option backward.isDefEq.respectTransparency.types false in
/-- A region segment from its body's obligation: the state held at `Vi` splits into the arrays and the rest, and joins again at `Vo`, equal to `Vi` off the arrays `ws`. -/
def mkReg (lf : Pipeline.LaunchFacts (nD := nD) (τ := τ) cfgs p) (Vi Vo : Dev nD → Valuation τ sig (Elt F))
    (hbody : ∀ c, BodyObligation (pd p c) defs₀ Variants.none () Set.univ)
    (hin : ∀ c, Pipeline.ΦA (cfgs p).spec c ⊢ (pd p c).Φ 0)
    (hout : ∀ c, (pd p c).Φ (Fin.last (cfgs p).N) ⊢ Pipeline.ΦA (cfgs p).spec c)
    (hfin : ∀ c w, (pd p c).arrAt w (cfgs p).N = Vo c (Pipeline.arrRef (cfgs p).spec w))
    (ws : List (Fin (cfgs p).W)) (hof : ∀ c (r : Ref sig .tc), r ∉ ws.map (Pipeline.arrRef (cfgs p).spec) → Vo c r = Vi c r)
    (hA : ∀ c w, (pd p c).A w = Vi c (Pipeline.arrRef (cfgs p).spec w) := by intros; rfl)
    (hq : ∀ c w, (pd p c).q w = fullShare := by intros; rfl)
    (howed : ∀ c t, (pd p c).owed t = 0 := by intros; rfl)
    (hrec : ∀ c x, x ∈ (pd p c).recorded 0 := by intros; trivial) :
    Pipeline.RegionSeg (fun q => (cfgs q).toPCfg (Val := Elt F)) (fun q => (cfgs q).toPCfg_adm) pd () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (Vi c) ∗ (∃ r, prngReg c r) ∗ ∃ W, owes (c : Thread nD τ) (0 : CellTallies nD τ sig Unit) W)
  post c := iprop(StableHlo.held (c : Thread nD τ) (Pipeline.ucRefs τ sig) (Vo c) ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (fun q => (cfgs q).toPCfg (Val := Elt F)) (fun q => (cfgs q).toPCfg_adm) pd lf.win lf.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed c]; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (fun q => (cfgs q).toPCfg (Val := Elt F)) (fun q => (cfgs q).toPCfg_adm) (Ix := Unit) (Name := ℕ) (U := UR sig nD τ) (Lvl := ℕ)
      lf.win lf.arr_whole c pd ((pd p c).share_full (hq c))
      (fun b => Vi c b) (fun b => Vo c b) ((pd p c).arrAt · (cfgs p).N) (hfin c) fun b hb => hof c b fun h => hb (by
        obtain ⟨w, -, rfl⟩ := List.mem_map.mp h
        exact Finset.mem_image_of_mem _ (Finset.mem_univ w))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c]; iexact HO

end Cert

end
-- ==== Proof.K.Reg0.lean ====
import proofs.«400309_j11605001633947_1_alg».proof.Proof.Gen.Kernel.Launch
import proofs.«400309_j11605001633947_1_alg».proof.Proof.Gen.Kernel.Skeleton
import proofs.«400309_j11605001633947_1_alg».proof.Proof.Gen.Kernel.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S2000x128 .f32 := iblk0 V c 0 t
abbrev ab0 (c : Dev nD) (t : Fin cfg0.N) : Vec F S2000x128 .f32 := iblk0 V c 1 t
abbrev wb0 (c : Dev nD) (t : Fin cfg0.N) : Vec F S128x128 .f32 := iblk0 V c 2 t
abbrev bb0 (c : Dev nD) (t : Fin cfg0.N) : Vec F S1x128 .f32 := iblk0 V c 3 t

def sc0 (c : Dev nD) : (n : ℕ) → n < cfg0.N → Vec F S1x128 .f32 × Vec F S1x128 .f32
  | 0, h => (k0_pay4 (xb0 V c ⟨0, h⟩) (ab0 V c ⟨0, h⟩) (wb0 V c ⟨0, h⟩) (bb0 V c ⟨0, h⟩) k0_pay1,
      k0_pay5 (xb0 V c ⟨0, h⟩) (ab0 V c ⟨0, h⟩) (wb0 V c ⟨0, h⟩) (bb0 V c ⟨0, h⟩) k0_pay2)
  | n + 1, h => (k0_pay4 (xb0 V c ⟨n + 1, h⟩) (ab0 V c ⟨n + 1, h⟩) (wb0 V c ⟨n + 1, h⟩) (bb0 V c ⟨n + 1, h⟩) (sc0 c n (Nat.lt_of_succ_lt h)).1,
      k0_pay5 (xb0 V c ⟨n + 1, h⟩) (ab0 V c ⟨n + 1, h⟩) (wb0 V c ⟨n + 1, h⟩) (bb0 V c ⟨n + 1, h⟩) (sc0 c n (Nat.lt_of_succ_lt h)).2)

theorem sc0_zero (c : Dev nD) (h : 0 < cfg0.N) :
    sc0 V c 0 h = (k0_pay4 (xb0 V c ⟨0, h⟩) (ab0 V c ⟨0, h⟩) (wb0 V c ⟨0, h⟩) (bb0 V c ⟨0, h⟩) k0_pay1,
      k0_pay5 (xb0 V c ⟨0, h⟩) (ab0 V c ⟨0, h⟩) (wb0 V c ⟨0, h⟩) (bb0 V c ⟨0, h⟩) k0_pay2) := rfl

theorem sc0_succ (c : Dev nD) (n : ℕ) (h : n + 1 < cfg0.N) :
    sc0 V c (n + 1) h = (k0_pay4 (xb0 V c ⟨n + 1, h⟩) (ab0 V c ⟨n + 1, h⟩) (wb0 V c ⟨n + 1, h⟩) (bb0 V c ⟨n + 1, h⟩) (sc0 V c n (Nat.lt_of_succ_lt h)).1,
      k0_pay5 (xb0 V c ⟨n + 1, h⟩) (ab0 V c ⟨n + 1, h⟩) (wb0 V c ⟨n + 1, h⟩) (bb0 V c ⟨n + 1, h⟩) (sc0 V c n (Nat.lt_of_succ_lt h)).2) := rfl

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1
theorem hx0 : ∀ t : Fin cfg0.N, ¬(cond0_1 (grid0.coords t) ∧ cond0_2 (grid0.coords t)) :=
  (by decide +kernel : ∀ t : Fin grid0.N, ¬(cond0_1 (grid0.coords t) ∧ cond0_2 (grid0.coords t)))

/-- The rows after a point are the update of the reset rows at the first point, of the previous rows `s` afterwards. -/
theorem sc0_eq (c : Dev nD) (t : Fin cfg0.N) (s) (hs : ∀ h : 0 < t.val, s = sc0 V c (t.val - 1) (by omega)) :
    (sc0 V c t.val t.isLt).1 = k0_pay4 (xb0 V c t) (ab0 V c t) (wb0 V c t) (bb0 V c t) (if cond0_1 (grid0.coords t) then k0_pay1 else s.1)
      ∧ (sc0 V c t.val t.isLt).2 = k0_pay5 (xb0 V c t) (ab0 V c t) (wb0 V c t) (bb0 V c t) (if cond0_1 (grid0.coords t) then k0_pay2 else s.2) := by
  obtain ⟨n, hn⟩ := t
  cases n with
  | zero => simp only [if_pos ((hcond0_1 ⟨0, hn⟩).mpr rfl)]; exact ⟨rfl, rfl⟩
  | succ n => simp only [if_neg fun h => Nat.succ_ne_zero n ((hcond0_1 ⟨n + 1, hn⟩).mp h), hs (Nat.succ_pos n)]; exact ⟨rfl, rfl⟩

def PhiS0 (c : Dev nD) (n : ℕ) (hn : n ≤ cfg0.N) : sProp 𝕄 :=
  iprop(∃ s, ⌜∀ h : 0 < n, s = sc0 V c (n - 1) (by omega)⌝ ∗ (((c : Thread nD τ).loc cc0_scratch0) ↦{fullShare} s.1) ∗ (((c : Thread nD τ).loc cc0_scratch1) ↦{fullShare} s.2)
    ∗ Pipeline.scopedRestBut (Ix := Unit) (Name := ℕ) (U := UR sig nD τ) (Lvl := ℕ) (Val := Elt F) spec0 c [cc0_scratch0, cc0_scratch1] ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (xb0 V c t) (ab0 V c t) (wb0 V c t) (bb0 V c t)
    | ⟨5, _⟩ => (sc0 V c t.val t.isLt).1
    | ⟨6, _⟩ => (sc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay3 (xb0 V c t) (ab0 V c t) (wb0 V c t) (bb0 V c t) := by dsimp only [dat0]
theorem after0_5 (c : Dev nD) (t : Fin cfg0.N) : (dat0 V c).after 5 t = (sc0 V c t.val t.isLt).1 := by dsimp only [dat0]
theorem after0_6 (c : Dev nD) (t : Fin cfg0.N) : (dat0 V c).after 6 t = (sc0 V c t.val t.isLt).2 := by dsimp only [dat0]

theorem Phi0 (c : Dev nD) (t : Fin (cfg0.N + 1)) : (dat0 V c).Φ t = PhiS0 V c t.val (Nat.le_of_lt_succ t.isLt) := rfl

/-- One run for every point: the first condition selects the reset of the rows, the second their copy to the row outputs. -/
theorem run0 (c : Dev nD) {i : grid0.Coords} {arg1 arg2 arg5 : Memref sig .tc .vmem S2000x128 .f32} {arg3 : Memref sig .tc .vmem S128x128 .f32} {arg4 arg6 arg7 arg8 arg9 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (hx : ¬(cond0_1 i ∧ cond0_2 i)) {x0 x1 x4 : Vec F S2000x128 .f32} {x2 : Vec F S128x128 .f32} {x3 x5 x6 s0 s1 : Vec F S1x128 .f32} {E : Set ℕ} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ owns c arg8 fullShare s0 ∗ owns c arg9 fullShare s1
        ∗ (iprop(owns c arg1 fullShare x0 ∗ owns c arg2 fullShare x1 ∗ owns c arg3 fullShare x2 ∗ owns c arg4 fullShare x3 ∗ owns c arg5 fullShare (k0_pay3 x0 x1 x2 x3)
            ∗ owns c arg6 fullShare (if cond0_2 i then k0_pay4 x0 x1 x2 x3 (if cond0_1 i then k0_pay1 else s0) else x5)
            ∗ owns c arg7 fullShare (if cond0_2 i then k0_pay5 x0 x1 x2 x3 (if cond0_1 i then k0_pay2 else s1) else x6)
            ∗ owns c arg8 fullShare (k0_pay4 x0 x1 x2 x3 (if cond0_1 i then k0_pay1 else s0))
            ∗ owns c arg9 fullShare (k0_pay5 x0 x1 x2 x3 (if cond0_1 i then k0_pay2 else s1))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  by_cases hc1 : cond0_1 i <;> by_cases hc2 : cond0_2 i
  · exact absurd ⟨hc1, hc2⟩ hx
  all_goals
    first | simp only [if_neg hc1] | simp only [if_pos hc1]
    first | simp only [if_neg hc2] | simp only [if_pos hc2]
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst_vars
    sl_exec (disch := first | exact hc1 | exact hc2)
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      · first | iexact H0 | iexact H1 | iexact H2 | iexact H3 | iexact H4 | iexact H5 | iexact H6 | iexact H7 | iexact H8
      ipureintro
      first | (sl_unfold_run_names; rw [read_writes_unit _ _ zeroOff2]; simp only [View.readAt_eq_ld, View.ld_unit_zero (S := S2000x128) zeroOff2, View.ld_unit_zero (S := S128x128) zeroOff2, View.ld_unit_zero (S := S1x128) zeroOff2, View.readCov_unit_zero (S := S1x128) _ zeroOff2]) | rfl

theorem idle0 : ∀ (w : Fin cfg0.W) (t : Fin cfg0.N), 5 ≤ w.val → if cond0_2 (grid0.coords t) then cfg0.idle w (grid0.coords t) = false
    else cfg0.idle w (grid0.coords t) = true ∧ (cfg0.win w).flush t = false := by decide +kernel

theorem leaves0 (c : Dev nD) (w : Fin cfg0.W) (hw : 5 ≤ w.val) (t : Fin cfg0.N) (d) :
    owns c ((cfg0.win w).stage (cfg0.slots t w)) fullShare (if cond0_2 (grid0.coords t) then (dat0 V c).after w t else (dat0 V c).before w t d) ⊢ (dat0 V c).leavesExact w t := by
  have h := idle0 w t hw
  by_cases hc2 : cond0_2 (grid0.coords t)
  · rw [if_pos hc2] at h ⊢; unfold Dat.leavesExact; rw [h]
  · rw [if_neg hc2] at h ⊢; rw [Dat.leavesExact_idle _ w t h.1 h.2]; iintro H; iexists d; iexact H

theorem before0 (c : Dev nD) (t : Fin cfg0.N) : (∀ d, (dat0 V c).before 0 t d = xb0 V c t) ∧ (∀ d, (dat0 V c).before 1 t d = ab0 V c t)
    ∧ (∀ d, (dat0 V c).before 2 t d = wb0 V c t) ∧ (∀ d, (dat0 V c).before 3 t d = bb0 V c t) := by
  refine ⟨?_, ?_, ?_, ?_⟩ <;> intro d <;> refine (Dat.before_in_eq_fetched (dat0 V c) _ ?_ ?_ ?_ ?_ t d).trans ?_ <;> intros <;> rfl

theorem body_obligation0 (c : Dev nD) : BodyObligation (dat0 (F := F) V c) (defs₀ (F := F)) Variants.none () Set.univ := fun t => by
  rw [bigSep_W0, bigSep_W0]
  obtain ⟨ha, hb, hc, hd⟩ := before0 V c t
  simp only [ha, hb, hc, hd, Phi0, PhiS0]
  iintro ⟨⟨%s, %hs, HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  obtain ⟨e1, e2⟩ := sc0_eq V c t s hs
  iapply run0 c (hx0 t)
  rw [owns_whole, owns_whole, owns_whole, owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← e1, ← e2]
  isplitl [HS0 HS1 Hr Hg]
  · iexists sc0 V c t.val t.isLt; isplitr; · ipureintro; exact fun _ => rfl
    isplitl [HS0]; · iexact HS0
    isplitl [HS1]; · iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply leaves0 V c 5 (by decide) t d5; iexact H5
  iapply leaves0 V c 6 (by decide) t d6; iexact H6

theorem hin0 (c : Dev nD) : Pipeline.ΦA spec0 c ⊢ (dat0 V c).Φ 0 := by
  unfold Pipeline.ΦA; rw [scopedRest0_split, Phi0, PhiS0]
  iintro ⟨⟨⟨⟨%d0, H0⟩, ⟨%d1, H1⟩⟩, Hr⟩, Hg⟩
  iexists (d0, d1); isplitr; · ipureintro; exact fun h => absurd h (Nat.lt_irrefl 0)
  isplitl [H0]; · iexact H0
  isplitl [H1]; · iexact H1
  isplitl [Hr]; · iexact Hr
  iexact Hg

theorem hout0 (c : Dev nD) : (dat0 V c).Φ (Fin.last cfg0.N) ⊢ Pipeline.ΦA spec0 c := by
  unfold Pipeline.ΦA; rw [scopedRest0_split, Phi0, PhiS0]
  iintro ⟨%s, -, H0, H1, Hr, Hg⟩
  isplitl [H0 H1 Hr]
  · isplitl [H0 H1]
    · isplitl [H0]; · iexists _; iexact H0
      iexists _; iexact H1
    iexact Hr
  iexact Hg

end Cert.Kernel.Reg

end
-- ==== Proof.K.Reg1.lean ====
import proofs.«400309_j11605001633947_1_alg».proof.Proof.Gen.Kernel.Launch
import proofs.«400309_j11605001633947_1_alg».proof.Proof.Gen.Kernel.Skeleton
import proofs.«400309_j11605001633947_1_alg».proof.Proof.Gen.Kernel.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lb1 (c : Dev nD) (t : Fin cfg1.N) : Vec F S2000x128 .f32 := iblk1 V c 0 t
abbrev mu1 (c : Dev nD) (t : Fin cfg1.N) : Vec F S1x128 .f32 := iblk1 V c 1 t
abbrev va1 (c : Dev nD) (t : Fin cfg1.N) : Vec F S1x128 .f32 := iblk1 V c 2 t
abbrev gb1 (c : Dev nD) (t : Fin cfg1.N) : Vec F S1x128 .f32 := iblk1 V c 3 t
abbrev eb1 (c : Dev nD) (t : Fin cfg1.N) : Vec F S1x128 .f32 := iblk1 V c 4 t
abbrev wb1 (c : Dev nD) (t : Fin cfg1.N) : Vec F S128x128 .f32 := iblk1 V c 5 t
abbrev bb1 (c : Dev nD) (t : Fin cfg1.N) : Vec F S1x128 .f32 := iblk1 V c 6 t

abbrev lo1 (c : Dev nD) (t : Fin cfg1.N) : FVec F S2000x128 .f32 :=
  k1_pay5 (lb1 V c t) (va1 V c t) (gb1 V c t) (mu1 V c t) (eb1 V c t) (wb1 V c t) (bb1 V c t)

def sc1 (c : Dev nD) : (n : ℕ) → n < cfg1.N → Vec F S1x128 .f32 × Vec F S1x128 .f32
  | 0, h => (k1_pay1 (lo1 V c ⟨0, h⟩) k1_pay3, k1_pay2 (lo1 V c ⟨0, h⟩) k1_pay4)
  | n + 1, h => (k1_pay1 (lo1 V c ⟨n + 1, h⟩) (sc1 c n (Nat.lt_of_succ_lt h)).1, k1_pay2 (lo1 V c ⟨n + 1, h⟩) (sc1 c n (Nat.lt_of_succ_lt h)).2)

theorem sc1_zero (c : Dev nD) (h : 0 < cfg1.N) :
    sc1 V c 0 h = (k1_pay1 (lo1 V c ⟨0, h⟩) k1_pay3, k1_pay2 (lo1 V c ⟨0, h⟩) k1_pay4) := rfl

theorem sc1_succ (c : Dev nD) (n : ℕ) (h : n + 1 < cfg1.N) :
    sc1 V c (n + 1) h = (k1_pay1 (lo1 V c ⟨n + 1, h⟩) (sc1 V c n (Nat.lt_of_succ_lt h)).1, k1_pay2 (lo1 V c ⟨n + 1, h⟩) (sc1 V c n (Nat.lt_of_succ_lt h)).2) := rfl

abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

set_option maxHeartbeats 4000000 in
/-- The two conditions decide which stores run; in every case each buffer ends at the payload of the last store into it. -/
theorem run1 (c : Dev nD) (i : grid1.Coords) {arg1 arg8 : Memref sig .tc .vmem S2000x128 .f32} {arg2 arg3 arg4 arg5 arg7 arg9 arg10 arg11 arg12 : Memref sig .tc .vmem S1x128 .f32} {arg6 : Memref sig .tc .vmem S128x128 .f32} {harg1 harg2 harg3 harg4 harg5 harg6 harg7 harg8 harg9 harg10 harg11 harg12}
    {x0 x1 x2 x3 x4 x5 x6 x7 xi8 xi9 xs0 xs1 E} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
        ∗ owns c.tc arg8 fullShare x7 ∗ owns c.tc arg9 fullShare xi8 ∗ owns c.tc arg10 fullShare xi9 ∗ owns c.tc arg11 fullShare xs0 ∗ owns c.tc arg12 fullShare xs1
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
            ∗ owns c.tc arg8 fullShare (k1_pay5 x0 x2 x3 x1 x4 x5 x6) ∗ owns c.tc arg9 fullShare (if cond1_1 i then k1_pay1 (k1_pay5 x0 x2 x3 x1 x4 x5 x6) (if cond1_0 i then k1_pay3 else xs0) else xi8) ∗ owns c.tc arg10 fullShare (if cond1_1 i then k1_pay2 (k1_pay5 x0 x2 x3 x1 x4 x5 x6) (if cond1_0 i then k1_pay4 else xs1) else xi9)
            ∗ owns c.tc arg11 fullShare (k1_pay1 (k1_pay5 x0 x2 x3 x1 x4 x5 x6) (if cond1_0 i then k1_pay3 else xs0)) ∗ owns c.tc arg12 fullShare (k1_pay2 (k1_pay5 x0 x2 x3 x1 x4 x5 x6) (if cond1_0 i then k1_pay4 else xs1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  split_ifs
  all_goals
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    subst hf0 hf1 hf2 hf3 hf4 hf5 hf6 hf7 hf8 hf9 hf10 hf11
    sl_exec
    sl_step
    iapply Hk
    isplitl [H0]; swap; isplitl [H1]; swap; isplitl [H2]; swap; isplitl [H3]; swap; isplitl [H4]; swap; isplitl [H5]; swap
    isplitl [H6]; swap; isplitl [H7]; swap; isplitl [H8]; swap; isplitl [H9]; swap; isplitl [H10]; swap
    all_goals
      iexists _; isplitr; swap; iassumption
      ipureintro; sl_unfold_run_names
      simp only [read_writes_unit (S := S2000x128) _ _ zeroOff2, read_writes_unit (S := S1x128) _ _ zeroOff2, View.readAt_eq_ld, View.ld_unit_zero (S := S2000x128) zeroOff2, View.ld_unit_zero (S := S1x128) zeroOff2, View.ld_unit_zero (S := S128x128) zeroOff2, View.readCov_cons_toLoadRect]

abbrev scM1_0 : Memref sig .tc .vmem S1x128 .f32 := Memref.whole cc1_scratch0
abbrev scM1_1 : Memref sig .tc .vmem S1x128 .f32 := Memref.whole cc1_scratch1

def PhiS1 (c : Dev nD) (n : ℕ) (hn : n ≤ cfg1.N) : sProp 𝕄 :=
  iprop(iprop((∃ s, ⌜∀ h : n ≠ 0, s = sc1 V c (n - 1) (by omega)⌝ ∗ owns c.tc scM1_0 fullShare s.1 ∗ owns c.tc scM1_1 fullShare s.2)
      ∗ Pipeline.scopedRestBut spec1 c [cc1_scratch0, cc1_scratch1]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => lo1 V c t
    | ⟨8, _⟩ => (sc1 V c t.val t.isLt).1
    | ⟨9, _⟩ => (sc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = lo1 V c t := by dsimp only [dat1]
theorem after1_8 (c : Dev nD) (t : Fin cfg1.N) : (dat1 V c).after 8 t = (sc1 V c t.val t.isLt).1 := by dsimp only [dat1]
theorem after1_9 (c : Dev nD) (t : Fin cfg1.N) : (dat1 V c).after 9 t = (sc1 V c t.val t.isLt).2 := by dsimp only [dat1]

theorem Phi1_eq (c : Dev nD) (k : Fin (cfg1.N + 1)) : (dat1 V c).Φ k = PhiS1 V c k.val (Nat.le_of_lt_succ k.isLt) := rfl

theorem liveAt1 : ∀ (w : Fin cfg1.W) (t : Fin cfg1.N), cond1_1 (grid1.coords t) → cfg1.idle w (grid1.coords t) = false := by decide +kernel

theorem idleAt1 : ∀ (w : Fin cfg1.W) (t : Fin cfg1.N), 8 ≤ w.val → ¬cond1_1 (grid1.coords t) → cfg1.idle w (grid1.coords t) = true ∧ (cfg1.win w).flush t = false := by decide +kernel

theorem out1 (c : Dev nD) (t : Fin cfg1.N) (w : Fin cfg1.W) (hw : 8 ≤ w.val) {d x} (hx : cond1_1 (grid1.coords t) → (dat1 V c).after w t = x) :
    owns c.tc ((cfg1.win w).stage (cfg1.slots t w)) fullShare (if cond1_1 (grid1.coords t) then x else (dat1 V c).before w t d) ⊢ (dat1 V c).leavesExact w t := by
  by_cases h : cond1_1 (grid1.coords t)
  · rw [if_pos h, ← hx h]; unfold Dat.leavesExact; rw [liveAt1 w t h]; try exact Entails.refl _
  · rw [if_neg h, Dat.leavesExact_idle _ w t (idleAt1 w t hw h).1 (idleAt1 w t hw h).2]; iintro H; iexists _; iexact H

theorem PhiA1_eq (c : Dev nD) :
    (Pipeline.ΦA spec1 c : sProp 𝕄)
      = iprop(iprop(iprop((∃ d, owns c.tc scM1_0 fullShare d) ∗ (∃ d, owns c.tc scM1_1 fullShare d))
          ∗ Pipeline.scopedRestBut spec1 c [cc1_scratch0, cc1_scratch1]) ∗ (∃ r, prngReg c r)) := by
  unfold Pipeline.ΦA; rw [scopedRest1_split]; simp only [scM1_0, scM1_1, owns_whole]; try rfl

/-- One step of the scratch rows' recursion, by cases on the point being the first. -/
theorem sc1_step (c : Dev nD) (t : Fin cfg1.N) (s) (hs : ∀ h : t.val ≠ 0, s = sc1 V c (t.val - 1) (by omega)) :
    sc1 V c t.val t.isLt = (k1_pay1 (lo1 V c t) (if cond1_0 (grid1.coords t) then k1_pay3 else s.1), k1_pay2 (lo1 V c t) (if cond1_0 (grid1.coords t) then k1_pay4 else s.2)) := by
  have hc := (by decide +kernel : ∀ t : Fin grid1.N, cond1_0 (grid1.coords t) ↔ t.val = 0) t
  obtain ⟨n, hn⟩ := t
  cases n with
  | zero => simp only [if_pos (hc.mpr rfl)]; rfl
  | succ n => simp only [if_neg fun h => Nat.succ_ne_zero n (hc.mp h), hs (Nat.succ_ne_zero n)]; rfl

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;> exact fun d => ((dat1 V c).before_in_eq_fetched _ rfl (fun _ => rfl) (fun _ _ _ => rfl) (fun _ => rfl) t d).trans (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]; dsimp only
  obtain ⟨b0, b1, b2, b3, b4, b5, b6⟩ := before1 V c t
  simp only [b0, b1, b2, b3, b4, b5, b6]
  rw [Phi1_eq, Phi1_eq]; unfold PhiS1
  iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e := sc1_step V c t s hs
  iapply run1 c (grid1.coords t)
  iframe H0 H1 H2 H3 H4 H5 H6 H7 H8 H9 HS0 HS1
  iintro ⟨H0, H1, H2, H3, H4, H5, H6, H7, H8, H9, HS0, HS1⟩
  isplitl [HS0 HS1 HR Hg]
  · isplitl [HS0 HS1 HR]; swap; · iexact Hg
    isplitl [HS0 HS1]; swap; · iexact HR
    iexists (_, _); isplitr; swap
    · isplitl [HS0]; · iexact HS0
      iexact HS1
    ipureintro; exact fun _ => e.symm
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply out1 V c t 8 (by decide) fun _ => (after1_8 V c t).trans (congrArg Prod.fst e); iexact H8
  iapply out1 V c t 9 (by decide) fun _ => (after1_9 V c t).trans (congrArg Prod.snd e); iexact H9

theorem hin1 (c : Dev nD) : Pipeline.ΦA spec1 c ⊢ (dat1 V c).Φ 0 := by
  rw [PhiA1_eq, Phi1_eq]; unfold PhiS1
  iintro ⟨⟨⟨⟨%d0, H0⟩, ⟨%d1, H1⟩⟩, HR⟩, Hg⟩
  iframe HR Hg
  iexists (d0, d1); iframe H0 H1
  ipureintro; exact fun h => absurd rfl h

theorem hout1 (c : Dev nD) : (dat1 V c).Φ (Fin.last cfg1.N) ⊢ Pipeline.ΦA spec1 c := by
  rw [PhiA1_eq, Phi1_eq]; unfold PhiS1
  iintro ⟨⟨⟨%s, -, H0, H1⟩, HR⟩, Hg⟩
  iframe HR Hg
  isplitl [H0] <;> iexists _ <;> iassumption

end Cert.Kernel.Reg

end
-- ==== Proof.K.Reg2.lean ====
import proofs.«400309_j11605001633947_1_alg».proof.Proof.Gen.Kernel.Launch
import proofs.«400309_j11605001633947_1_alg».proof.Proof.Gen.Kernel.Skeleton
import proofs.«400309_j11605001633947_1_alg».proof.Proof.Gen.Kernel.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lb2 (c : Dev nD) (t : Fin cfg2.N) : Vec F S2000x128 .f32 := iblk2 V c 0 t
abbrev mu2 (c : Dev nD) (t : Fin cfg2.N) : Vec F S1x128 .f32 := iblk2 V c 1 t
abbrev va2 (c : Dev nD) (t : Fin cfg2.N) : Vec F S1x128 .f32 := iblk2 V c 2 t
abbrev gb2 (c : Dev nD) (t : Fin cfg2.N) : Vec F S1x128 .f32 := iblk2 V c 3 t
abbrev eb2 (c : Dev nD) (t : Fin cfg2.N) : Vec F S1x128 .f32 := iblk2 V c 4 t
abbrev ib2 (c : Dev nD) (t : Fin cfg2.N) : Vec F S2000x1 .i32 := iblk2 V c 5 t

abbrev ho2 (c : Dev nD) (t : Fin cfg2.N) : FVec F S2000x128 .f32 :=
  k2_pay3 (lb2 V c t) (va2 V c t) (gb2 V c t) (mu2 V c t) (eb2 V c t)

def sc2 (c : Dev nD) : (n : ℕ) → n < cfg2.N → Vec F S128x128 .f32
  | 0, h => k2_pay1 (k2_pay4 (ib2 V c ⟨0, h⟩)) k2_pay2
      (k2_pay5 (lb2 V c ⟨0, h⟩) (va2 V c ⟨0, h⟩) (gb2 V c ⟨0, h⟩) (mu2 V c ⟨0, h⟩) (eb2 V c ⟨0, h⟩))
  | n + 1, h => k2_pay1 (k2_pay4 (ib2 V c ⟨n + 1, h⟩)) (sc2 c n (Nat.lt_of_succ_lt h))
      (k2_pay5 (lb2 V c ⟨n + 1, h⟩) (va2 V c ⟨n + 1, h⟩) (gb2 V c ⟨n + 1, h⟩) (mu2 V c ⟨n + 1, h⟩) (eb2 V c ⟨n + 1, h⟩))

theorem sc2_zero (c : Dev nD) (h : 0 < cfg2.N) :
    sc2 V c 0 h = k2_pay1 (k2_pay4 (ib2 V c ⟨0, h⟩)) k2_pay2
      (k2_pay5 (lb2 V c ⟨0, h⟩) (va2 V c ⟨0, h⟩) (gb2 V c ⟨0, h⟩) (mu2 V c ⟨0, h⟩) (eb2 V c ⟨0, h⟩)) := rfl

theorem sc2_succ (c : Dev nD) (n : ℕ) (h : n + 1 < cfg2.N) :
    sc2 V c (n + 1) h = k2_pay1 (k2_pay4 (ib2 V c ⟨n + 1, h⟩)) (sc2 V c n (Nat.lt_of_succ_lt h))
      (k2_pay5 (lb2 V c ⟨n + 1, h⟩) (va2 V c ⟨n + 1, h⟩) (gb2 V c ⟨n + 1, h⟩) (mu2 V c ⟨n + 1, h⟩) (eb2 V c ⟨n + 1, h⟩)) := rfl

abbrev scM2 : Memref sig .tc .vmem S128x128 .f32 := Memref.whole cc2_scratch0

/-- Before position `n` the accumulator holds what point `n - 1` left, if there is such a point. -/
def PhiS2 (c : Dev nD) (n : ℕ) (_ : n ≤ cfg2.N) : sProp 𝕄 :=
  iprop(iprop((∃ d, ⌜∀ m h, n = m + 1 → d = sc2 V c m h⌝ ∗ owns c.tc scM2 fullShare d) ∗ Pipeline.scopedRestBut spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => ho2 V c t
    | ⟨7, _⟩ => sc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = ho2 V c t := rfl
theorem after2_7 (c : Dev nD) (t : Fin cfg2.N) : (dat2 V c).after 7 t = sc2 V c t.val t.isLt := rfl

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;>
    exact fun d => ((dat2 V c).before_in_eq_fetched _ rfl (fun _ => rfl) (fun _ _ _ => rfl) (fun _ => rfl) t d).trans rfl

theorem PhiA2_eq (c : Dev nD) :
    (Pipeline.ΦA spec2 c : sProp 𝕄)
      = iprop(iprop((∃ d, owns c.tc scM2 fullShare d) ∗ Pipeline.scopedRestBut spec2 c [cc2_scratch0]) ∗ (∃ r, prngReg c r)) := by
  unfold Pipeline.ΦA; rw [scopedRest2_split]; simp only [scM2, owns_whole]; try rfl

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

theorem hc2 : ∀ t : Fin cfg2.N, cond2_0 (grid2.coords t) ↔ t.val = 0 := by decide +kernel
theorem ex2 : ∀ t : Fin cfg2.N, cond2_0 (grid2.coords t) → ¬cond2_1 (grid2.coords t) := by decide +kernel
theorem live2_7 : ∀ t : Fin cfg2.N, cond2_1 (grid2.coords t) → cfg2.idle 7 (grid2.coords t) = false := by decide +kernel
theorem idle2_7 : ∀ t : Fin cfg2.N, ¬cond2_1 (grid2.coords t) → cfg2.idle 7 (grid2.coords t) = true ∧ (cfg2.win 7).flush t = false := by decide +kernel

/-- One run for every point: the accumulator is reset where the first condition holds and copied out where the second does. -/
theorem run2 (c : Dev nD) {i : grid2.Coords} (arg1 arg7 : Memref sig .tc .vmem S2000x128 .f32) (arg2 arg3 arg4 arg5 : Memref sig .tc .vmem S1x128 .f32) (arg6 : Memref sig .tc .vmem S2000x1 .i32) (arg8 arg9 : Memref sig .tc .vmem S128x128 .f32)
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {x0 : Vec F S2000x128 .f32} {x1 x2 x3 x4 : Vec F S1x128 .f32} {x5 : Vec F S2000x1 .i32} (x6 : Vec F S2000x128 .f32) (x7 xs : Vec F S128x128 .f32) {p : Vec F S128x128 .f32}
    (hx : cond2_0 i → ¬cond2_1 i) (hp : k2_pay1 (k2_pay4 x5) (if cond2_0 i then k2_pay2 else xs) (k2_pay5 x0 x2 x3 x1 x4) = p) {E : Set ℕ} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare xs
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (k2_pay3 x0 x2 x3 x1 x4) ∗ owns c.tc arg8 fullShare (if cond2_1 i then p else x7) ∗ owns c.tc arg9 fullShare p) -∗ K ⟨⟩))
      ⊢ wp frame (wpE (defs₀ (F := F)) Variants.none c none) E (cc2__stage3_kernel i arg1 harg1 arg2 harg2 arg3 harg3 arg4 harg4 arg5 harg5 arg6 harg6 arg7 harg7 arg8 harg8 arg9 harg9) K := by
  subst hp
  by_cases hc1 : cond2_1 i <;> by_cases hc0 : cond2_0 i
  · exact absurd hc1 (hx hc0)
  all_goals
    first | rw [if_pos hc0] | rw [if_neg hc0]
    first | rw [if_pos hc1] | rw [if_neg hc1]
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    subst hf0 hf1 hf2 hf3 hf4 hf5 hf6 hf7 hfs
    sl_exec
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      first | iexact H0 | iexact H1 | iexact H2 | iexact H3 | iexact H4 | iexact H5 | iexact H6 | iexact H7 | iexact HS
      ipureintro; sl_unfold_words
      try first | rw [read_writes_unit (S := S2000x128) _ _ zeroOff2] | rw [read_writes_unit (S := S128x128) _ _ zeroOff2]
      simp only [View.readCov_unit_zero (S := S128x128) _ zeroOff2, View.readAt_eq_ld, View.ld_unit_zero (S := S2000x128) zeroOff2, View.ld_unit_zero (S := S1x128) zeroOff2,
        View.ld_unit_zero (S := S2000x1) zeroOff2, View.ld_unit_zero (S := S128x128) zeroOff2]

/-- One step of the accumulator's recursion, the reset folded in. -/
theorem acc2 (c : Dev nD) (t : Fin cfg2.N) (d) (hd : ∀ m h, t.val = m + 1 → d = sc2 V c m h) :
    k2_pay1 (k2_pay4 (ib2 V c t)) (if cond2_0 (grid2.coords t) then k2_pay2 else d)
      (k2_pay5 (lb2 V c t) (va2 V c t) (gb2 V c t) (mu2 V c t) (eb2 V c t)) = sc2 V c t.val t.isLt := by
  obtain ⟨n, hn⟩ := t
  cases n with
  | zero => rw [if_pos ((hc2 ⟨0, hn⟩).mpr rfl)]; rfl
  | succ n => rw [if_neg fun e => Nat.succ_ne_zero n ((hc2 ⟨n + 1, hn⟩).mp e), hd n _ rfl]; rfl

/-- The second output's buffer: the accumulator at the last point, untouched elsewhere. -/
theorem leaves2_7 (c : Dev nD) (t : Fin cfg2.N) (d) :
    owns c.tc (st2_7 t) fullShare (if cond2_1 (grid2.coords t) then sc2 V c t.val t.isLt else (dat2 V c).before 7 t d) ⊢ (dat2 V c).leavesExact 7 t := by
  by_cases h : cond2_1 (grid2.coords t)
  · rw [if_pos h]; unfold Dat.leavesExact; rw [live2_7 t h]; rfl
  · rw [if_neg h, Dat.leavesExact_idle _ 7 t (idle2_7 t h).1 (idle2_7 t h).2]; iintro H; iexists d; iexact H

theorem body_obligation2 (c : Dev nD) : BodyObligation (dat2 (F := F) V c) (defs₀ (F := F)) Variants.none () Set.univ := fun t => by
  obtain ⟨h0, h1, h2, h3, h4, h5⟩ := before2 V c t
  rw [bigSep_W2, bigSep_W2]
  simp only [h0, h1, h2, h3, h4, h5]
  show iprop(PhiS2 V c t.val (Nat.le_of_lt t.isLt) ∗ _) ⊢ wp frame _ _ (bodyAt2 t) fun _ => iprop(PhiS2 V c (t.val + 1) t.isLt ∗ (dat2 V c).owesAt () t.castSucc
      ∗ owns c.tc (st2_0 t) fullShare (lb2 V c t)
      ∗ owns c.tc (st2_1 t) fullShare (mu2 V c t)
      ∗ owns c.tc (st2_2 t) fullShare (va2 V c t)
      ∗ owns c.tc (st2_3 t) fullShare (gb2 V c t)
      ∗ owns c.tc (st2_4 t) fullShare (eb2 V c t)
      ∗ owns c.tc (st2_5 t) fullShare (ib2 V c t)
      ∗ owns c.tc (st2_6 t) fullShare (ho2 V c t)
      ∗ (dat2 V c).leavesExact 7 t)
  unfold PhiS2
  iintro ⟨⟨⟨⟨%xs, %hxs, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c (st2_0 t) (st2_6 t) (st2_1 t) (st2_2 t) (st2_3 t) (st2_4 t) (st2_5 t) (st2_7 t) scM2 ((dat2 V c).before 6 t d6) ((dat2 V c).before 7 t d7) xs (ex2 t) (acc2 V c t xs hxs))
  iframe
  iintro ⟨H0, H1, H2, H3, H4, H5, H6, H7, HS⟩
  iframe
  isplitl [HS]
  · iexists _; isplitr; swap; iexact HS; ipureintro; intro m h e; cases e; rfl
  iapply (leaves2_7 V c t d7); iexact H7

theorem hin2 (c : Dev nD) : Pipeline.ΦA spec2 c ⊢ (dat2 V c).Φ 0 := by
  rw [PhiA2_eq]; dsimp only [dat2, PhiS2]
  iintro ⟨⟨⟨%d, HS⟩, Hr⟩, Hg⟩
  iframe
  iexists d; isplitr
  · ipureintro; exact fun m _ e => absurd e.symm (Nat.succ_ne_zero m)
  iexact HS

theorem hout2 (c : Dev nD) : (dat2 V c).Φ (Fin.last cfg2.N) ⊢ Pipeline.ΦA spec2 c := by
  rw [PhiA2_eq]; dsimp only [dat2, PhiS2]
  iintro ⟨⟨⟨%d, -, HS⟩, Hr⟩, Hg⟩
  iframe
  iexists d; iexact HS

end Cert.Kernel.Reg

end
-- ==== Proof.K.Reg3.lean ====
import proofs.«400309_j11605001633947_1_alg».proof.Proof.Gen.Kernel.Launch
import proofs.«400309_j11605001633947_1_alg».proof.Proof.Gen.Kernel.Skeleton
import proofs.«400309_j11605001633947_1_alg».proof.Proof.Gen.Kernel.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3 (c : Dev nD) (t : Fin cfg3.N) : Vec F S2000x128 .f32 := iblk3 V c 0 t
abbrev ab3 (c : Dev nD) (t : Fin cfg3.N) : Vec F S2000x128 .f32 := iblk3 V c 1 t
abbrev wb3 (c : Dev nD) (t : Fin cfg3.N) : Vec F S128x128 .f32 := iblk3 V c 2 t
abbrev bb3 (c : Dev nD) (t : Fin cfg3.N) : Vec F S1x128 .f32 := iblk3 V c 3 t

def sc3 (c : Dev nD) : (n : ℕ) → n < cfg3.N → Vec F S1x128 .f32 × Vec F S1x128 .f32
  | 0, h => (k3_pay4 (xb3 V c ⟨0, h⟩) (ab3 V c ⟨0, h⟩) (wb3 V c ⟨0, h⟩) (bb3 V c ⟨0, h⟩) k3_pay1,
      k3_pay5 (xb3 V c ⟨0, h⟩) (ab3 V c ⟨0, h⟩) (wb3 V c ⟨0, h⟩) (bb3 V c ⟨0, h⟩) k3_pay2)
  | n + 1, h => (k3_pay4 (xb3 V c ⟨n + 1, h⟩) (ab3 V c ⟨n + 1, h⟩) (wb3 V c ⟨n + 1, h⟩) (bb3 V c ⟨n + 1, h⟩) (sc3 c n (Nat.lt_of_succ_lt h)).1,
      k3_pay5 (xb3 V c ⟨n + 1, h⟩) (ab3 V c ⟨n + 1, h⟩) (wb3 V c ⟨n + 1, h⟩) (bb3 V c ⟨n + 1, h⟩) (sc3 c n (Nat.lt_of_succ_lt h)).2)

theorem sc3_zero (c : Dev nD) (h : 0 < cfg3.N) :
    sc3 V c 0 h = (k3_pay4 (xb3 V c ⟨0, h⟩) (ab3 V c ⟨0, h⟩) (wb3 V c ⟨0, h⟩) (bb3 V c ⟨0, h⟩) k3_pay1,
      k3_pay5 (xb3 V c ⟨0, h⟩) (ab3 V c ⟨0, h⟩) (wb3 V c ⟨0, h⟩) (bb3 V c ⟨0, h⟩) k3_pay2) := rfl

theorem sc3_succ (c : Dev nD) (n : ℕ) (h : n + 1 < cfg3.N) :
    sc3 V c (n + 1) h = (k3_pay4 (xb3 V c ⟨n + 1, h⟩) (ab3 V c ⟨n + 1, h⟩) (wb3 V c ⟨n + 1, h⟩) (bb3 V c ⟨n + 1, h⟩) (sc3 V c n (Nat.lt_of_succ_lt h)).1,
      k3_pay5 (xb3 V c ⟨n + 1, h⟩) (ab3 V c ⟨n + 1, h⟩) (wb3 V c ⟨n + 1, h⟩) (bb3 V c ⟨n + 1, h⟩) (sc3 V c n (Nat.lt_of_succ_lt h)).2) := rfl

abbrev cond3_1 (i : grid3.Coords) : Prop := (Scalar.cmpi .ne (Scalar.extui (Scalar.cmpi .eq (BitVec.ofNat 32 (i 0).val) 0#32)) 0#32) = 1#1
theorem hcond3_1 : ∀ t : Fin cfg3.N, cond3_1 (grid3.coords t) ↔ t.val = 0 :=
  (by decide +kernel : ∀ t : Fin grid3.N, cond3_1 (grid3.coords t) ↔ t.val = 0)

abbrev cond3_2 (i : grid3.Coords) : Prop := k3_cond2 i = 1#1
theorem hx3 : ∀ t : Fin cfg3.N, ¬(cond3_1 (grid3.coords t) ∧ cond3_2 (grid3.coords t)) :=
  (by decide +kernel : ∀ t : Fin grid3.N, ¬(cond3_1 (grid3.coords t) ∧ cond3_2 (grid3.coords t)))

/-- The rows after a point are the update of the reset rows at the first point, of the previous rows `s` afterwards. -/
theorem sc3_eq (c : Dev nD) (t : Fin cfg3.N) (s) (hs : ∀ h : 0 < t.val, s = sc3 V c (t.val - 1) (by omega)) :
    (sc3 V c t.val t.isLt).1 = k3_pay4 (xb3 V c t) (ab3 V c t) (wb3 V c t) (bb3 V c t) (if cond3_1 (grid3.coords t) then k3_pay1 else s.1)
      ∧ (sc3 V c t.val t.isLt).2 = k3_pay5 (xb3 V c t) (ab3 V c t) (wb3 V c t) (bb3 V c t) (if cond3_1 (grid3.coords t) then k3_pay2 else s.2) := by
  obtain ⟨n, hn⟩ := t
  cases n with
  | zero => simp only [if_pos ((hcond3_1 ⟨0, hn⟩).mpr rfl)]; exact ⟨rfl, rfl⟩
  | succ n => simp only [if_neg fun h => Nat.succ_ne_zero n ((hcond3_1 ⟨n + 1, hn⟩).mp h), hs (Nat.succ_pos n)]; exact ⟨rfl, rfl⟩

def PhiS3 (c : Dev nD) (n : ℕ) (hn : n ≤ cfg3.N) : sProp 𝕄 :=
  iprop(∃ s, ⌜∀ h : 0 < n, s = sc3 V c (n - 1) (by omega)⌝ ∗ (((c : Thread nD τ).loc cc3_scratch0) ↦{fullShare} s.1) ∗ (((c : Thread nD τ).loc cc3_scratch1) ↦{fullShare} s.2)
    ∗ Pipeline.scopedRestBut (Ix := Unit) (Name := ℕ) (U := UR sig nD τ) (Lvl := ℕ) (Val := Elt F) spec3 c [cc3_scratch0, cc3_scratch1] ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (xb3 V c t) (ab3 V c t) (wb3 V c t) (bb3 V c t)
    | ⟨5, _⟩ => (sc3 V c t.val t.isLt).1
    | ⟨6, _⟩ => (sc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = k3_pay3 (xb3 V c t) (ab3 V c t) (wb3 V c t) (bb3 V c t) := by dsimp only [dat3]
theorem after3_5 (c : Dev nD) (t : Fin cfg3.N) : (dat3 V c).after 5 t = (sc3 V c t.val t.isLt).1 := by dsimp only [dat3]
theorem after3_6 (c : Dev nD) (t : Fin cfg3.N) : (dat3 V c).after 6 t = (sc3 V c t.val t.isLt).2 := by dsimp only [dat3]

theorem Phi3 (c : Dev nD) (t : Fin (cfg3.N + 1)) : (dat3 V c).Φ t = PhiS3 V c t.val (Nat.le_of_lt_succ t.isLt) := rfl

/-- One run for every point: the first condition selects the reset of the rows, the second their copy to the row outputs. -/
theorem run3 (c : Dev nD) {i : grid3.Coords} {arg1 arg2 arg5 : Memref sig .tc .vmem S2000x128 .f32} {arg3 : Memref sig .tc .vmem S128x128 .f32} {arg4 arg6 arg7 arg8 arg9 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (hx : ¬(cond3_1 i ∧ cond3_2 i)) {x0 x1 x4 : Vec F S2000x128 .f32} {x2 : Vec F S128x128 .f32} {x3 x5 x6 s0 s1 : Vec F S1x128 .f32} {E : Set ℕ} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ owns c arg8 fullShare s0 ∗ owns c arg9 fullShare s1
        ∗ (iprop(owns c arg1 fullShare x0 ∗ owns c arg2 fullShare x1 ∗ owns c arg3 fullShare x2 ∗ owns c arg4 fullShare x3 ∗ owns c arg5 fullShare (k3_pay3 x0 x1 x2 x3)
            ∗ owns c arg6 fullShare (if cond3_2 i then k3_pay4 x0 x1 x2 x3 (if cond3_1 i then k3_pay1 else s0) else x5)
            ∗ owns c arg7 fullShare (if cond3_2 i then k3_pay5 x0 x1 x2 x3 (if cond3_1 i then k3_pay2 else s1) else x6)
            ∗ owns c arg8 fullShare (k3_pay4 x0 x1 x2 x3 (if cond3_1 i then k3_pay1 else s0))
            ∗ owns c arg9 fullShare (k3_pay5 x0 x1 x2 x3 (if cond3_1 i then k3_pay2 else s1))) -∗ K ⟨⟩))
      ⊢ wp frame (wpE (defs₀ (F := F)) Variants.none c none) E (cc3__stage1_kernel i arg1 harg1 arg2 harg2 arg3 harg3 arg4 harg4 arg5 harg5 arg6 harg6 arg7 harg7 arg8 harg8 arg9 harg9) K := by
  by_cases hc1 : cond3_1 i <;> by_cases hc2 : cond3_2 i
  · exact absurd ⟨hc1, hc2⟩ hx
  all_goals
    first | simp only [if_neg hc1] | simp only [if_pos hc1]
    first | simp only [if_neg hc2] | simp only [if_pos hc2]
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst_vars
    sl_exec (disch := first | exact hc1 | exact hc2)
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      · first | iexact H0 | iexact H1 | iexact H2 | iexact H3 | iexact H4 | iexact H5 | iexact H6 | iexact H7 | iexact H8
      ipureintro
      first | (sl_unfold_run_names; rw [read_writes_unit _ _ zeroOff2]; simp only [View.readAt_eq_ld, View.ld_unit_zero (S := S2000x128) zeroOff2, View.ld_unit_zero (S := S128x128) zeroOff2, View.ld_unit_zero (S := S1x128) zeroOff2, View.readCov_unit_zero (S := S1x128) _ zeroOff2]) | rfl

theorem idle3 : ∀ (w : Fin cfg3.W) (t : Fin cfg3.N), 5 ≤ w.val → if cond3_2 (grid3.coords t) then cfg3.idle w (grid3.coords t) = false
    else cfg3.idle w (grid3.coords t) = true ∧ (cfg3.win w).flush t = false := by decide +kernel

theorem leaves3 (c : Dev nD) (w : Fin cfg3.W) (hw : 5 ≤ w.val) (t : Fin cfg3.N) (d) :
    owns c ((cfg3.win w).stage (cfg3.slots t w)) fullShare (if cond3_2 (grid3.coords t) then (dat3 V c).after w t else (dat3 V c).before w t d) ⊢ (dat3 V c).leavesExact w t := by
  have h := idle3 w t hw
  by_cases hc2 : cond3_2 (grid3.coords t)
  · rw [if_pos hc2] at h ⊢; unfold Dat.leavesExact; rw [h]
  · rw [if_neg hc2] at h ⊢; rw [Dat.leavesExact_idle _ w t h.1 h.2]; iintro H; iexists d; iexact H

theorem before3 (c : Dev nD) (t : Fin cfg3.N) : (∀ d, (dat3 V c).before 0 t d = xb3 V c t) ∧ (∀ d, (dat3 V c).before 1 t d = ab3 V c t)
    ∧ (∀ d, (dat3 V c).before 2 t d = wb3 V c t) ∧ (∀ d, (dat3 V c).before 3 t d = bb3 V c t) := by
  refine ⟨?_, ?_, ?_, ?_⟩ <;> intro d <;> refine (Dat.before_in_eq_fetched (dat3 V c) _ ?_ ?_ ?_ ?_ t d).trans ?_ <;> intros <;> rfl

theorem body_obligation3 (c : Dev nD) : BodyObligation (dat3 (F := F) V c) (defs₀ (F := F)) Variants.none () Set.univ := fun t => by
  rw [bigSep_W3, bigSep_W3]
  obtain ⟨ha, hb, hc, hd⟩ := before3 V c t
  simp only [ha, hb, hc, hd, Phi3, PhiS3]
  iintro ⟨⟨%s, %hs, HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  obtain ⟨e1, e2⟩ := sc3_eq V c t s hs
  iapply run3 c (hx3 t)
  rw [owns_whole, owns_whole, owns_whole, owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← e1, ← e2]
  isplitl [HS0 HS1 Hr Hg]
  · iexists sc3 V c t.val t.isLt; isplitr; · ipureintro; exact fun _ => rfl
    isplitl [HS0]; · iexact HS0
    isplitl [HS1]; · iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply leaves3 V c 5 (by decide) t d5; iexact H5
  iapply leaves3 V c 6 (by decide) t d6; iexact H6

theorem hin3 (c : Dev nD) : Pipeline.ΦA spec3 c ⊢ (dat3 V c).Φ 0 := by
  unfold Pipeline.ΦA; rw [scopedRest3_split, Phi3, PhiS3]
  iintro ⟨⟨⟨⟨%d0, H0⟩, ⟨%d1, H1⟩⟩, Hr⟩, Hg⟩
  iexists (d0, d1); isplitr; · ipureintro; exact fun h => absurd h (Nat.lt_irrefl 0)
  isplitl [H0]; · iexact H0
  isplitl [H1]; · iexact H1
  isplitl [Hr]; · iexact Hr
  iexact Hg

theorem hout3 (c : Dev nD) : (dat3 V c).Φ (Fin.last cfg3.N) ⊢ Pipeline.ΦA spec3 c := by
  unfold Pipeline.ΦA; rw [scopedRest3_split, Phi3, PhiS3]
  iintro ⟨%s, -, H0, H1, Hr, Hg⟩
  isplitl [H0 H1 Hr]
  · isplitl [H0 H1]
    · isplitl [H0]; · iexists _; iexact H0
      iexists _; iexact H1
    iexact Hr
  iexact Hg

end Cert.Kernel.Reg

end
-- ==== Proof.K.Reg4.lean ====
import proofs.«400309_j11605001633947_1_alg».proof.Proof.Gen.Kernel.Launch
import proofs.«400309_j11605001633947_1_alg».proof.Proof.Gen.Kernel.Skeleton
import proofs.«400309_j11605001633947_1_alg».proof.Proof.Gen.Kernel.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev lb4 (c : Dev nD) (t : Fin cfg4.N) : Vec F S2000x128 .f32 := iblk4 V c 0 t
abbrev mu4 (c : Dev nD) (t : Fin cfg4.N) : Vec F S1x128 .f32 := iblk4 V c 1 t
abbrev va4 (c : Dev nD) (t : Fin cfg4.N) : Vec F S1x128 .f32 := iblk4 V c 2 t
abbrev gb4 (c : Dev nD) (t : Fin cfg4.N) : Vec F S1x128 .f32 := iblk4 V c 3 t
abbrev eb4 (c : Dev nD) (t : Fin cfg4.N) : Vec F S1x128 .f32 := iblk4 V c 4 t
abbrev wb4 (c : Dev nD) (t : Fin cfg4.N) : Vec F S128x128 .f32 := iblk4 V c 5 t
abbrev bb4 (c : Dev nD) (t : Fin cfg4.N) : Vec F S1x128 .f32 := iblk4 V c 6 t

abbrev lo4 (c : Dev nD) (t : Fin cfg4.N) : FVec F S2000x128 .f32 :=
  k4_pay5 (lb4 V c t) (va4 V c t) (gb4 V c t) (mu4 V c t) (eb4 V c t) (wb4 V c t) (bb4 V c t)

def sc4 (c : Dev nD) : (n : ℕ) → n < cfg4.N → Vec F S1x128 .f32 × Vec F S1x128 .f32
  | 0, h => (k4_pay1 (lo4 V c ⟨0, h⟩) k4_pay3, k4_pay2 (lo4 V c ⟨0, h⟩) k4_pay4)
  | n + 1, h => (k4_pay1 (lo4 V c ⟨n + 1, h⟩) (sc4 c n (Nat.lt_of_succ_lt h)).1, k4_pay2 (lo4 V c ⟨n + 1, h⟩) (sc4 c n (Nat.lt_of_succ_lt h)).2)

theorem sc4_zero (c : Dev nD) (h : 0 < cfg4.N) :
    sc4 V c 0 h = (k4_pay1 (lo4 V c ⟨0, h⟩) k4_pay3, k4_pay2 (lo4 V c ⟨0, h⟩) k4_pay4) := rfl

theorem sc4_succ (c : Dev nD) (n : ℕ) (h : n + 1 < cfg4.N) :
    sc4 V c (n + 1) h = (k4_pay1 (lo4 V c ⟨n + 1, h⟩) (sc4 V c n (Nat.lt_of_succ_lt h)).1, k4_pay2 (lo4 V c ⟨n + 1, h⟩) (sc4 V c n (Nat.lt_of_succ_lt h)).2) := rfl

abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1

set_option maxHeartbeats 4000000 in
/-- The two conditions decide which stores run; in every case each buffer ends at the payload of the last store into it. -/
theorem run4 (c : Dev nD) (i : grid4.Coords) {arg1 arg8 : Memref sig .tc .vmem S2000x128 .f32} {arg2 arg3 arg4 arg5 arg7 arg9 arg10 arg11 arg12 : Memref sig .tc .vmem S1x128 .f32} {arg6 : Memref sig .tc .vmem S128x128 .f32} {harg1 harg2 harg3 harg4 harg5 harg6 harg7 harg8 harg9 harg10 harg11 harg12}
    {x0 x1 x2 x3 x4 x5 x6 x7 xi8 xi9 xs0 xs1 E} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
        ∗ owns c.tc arg8 fullShare x7 ∗ owns c.tc arg9 fullShare xi8 ∗ owns c.tc arg10 fullShare xi9 ∗ owns c.tc arg11 fullShare xs0 ∗ owns c.tc arg12 fullShare xs1
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
            ∗ owns c.tc arg8 fullShare (k4_pay5 x0 x2 x3 x1 x4 x5 x6) ∗ owns c.tc arg9 fullShare (if cond4_1 i then k4_pay1 (k4_pay5 x0 x2 x3 x1 x4 x5 x6) (if cond4_0 i then k4_pay3 else xs0) else xi8) ∗ owns c.tc arg10 fullShare (if cond4_1 i then k4_pay2 (k4_pay5 x0 x2 x3 x1 x4 x5 x6) (if cond4_0 i then k4_pay4 else xs1) else xi9)
            ∗ owns c.tc arg11 fullShare (k4_pay1 (k4_pay5 x0 x2 x3 x1 x4 x5 x6) (if cond4_0 i then k4_pay3 else xs0)) ∗ owns c.tc arg12 fullShare (k4_pay2 (k4_pay5 x0 x2 x3 x1 x4 x5 x6) (if cond4_0 i then k4_pay4 else xs1))) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  split_ifs
  all_goals
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    subst hf0 hf1 hf2 hf3 hf4 hf5 hf6 hf7 hf8 hf9 hf10 hf11
    sl_exec
    sl_step
    iapply Hk
    isplitl [H0]; swap; isplitl [H1]; swap; isplitl [H2]; swap; isplitl [H3]; swap; isplitl [H4]; swap; isplitl [H5]; swap
    isplitl [H6]; swap; isplitl [H7]; swap; isplitl [H8]; swap; isplitl [H9]; swap; isplitl [H10]; swap
    all_goals
      iexists _; isplitr; swap; iassumption
      ipureintro; sl_unfold_run_names
      simp only [read_writes_unit (S := S2000x128) _ _ zeroOff2, read_writes_unit (S := S1x128) _ _ zeroOff2, View.readAt_eq_ld, View.ld_unit_zero (S := S2000x128) zeroOff2, View.ld_unit_zero (S := S1x128) zeroOff2, View.ld_unit_zero (S := S128x128) zeroOff2, View.readCov_cons_toLoadRect]

abbrev scM4_0 : Memref sig .tc .vmem S1x128 .f32 := Memref.whole cc4_scratch0
abbrev scM4_1 : Memref sig .tc .vmem S1x128 .f32 := Memref.whole cc4_scratch1

def PhiS4 (c : Dev nD) (n : ℕ) (hn : n ≤ cfg4.N) : sProp 𝕄 :=
  iprop(iprop((∃ s, ⌜∀ h : n ≠ 0, s = sc4 V c (n - 1) (by omega)⌝ ∗ owns c.tc scM4_0 fullShare s.1 ∗ owns c.tc scM4_1 fullShare s.2)
      ∗ Pipeline.scopedRestBut spec4 c [cc4_scratch0, cc4_scratch1]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => lo4 V c t
    | ⟨8, _⟩ => (sc4 V c t.val t.isLt).1
    | ⟨9, _⟩ => (sc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_7 (c : Dev nD) (t : Fin cfg4.N) : (dat4 V c).after 7 t = lo4 V c t := by dsimp only [dat4]
theorem after4_8 (c : Dev nD) (t : Fin cfg4.N) : (dat4 V c).after 8 t = (sc4 V c t.val t.isLt).1 := by dsimp only [dat4]
theorem after4_9 (c : Dev nD) (t : Fin cfg4.N) : (dat4 V c).after 9 t = (sc4 V c t.val t.isLt).2 := by dsimp only [dat4]

theorem Phi4_eq (c : Dev nD) (k : Fin (cfg4.N + 1)) : (dat4 V c).Φ k = PhiS4 V c k.val (Nat.le_of_lt_succ k.isLt) := rfl

theorem liveAt4 : ∀ (w : Fin cfg4.W) (t : Fin cfg4.N), cond4_1 (grid4.coords t) → cfg4.idle w (grid4.coords t) = false := by decide +kernel

theorem idleAt4 : ∀ (w : Fin cfg4.W) (t : Fin cfg4.N), 8 ≤ w.val → ¬cond4_1 (grid4.coords t) → cfg4.idle w (grid4.coords t) = true ∧ (cfg4.win w).flush t = false := by decide +kernel

theorem out4 (c : Dev nD) (t : Fin cfg4.N) (w : Fin cfg4.W) (hw : 8 ≤ w.val) {d x} (hx : cond4_1 (grid4.coords t) → (dat4 V c).after w t = x) :
    owns c.tc ((cfg4.win w).stage (cfg4.slots t w)) fullShare (if cond4_1 (grid4.coords t) then x else (dat4 V c).before w t d) ⊢ (dat4 V c).leavesExact w t := by
  by_cases h : cond4_1 (grid4.coords t)
  · rw [if_pos h, ← hx h]; unfold Dat.leavesExact; rw [liveAt4 w t h]; try exact Entails.refl _
  · rw [if_neg h, Dat.leavesExact_idle _ w t (idleAt4 w t hw h).1 (idleAt4 w t hw h).2]; iintro H; iexists _; iexact H

theorem PhiA4_eq (c : Dev nD) :
    (Pipeline.ΦA spec4 c : sProp 𝕄)
      = iprop(iprop(iprop((∃ d, owns c.tc scM4_0 fullShare d) ∗ (∃ d, owns c.tc scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- One step of the scratch rows' recursion, by cases on the point being the first. -/
theorem sc4_step (c : Dev nD) (t : Fin cfg4.N) (s) (hs : ∀ h : t.val ≠ 0, s = sc4 V c (t.val - 1) (by omega)) :
    sc4 V c t.val t.isLt = (k4_pay1 (lo4 V c t) (if cond4_0 (grid4.coords t) then k4_pay3 else s.1), k4_pay2 (lo4 V c t) (if cond4_0 (grid4.coords t) then k4_pay4 else s.2)) := by
  have hc := (by decide +kernel : ∀ t : Fin grid4.N, cond4_0 (grid4.coords t) ↔ t.val = 0) t
  obtain ⟨n, hn⟩ := t
  cases n with
  | zero => simp only [if_pos (hc.mpr rfl)]; rfl
  | succ n => simp only [if_neg fun h => Nat.succ_ne_zero n (hc.mp h), hs (Nat.succ_ne_zero n)]; rfl

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) ∧ (∀ d, (dat4 V c).before 6 t d = iblk4 V c 6 t) := by
  refine ⟨?_, ?_, ?_, ?_, ?_, ?_, ?_⟩ <;> exact fun d => ((dat4 V c).before_in_eq_fetched _ rfl (fun _ => rfl) (fun _ _ _ => rfl) (fun _ => rfl) t d).trans (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]; dsimp only
  obtain ⟨b0, b1, b2, b3, b4, b5, b6⟩ := before4 V c t
  simp only [b0, b1, b2, b3, b4, b5, b6]
  rw [Phi4_eq, Phi4_eq]; unfold PhiS4
  iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e := sc4_step V c t s hs
  iapply run4 c (grid4.coords t)
  iframe H0 H1 H2 H3 H4 H5 H6 H7 H8 H9 HS0 HS1
  iintro ⟨H0, H1, H2, H3, H4, H5, H6, H7, H8, H9, HS0, HS1⟩
  isplitl [HS0 HS1 HR Hg]
  · isplitl [HS0 HS1 HR]; swap; · iexact Hg
    isplitl [HS0 HS1]; swap; · iexact HR
    iexists (_, _); isplitr; swap
    · isplitl [HS0]; · iexact HS0
      iexact HS1
    ipureintro; exact fun _ => e.symm
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply out4 V c t 8 (by decide) fun _ => (after4_8 V c t).trans (congrArg Prod.fst e); iexact H8
  iapply out4 V c t 9 (by decide) fun _ => (after4_9 V c t).trans (congrArg Prod.snd e); iexact H9

theorem hin4 (c : Dev nD) : Pipeline.ΦA spec4 c ⊢ (dat4 V c).Φ 0 := by
  rw [PhiA4_eq, Phi4_eq]; unfold PhiS4
  iintro ⟨⟨⟨⟨%d0, H0⟩, ⟨%d1, H1⟩⟩, HR⟩, Hg⟩
  iframe HR Hg
  iexists (d0, d1); iframe H0 H1
  ipureintro; exact fun h => absurd rfl h

theorem hout4 (c : Dev nD) : (dat4 V c).Φ (Fin.last cfg4.N) ⊢ Pipeline.ΦA spec4 c := by
  rw [PhiA4_eq, Phi4_eq]; unfold PhiS4
  iintro ⟨⟨⟨%s, -, H0, H1⟩, HR⟩, Hg⟩
  iframe HR Hg
  isplitl [H0] <;> iexists _ <;> iassumption

end Cert.Kernel.Reg

end
-- ==== Proof.K.Reg5.lean ====
import proofs.«400309_j11605001633947_1_alg».proof.Proof.Gen.Kernel.Launch
import proofs.«400309_j11605001633947_1_alg».proof.Proof.Gen.Kernel.Skeleton
import proofs.«400309_j11605001633947_1_alg».proof.Proof.Gen.Kernel.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev lb5 (c : Dev nD) (t : Fin cfg5.N) : Vec F S2000x128 .f32 := iblk5 V c 0 t
abbrev mu5 (c : Dev nD) (t : Fin cfg5.N) : Vec F S1x128 .f32 := iblk5 V c 1 t
abbrev va5 (c : Dev nD) (t : Fin cfg5.N) : Vec F S1x128 .f32 := iblk5 V c 2 t
abbrev gb5 (c : Dev nD) (t : Fin cfg5.N) : Vec F S1x128 .f32 := iblk5 V c 3 t
abbrev eb5 (c : Dev nD) (t : Fin cfg5.N) : Vec F S1x128 .f32 := iblk5 V c 4 t
abbrev ib5 (c : Dev nD) (t : Fin cfg5.N) : Vec F S2000x1 .i32 := iblk5 V c 5 t

abbrev ho5 (c : Dev nD) (t : Fin cfg5.N) : FVec F S2000x128 .f32 :=
  k5_pay3 (lb5 V c t) (va5 V c t) (gb5 V c t) (mu5 V c t) (eb5 V c t)

def sc5 (c : Dev nD) : (n : ℕ) → n < cfg5.N → Vec F S128x128 .f32
  | 0, h => k5_pay1 (k5_pay4 (ib5 V c ⟨0, h⟩)) k5_pay2
      (k5_pay5 (lb5 V c ⟨0, h⟩) (va5 V c ⟨0, h⟩) (gb5 V c ⟨0, h⟩) (mu5 V c ⟨0, h⟩) (eb5 V c ⟨0, h⟩))
  | n + 1, h => k5_pay1 (k5_pay4 (ib5 V c ⟨n + 1, h⟩)) (sc5 c n (Nat.lt_of_succ_lt h))
      (k5_pay5 (lb5 V c ⟨n + 1, h⟩) (va5 V c ⟨n + 1, h⟩) (gb5 V c ⟨n + 1, h⟩) (mu5 V c ⟨n + 1, h⟩) (eb5 V c ⟨n + 1, h⟩))

theorem sc5_zero (c : Dev nD) (h : 0 < cfg5.N) :
    sc5 V c 0 h = k5_pay1 (k5_pay4 (ib5 V c ⟨0, h⟩)) k5_pay2
      (k5_pay5 (lb5 V c ⟨0, h⟩) (va5 V c ⟨0, h⟩) (gb5 V c ⟨0, h⟩) (mu5 V c ⟨0, h⟩) (eb5 V c ⟨0, h⟩)) := rfl

theorem sc5_succ (c : Dev nD) (n : ℕ) (h : n + 1 < cfg5.N) :
    sc5 V c (n + 1) h = k5_pay1 (k5_pay4 (ib5 V c ⟨n + 1, h⟩)) (sc5 V c n (Nat.lt_of_succ_lt h))
      (k5_pay5 (lb5 V c ⟨n + 1, h⟩) (va5 V c ⟨n + 1, h⟩) (gb5 V c ⟨n + 1, h⟩) (mu5 V c ⟨n + 1, h⟩) (eb5 V c ⟨n + 1, h⟩)) := rfl

abbrev scM5 : Memref sig .tc .vmem S128x128 .f32 := Memref.whole cc5_scratch0

/-- Before position `n` the accumulator holds what point `n - 1` left, if there is such a point. -/
def PhiS5 (c : Dev nD) (n : ℕ) (_ : n ≤ cfg5.N) : sProp 𝕄 :=
  iprop(iprop((∃ d, ⌜∀ m h, n = m + 1 → d = sc5 V c m h⌝ ∗ owns c.tc scM5 fullShare d) ∗ Pipeline.scopedRestBut spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => ho5 V c t
    | ⟨7, _⟩ => sc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = ho5 V c t := rfl
theorem after5_7 (c : Dev nD) (t : Fin cfg5.N) : (dat5 V c).after 7 t = sc5 V c t.val t.isLt := rfl

theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t)
      ∧ (∀ d, (dat5 V c).before 3 t d = iblk5 V c 3 t) ∧ (∀ d, (dat5 V c).before 4 t d = iblk5 V c 4 t) ∧ (∀ d, (dat5 V c).before 5 t d = iblk5 V c 5 t) := by
  refine ⟨?_, ?_, ?_, ?_, ?_, ?_⟩ <;>
    exact fun d => ((dat5 V c).before_in_eq_fetched _ rfl (fun _ => rfl) (fun _ _ _ => rfl) (fun _ => rfl) t d).trans rfl

theorem PhiA5_eq (c : Dev nD) :
    (Pipeline.ΦA spec5 c : sProp 𝕄)
      = iprop(iprop((∃ d, owns c.tc scM5 fullShare d) ∗ Pipeline.scopedRestBut spec5 c [cc5_scratch0]) ∗ (∃ r, prngReg c r)) := by
  unfold Pipeline.ΦA; rw [scopedRest5_split]; simp only [scM5, owns_whole]; try rfl

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

theorem hc5 : ∀ t : Fin cfg5.N, cond5_0 (grid5.coords t) ↔ t.val = 0 := by decide +kernel
theorem ex5 : ∀ t : Fin cfg5.N, cond5_0 (grid5.coords t) → ¬cond5_1 (grid5.coords t) := by decide +kernel
theorem live5_7 : ∀ t : Fin cfg5.N, cond5_1 (grid5.coords t) → cfg5.idle 7 (grid5.coords t) = false := by decide +kernel
theorem idle5_7 : ∀ t : Fin cfg5.N, ¬cond5_1 (grid5.coords t) → cfg5.idle 7 (grid5.coords t) = true ∧ (cfg5.win 7).flush t = false := by decide +kernel

/-- One run for every point: the accumulator is reset where the first condition holds and copied out where the second does. -/
theorem run5 (c : Dev nD) {i : grid5.Coords} (arg1 arg7 : Memref sig .tc .vmem S2000x128 .f32) (arg2 arg3 arg4 arg5 : Memref sig .tc .vmem S1x128 .f32) (arg6 : Memref sig .tc .vmem S2000x1 .i32) (arg8 arg9 : Memref sig .tc .vmem S128x128 .f32)
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {x0 : Vec F S2000x128 .f32} {x1 x2 x3 x4 : Vec F S1x128 .f32} {x5 : Vec F S2000x1 .i32} (x6 : Vec F S2000x128 .f32) (x7 xs : Vec F S128x128 .f32) {p : Vec F S128x128 .f32}
    (hx : cond5_0 i → ¬cond5_1 i) (hp : k5_pay1 (k5_pay4 x5) (if cond5_0 i then k5_pay2 else xs) (k5_pay5 x0 x2 x3 x1 x4) = p) {E : Set ℕ} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare xs
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (k5_pay3 x0 x2 x3 x1 x4) ∗ owns c.tc arg8 fullShare (if cond5_1 i then p else x7) ∗ owns c.tc arg9 fullShare p) -∗ K ⟨⟩))
      ⊢ wp frame (wpE (defs₀ (F := F)) Variants.none c none) E (cc5__stage3_kernel i arg1 harg1 arg2 harg2 arg3 harg3 arg4 harg4 arg5 harg5 arg6 harg6 arg7 harg7 arg8 harg8 arg9 harg9) K := by
  subst hp
  by_cases hc1 : cond5_1 i <;> by_cases hc0 : cond5_0 i
  · exact absurd hc1 (hx hc0)
  all_goals
    first | rw [if_pos hc0] | rw [if_neg hc0]
    first | rw [if_pos hc1] | rw [if_neg hc1]
    simp only [cc5__stage3_kernel_eq_skeleton]; unfold cc5__stage3_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    subst hf0 hf1 hf2 hf3 hf4 hf5 hf6 hf7 hfs
    sl_exec
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      first | iexact H0 | iexact H1 | iexact H2 | iexact H3 | iexact H4 | iexact H5 | iexact H6 | iexact H7 | iexact HS
      ipureintro; sl_unfold_words
      try first | rw [read_writes_unit (S := S2000x128) _ _ zeroOff2] | rw [read_writes_unit (S := S128x128) _ _ zeroOff2]
      simp only [View.readCov_unit_zero (S := S128x128) _ zeroOff2, View.readAt_eq_ld, View.ld_unit_zero (S := S2000x128) zeroOff2, View.ld_unit_zero (S := S1x128) zeroOff2,
        View.ld_unit_zero (S := S2000x1) zeroOff2, View.ld_unit_zero (S := S128x128) zeroOff2]

/-- One step of the accumulator's recursion, the reset folded in. -/
theorem acc5 (c : Dev nD) (t : Fin cfg5.N) (d) (hd : ∀ m h, t.val = m + 1 → d = sc5 V c m h) :
    k5_pay1 (k5_pay4 (ib5 V c t)) (if cond5_0 (grid5.coords t) then k5_pay2 else d)
      (k5_pay5 (lb5 V c t) (va5 V c t) (gb5 V c t) (mu5 V c t) (eb5 V c t)) = sc5 V c t.val t.isLt := by
  obtain ⟨n, hn⟩ := t
  cases n with
  | zero => rw [if_pos ((hc5 ⟨0, hn⟩).mpr rfl)]; rfl
  | succ n => rw [if_neg fun e => Nat.succ_ne_zero n ((hc5 ⟨n + 1, hn⟩).mp e), hd n _ rfl]; rfl

/-- The second output's buffer: the accumulator at the last point, untouched elsewhere. -/
theorem leaves5_7 (c : Dev nD) (t : Fin cfg5.N) (d) :
    owns c.tc (st5_7 t) fullShare (if cond5_1 (grid5.coords t) then sc5 V c t.val t.isLt else (dat5 V c).before 7 t d) ⊢ (dat5 V c).leavesExact 7 t := by
  by_cases h : cond5_1 (grid5.coords t)
  · rw [if_pos h]; unfold Dat.leavesExact; rw [live5_7 t h]; rfl
  · rw [if_neg h, Dat.leavesExact_idle _ 7 t (idle5_7 t h).1 (idle5_7 t h).2]; iintro H; iexists d; iexact H

theorem body_obligation5 (c : Dev nD) : BodyObligation (dat5 (F := F) V c) (defs₀ (F := F)) Variants.none () Set.univ := fun t => by
  obtain ⟨h0, h1, h2, h3, h4, h5⟩ := before5 V c t
  rw [bigSep_W5, bigSep_W5]
  simp only [h0, h1, h2, h3, h4, h5]
  show iprop(PhiS5 V c t.val (Nat.le_of_lt t.isLt) ∗ _) ⊢ wp frame _ _ (bodyAt5 t) fun _ => iprop(PhiS5 V c (t.val + 1) t.isLt ∗ (dat5 V c).owesAt () t.castSucc
      ∗ owns c.tc (st5_0 t) fullShare (lb5 V c t)
      ∗ owns c.tc (st5_1 t) fullShare (mu5 V c t)
      ∗ owns c.tc (st5_2 t) fullShare (va5 V c t)
      ∗ owns c.tc (st5_3 t) fullShare (gb5 V c t)
      ∗ owns c.tc (st5_4 t) fullShare (eb5 V c t)
      ∗ owns c.tc (st5_5 t) fullShare (ib5 V c t)
      ∗ owns c.tc (st5_6 t) fullShare (ho5 V c t)
      ∗ (dat5 V c).leavesExact 7 t)
  unfold PhiS5
  iintro ⟨⟨⟨⟨%xs, %hxs, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run5 c (st5_0 t) (st5_6 t) (st5_1 t) (st5_2 t) (st5_3 t) (st5_4 t) (st5_5 t) (st5_7 t) scM5 ((dat5 V c).before 6 t d6) ((dat5 V c).before 7 t d7) xs (ex5 t) (acc5 V c t xs hxs))
  iframe
  iintro ⟨H0, H1, H2, H3, H4, H5, H6, H7, HS⟩
  iframe
  isplitl [HS]
  · iexists _; isplitr; swap; iexact HS; ipureintro; intro m h e; cases e; rfl
  iapply (leaves5_7 V c t d7); iexact H7

theorem hin5 (c : Dev nD) : Pipeline.ΦA spec5 c ⊢ (dat5 V c).Φ 0 := by
  rw [PhiA5_eq]; dsimp only [dat5, PhiS5]
  iintro ⟨⟨⟨%d, HS⟩, Hr⟩, Hg⟩
  iframe
  iexists d; isplitr
  · ipureintro; exact fun m _ e => absurd e.symm (Nat.succ_ne_zero m)
  iexact HS

theorem hout5 (c : Dev nD) : (dat5 V c).Φ (Fin.last cfg5.N) ⊢ Pipeline.ΦA spec5 c := by
  rw [PhiA5_eq]; dsimp only [dat5, PhiS5]
  iintro ⟨⟨⟨%d, -, HS⟩, Hr⟩, Hg⟩
  iframe
  iexists d; iexact HS

end Cert.Kernel.Reg

end
-- ==== Proof.K.PData.lean ====
import proofs.«400309_j11605001633947_1_alg».proof.Proof.K.RunCond
import proofs.«400309_j11605001633947_1_alg».proof.Proof.K.Reg0
import proofs.«400309_j11605001633947_1_alg».proof.Proof.K.Reg1
import proofs.«400309_j11605001633947_1_alg».proof.Proof.K.Reg2
import proofs.«400309_j11605001633947_1_alg».proof.Proof.K.Reg3
import proofs.«400309_j11605001633947_1_alg».proof.Proof.K.Reg4
import proofs.«400309_j11605001633947_1_alg».proof.Proof.K.Reg5

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ) (outs : Outs (F := F))

abbrev R1 : (c : Dev nD) → (b : Ref sig .tc) → Buf (Elt F) ((c : Thread nD τ).loc b) := fun c b => V1 m c b
abbrev R2 : (c : Dev nD) → (b : Ref sig .tc) → Buf (Elt F) ((c : Thread nD τ).loc b) := fun c b => V2 m outs c b
abbrev R3 : (c : Dev nD) → (b : Ref sig .tc) → Buf (Elt F) ((c : Thread nD τ).loc b) := fun c b => V3 m outs c b
abbrev R4 : (c : Dev nD) → (b : Ref sig .tc) → Buf (Elt F) ((c : Thread nD τ).loc b) := fun c b => V4 m outs c b
abbrev R5 : (c : Dev nD) → (b : Ref sig .tc) → Buf (Elt F) ((c : Thread nD τ).loc b) := fun c b => V5 m outs c b
abbrev R6 : (c : Dev nD) → (b : Ref sig .tc) → Buf (Elt F) ((c : Thread nD τ).loc b) := fun c b => V6 m outs c b
abbrev R7 : (c : Dev nD) → (b : Ref sig .tc) → Buf (Elt F) ((c : Thread nD τ).loc b) := fun c b => V7 m outs c b
abbrev R8 : (c : Dev nD) → (b : Ref sig .tc) → Buf (Elt F) ((c : Thread nD τ).loc b) := fun c b => V8 m outs c b
abbrev R9 : (c : Dev nD) → (b : Ref sig .tc) → Buf (Elt F) ((c : Thread nD τ).loc b) := fun c b => V9 m outs c b
abbrev R10 : (c : Dev nD) → (b : Ref sig .tc) → Buf (Elt F) ((c : Thread nD τ).loc b) := fun c b => V10 m outs c b
abbrev R11 : (c : Dev nD) → (b : Ref sig .tc) → Buf (Elt F) ((c : Thread nD τ).loc b) := fun c b => V11 m outs c b
abbrev R12 : (c : Dev nD) → (b : Ref sig .tc) → Buf (Elt F) ((c : Thread nD τ).loc b) := fun c b => V12 m outs c b

structure OutsOK : Prop where
  h0 : ∀ (c : Dev nD) (w : Fin cfg0.W), (dat0 (R1 m) c).arrAt w cfg0.N = R2 m outs c (Pipeline.arrRef spec0 w)
  h1 : ∀ (c : Dev nD) (w : Fin cfg1.W), (dat1 (R3 m outs) c).arrAt w cfg1.N = R4 m outs c (Pipeline.arrRef spec1 w)
  h2 : ∀ (c : Dev nD) (w : Fin cfg2.W), (dat2 (R5 m outs) c).arrAt w cfg2.N = R6 m outs c (Pipeline.arrRef spec2 w)
  h3 : ∀ (c : Dev nD) (w : Fin cfg3.W), (dat3 (R7 m outs) c).arrAt w cfg3.N = R8 m outs c (Pipeline.arrRef spec3 w)
  h4 : ∀ (c : Dev nD) (w : Fin cfg4.W), (dat4 (R9 m outs) c).arrAt w cfg4.N = R10 m outs c (Pipeline.arrRef spec4 w)
  h5 : ∀ (c : Dev nD) (w : Fin cfg5.W), (dat5 (R11 m outs) c).arrAt w cfg5.N = R12 m outs c (Pipeline.arrRef spec5 w)

def pdats : (p : Fin 6) → (c : Dev nD) → Dat τ (Elt F) Unit ℕ (UR sig nD τ) ℕ (cfgs p) c
  | ⟨0, _⟩ => fun c => dat0 (R1 m) c
  | ⟨1, _⟩ => fun c => dat1 (R3 m outs) c
  | ⟨2, _⟩ => fun c => dat2 (R5 m outs) c
  | ⟨3, _⟩ => fun c => dat3 (R7 m outs) c
  | ⟨4, _⟩ => fun c => dat4 (R9 m outs) c
  | ⟨5, _⟩ => fun c => dat5 (R11 m outs) c

abbrev 𝒱₀ : Variants := Variants.none

abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

end Cert.Kernel.Run

end
-- ==== Proof.K.Seg0.lean ====
import proofs.«400309_j11605001633947_1_alg».proof.Proof.K.PData
import proofs.«400309_j11605001633947_1_alg».proof.Proof.LibRegion

noncomputable section

namespace Cert.Kernel.Run

open Idealize.ShloMosaic
open Cert.Kernel Cert.Kernel.Gen Cert.Kernel.Reg

variable {F : FTy → Type} [FloatOps F] (m : (ℓ : Loc nD τ sig) → Buf (Elt F) ℓ) (outs : Outs (F := F))

def reg0 (hok : OutsOK m outs) : Pipeline.RegionSeg (pcfgs (F := F)) adm (pdats m outs) () defs₀ 𝒱₀ L lv 0 :=
  mkReg defs₀ (pdats m outs) launch0 (V1 m) (V2 m outs) (body_obligation0 (R1 m)) (hin0 (R1 m)) (hout0 (R1 m)) hok.h0 [4, 5, 6] (V2_of m outs)

end Cert.Kernel.Run

end
-- ==== Proof.K.Seg1.lean ====
import proofs.«400309_j11605001633947_1_alg».proof.Proof.K.PData
import proofs.«400309_j11605001633947_1_alg».proof.Proof.LibRegion

noncomputable section

namespace Cert.Kernel.Run

open Idealize.ShloMosaic
open Cert.Kernel Cert.Kernel.Gen Cert.Kernel.Reg

variable {F : FTy → Type} [FloatOps F] (m : (ℓ : Loc nD τ sig) → Buf (Elt F) ℓ) (outs : Outs (F := F))

def reg1 (hok : OutsOK m outs) : Pipeline.RegionSeg (pcfgs (F := F)) adm (pdats m outs) () defs₀ 𝒱₀ L lv 1 :=
  mkReg defs₀ (pdats m outs) launch1 (V3 m outs) (V4 m outs) (body_obligation1 (R3 m outs)) (hin1 (R3 m outs)) (hout1 (R3 m outs)) hok.h1 [7, 8, 9] (V4_of m outs)

end Cert.Kernel.Run

end
-- ==== Proof.K.Seg2.lean ====
import proofs.«400309_j11605001633947_1_alg».proof.Proof.K.PData
import proofs.«400309_j11605001633947_1_alg».proof.Proof.LibRegion

noncomputable section

namespace Cert.Kernel.Run

open Idealize.ShloMosaic
open Cert.Kernel Cert.Kernel.Gen Cert.Kernel.Reg

variable {F : FTy → Type} [FloatOps F] (m : (ℓ : Loc nD τ sig) → Buf (Elt F) ℓ) (outs : Outs (F := F))

def reg2 (hok : OutsOK m outs) : Pipeline.RegionSeg (pcfgs (F := F)) adm (pdats m outs) () defs₀ 𝒱₀ L lv 2 :=
  mkReg defs₀ (pdats m outs) launch2 (V5 m outs) (V6 m outs) (body_obligation2 (R5 m outs)) (hin2 (R5 m outs)) (hout2 (R5 m outs)) hok.h2 [6, 7] (V6_of m outs)

end Cert.Kernel.Run

end
-- ==== Proof.K.Seg3.lean ====
import proofs.«400309_j11605001633947_1_alg».proof.Proof.K.PData
import proofs.«400309_j11605001633947_1_alg».proof.Proof.LibRegion

noncomputable section

namespace Cert.Kernel.Run

open Idealize.ShloMosaic
open Cert.Kernel Cert.Kernel.Gen Cert.Kernel.Reg

variable {F : FTy → Type} [FloatOps F] (m : (ℓ : Loc nD τ sig) → Buf (Elt F) ℓ) (outs : Outs (F := F))

def reg3 (hok : OutsOK m outs) : Pipeline.RegionSeg (pcfgs (F := F)) adm (pdats m outs) () defs₀ 𝒱₀ L lv 3 :=
  mkReg defs₀ (pdats m outs) launch3 (V7 m outs) (V8 m outs) (body_obligation3 (R7 m outs)) (hin3 (R7 m outs)) (hout3 (R7 m outs)) hok.h3 [4, 5, 6] (V8_of m outs)

end Cert.Kernel.Run

end
-- ==== Proof.K.Seg4.lean ====
import proofs.«400309_j11605001633947_1_alg».proof.Proof.K.PData
import proofs.«400309_j11605001633947_1_alg».proof.Proof.LibRegion

noncomputable section

namespace Cert.Kernel.Run

open Idealize.ShloMosaic
open Cert.Kernel Cert.Kernel.Gen Cert.Kernel.Reg

variable {F : FTy → Type} [FloatOps F] (m : (ℓ : Loc nD τ sig) → Buf (Elt F) ℓ) (outs : Outs (F := F))

def reg4 (hok : OutsOK m outs) : Pipeline.RegionSeg (pcfgs (F := F)) adm (pdats m outs) () defs₀ 𝒱₀ L lv 4 :=
  mkReg defs₀ (pdats m outs) launch4 (V9 m outs) (V10 m outs) (body_obligation4 (R9 m outs)) (hin4 (R9 m outs)) (hout4 (R9 m outs)) hok.h4 [7, 8, 9] (V10_of m outs)

end Cert.Kernel.Run

end
-- ==== Proof.K.Seg5.lean ====
import proofs.«400309_j11605001633947_1_alg».proof.Proof.K.PData
import proofs.«400309_j11605001633947_1_alg».proof.Proof.LibRegion

noncomputable section

namespace Cert.Kernel.Run

open Idealize.ShloMosaic
open Cert.Kernel Cert.Kernel.Gen Cert.Kernel.Reg

variable {F : FTy → Type} [FloatOps F] (m : (ℓ : Loc nD τ sig) → Buf (Elt F) ℓ) (outs : Outs (F := F))

def reg5 (hok : OutsOK m outs) : Pipeline.RegionSeg (pcfgs (F := F)) adm (pdats m outs) () defs₀ 𝒱₀ L lv 5 :=
  mkReg defs₀ (pdats m outs) launch5 (V11 m outs) (V12 m outs) (body_obligation5 (R11 m outs)) (hin5 (R11 m outs)) (hout5 (R11 m outs)) hok.h5 [6, 7] (V12_of m outs)

end Cert.Kernel.Run

end
-- ==== Proof.K.Launch.lean ====
import proofs.«400309_j11605001633947_1_alg».proof.Proof.K.Seg0
import proofs.«400309_j11605001633947_1_alg».proof.Proof.K.Seg1
import proofs.«400309_j11605001633947_1_alg».proof.Proof.K.Seg2
import proofs.«400309_j11605001633947_1_alg».proof.Proof.K.Seg3
import proofs.«400309_j11605001633947_1_alg».proof.Proof.K.Seg4
import proofs.«400309_j11605001633947_1_alg».proof.Proof.K.Seg5

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

set_option backward.isDefEq.respectTransparency.types false in

theorem run_all (hok : OutsOK m outs) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) :=
  run_cond m emb₁ () 𝒱₀ L lv (fun _ _ => rfl) ρ outs (pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, HO⟩; iexact HO)
    (reg0 m outs hok) (fun _ => .rfl) (fun _ => .rfl)
    (reg1 m outs hok) (fun _ => .rfl) (fun _ => .rfl)
    (reg2 m outs hok) (fun _ => .rfl) (fun _ => .rfl)
    (reg3 m outs hok) (fun _ => .rfl) (fun _ => .rfl)
    (reg4 m outs hok) (fun _ => .rfl) (fun _ => .rfl)
    (reg5 m outs hok) (fun _ => .rfl) (fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_main (hok : OutsOK m outs) :
    θ_run defs (onTc (τ := τ) (main (F := F))) ⟨m, fun _ => 0, ρ⟩ (fun r => ∀ c : Dev nD,
      r.2.mem ((c.tc : Thread nD τ).loc main_v69) = V13 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v69 (by decide)),
      (h c _ (mem_uc main_arg0 (by decide))).trans (V13_main_arg0 m outs c),
      (h c _ (mem_uc main_arg1 (by decide))).trans (V13_main_arg1 m outs c),
      (h c _ (mem_uc main_arg2 (by decide))).trans (V13_main_arg2 m outs c),
      (h c _ (mem_uc main_arg3 (by decide))).trans (V13_main_arg3 m outs c),
      (h c _ (mem_uc main_arg4 (by decide))).trans (V13_main_arg4 m outs c),
      (h c _ (mem_uc main_arg5 (by decide))).trans (V13_main_arg5 m outs c),
      (h c _ (mem_uc main_arg6 (by decide))).trans (V13_main_arg6 m outs c),
      (h c _ (mem_uc main_arg7 (by decide))).trans (V13_main_arg7 m outs c),
      (h c _ (mem_uc main_arg8 (by decide))).trans (V13_main_arg8 m outs c),
      (h c _ (mem_uc main_arg9 (by decide))).trans (V13_main_arg9 m outs c),
      (h c _ (mem_uc main_arg10 (by decide))).trans (V13_main_arg10 m outs c),
      (h c _ (mem_uc main_arg11 (by decide))).trans (V13_main_arg11 m outs c),
      (h c _ (mem_uc main_arg12 (by decide))).trans (V13_main_arg12 m outs c),
      (h c _ (mem_uc main_arg13 (by decide))).trans (V13_main_arg13 m outs c),
      (h c _ (mem_uc main_arg14 (by decide))).trans (V13_main_arg14 m outs c),
      (h c _ (mem_uc main_arg15 (by decide))).trans (V13_main_arg15 m outs c),
      (h c _ (mem_uc main_arg16 (by decide))).trans (V13_main_arg16 m outs c),
      (h c _ (mem_uc main_arg17 (by decide))).trans (V13_main_arg17 m outs c),
      (h c _ (mem_uc main_arg18 (by decide))).trans (V13_main_arg18 m outs c)⟩)
    (run_all m ρ outs hok)

end Cert.Kernel.Run

end
-- ==== Proof.K.Outs.lean ====
import proofs.«400309_j11605001633947_1_alg».proof.Proof.K.PData
import proofs.«400309_j11605001633947_1_alg».proof.Proof.LibRegion
import Idealize.ShloMosaic.Lib.Pipeline.FrameSuffix

set_option maxRecDepth 16384

noncomputable section

namespace Cert.Kernel.Run

open Idealize.ShloMosaic Idealize.ShloMosaic.TcCoe
open Cert.Kernel Cert.Kernel.Gen Cert.Kernel.Reg

variable {F : FTy → Type} [FloatOps F] (m : (ℓ : Loc nD τ sig) → Buf (Elt F) ℓ)

section congr
variable (o o' : Outs (F := F)) (h2 : ∀ r c, o 2 r c = o' 2 r c) (h4 : ∀ r c, o 4 r c = o' 4 r c)
  (h6 : ∀ r c, o 6 r c = o' 6 r c) (h8 : ∀ r c, o 8 r c = o' 8 r c) (h10 : ∀ r c, o 10 r c = o' 10 r c) (c : Dev nD)

include h2
/-- The contents before a region read `outs` only at the keys of the regions already run. -/
theorem V3_congr : V3 m o c = V3 m o' c := by simp only [V3, V2, h2]
include h4
theorem V5_congr : V5 m o c = V5 m o' c := by simp only [V5, V4, h4, V3_congr m o o' h2 c]
include h6
theorem V7_congr : V7 m o c = V7 m o' c := by simp only [V7, V6, h6, V5_congr m o o' h2 h4 c]
include h8
theorem V9_congr : V9 m o c = V9 m o' c := by simp only [V9, V8, h8, V7_congr m o o' h2 h4 h6 c]
include h10
theorem V11_congr : V11 m o c = V11 m o' c := by simp only [V11, V10, h10, V9_congr m o o' h2 h4 h6 h8 c]

end congr

def X2 (c : Dev nD) : Valuation τ sig (Elt F) :=
  Pipeline.withArrays spec0 c (V1 m c) fun w => (dat0 (R1 m) c).arrAt w cfg0.N
theorem X2_arr (c : Dev nD) (w : Fin cfg0.W) :
    X2 m c (Proc.devRef .tc (Pipeline.arrRef spec0 w)) = (dat0 (R1 m) c).arrAt w cfg0.N :=
  Pipeline.withArrays_arr spec0 launch0.win.arr_inj c _ _ w
def o2 : Outs (F := F) := fun _ r c => X2 m c r

def X4 (c : Dev nD) : Valuation τ sig (Elt F) :=
  Pipeline.withArrays spec1 c (V3 m (o2 m) c) fun w => (dat1 (R3 m (o2 m)) c).arrAt w cfg1.N
theorem X4_arr (c : Dev nD) (w : Fin cfg1.W) :
    X4 m c (Proc.devRef .tc (Pipeline.arrRef spec1 w)) = (dat1 (R3 m (o2 m)) c).arrAt w cfg1.N :=
  Pipeline.withArrays_arr spec1 launch1.win.arr_inj c _ _ w
def o4 : Outs (F := F) := fun J r c => if J = 4 then X4 m c r else o2 m J r c

def X6 (c : Dev nD) : Valuation τ sig (Elt F) :=
  Pipeline.withArrays spec2 c (V5 m (o4 m) c) fun w => (dat2 (R5 m (o4 m)) c).arrAt w cfg2.N
theorem X6_arr (c : Dev nD) (w : Fin cfg2.W) :
    X6 m c (Proc.devRef .tc (Pipeline.arrRef spec2 w)) = (dat2 (R5 m (o4 m)) c).arrAt w cfg2.N :=
  Pipeline.withArrays_arr spec2 launch2.win.arr_inj c _ _ w
def o6 : Outs (F := F) := fun J r c => if J = 6 then X6 m c r else o4 m J r c

def X8 (c : Dev nD) : Valuation τ sig (Elt F) :=
  Pipeline.withArrays spec3 c (V7 m (o6 m) c) fun w => (dat3 (R7 m (o6 m)) c).arrAt w cfg3.N
theorem X8_arr (c : Dev nD) (w : Fin cfg3.W) :
    X8 m c (Proc.devRef .tc (Pipeline.arrRef spec3 w)) = (dat3 (R7 m (o6 m)) c).arrAt w cfg3.N :=
  Pipeline.withArrays_arr spec3 launch3.win.arr_inj c _ _ w
def o8 : Outs (F := F) := fun J r c => if J = 8 then X8 m c r else o6 m J r c

def X10 (c : Dev nD) : Valuation τ sig (Elt F) :=
  Pipeline.withArrays spec4 c (V9 m (o8 m) c) fun w => (dat4 (R9 m (o8 m)) c).arrAt w cfg4.N
theorem X10_arr (c : Dev nD) (w : Fin cfg4.W) :
    X10 m c (Proc.devRef .tc (Pipeline.arrRef spec4 w)) = (dat4 (R9 m (o8 m)) c).arrAt w cfg4.N :=
  Pipeline.withArrays_arr spec4 launch4.win.arr_inj c _ _ w
def o10 : Outs (F := F) := fun J r c => if J = 10 then X10 m c r else o8 m J r c

def X12 (c : Dev nD) : Valuation τ sig (Elt F) :=
  Pipeline.withArrays spec5 c (V11 m (o10 m) c) fun w => (dat5 (R11 m (o10 m)) c).arrAt w cfg5.N
theorem X12_arr (c : Dev nD) (w : Fin cfg5.W) :
    X12 m c (Proc.devRef .tc (Pipeline.arrRef spec5 w)) = (dat5 (R11 m (o10 m)) c).arrAt w cfg5.N :=
  Pipeline.withArrays_arr spec5 launch5.win.arr_inj c _ _ w
/-- After item J-1 (J = 2, 4, …, 12) the reference r of core c holds XJ there. -/
def outsC : Outs (F := F) := fun J r c => if J = 12 then X12 m c r else o10 m J r c

section ok
variable (outs : Outs (F := F)) (h2 : ∀ r c, outs 2 r c = X2 m c r) (h4 : ∀ r c, outs 4 r c = X4 m c r)
  (h6 : ∀ r c, outs 6 r c = X6 m c r) (h8 : ∀ r c, outs 8 r c = X8 m c r) (h10 : ∀ r c, outs 10 r c = X10 m c r)
  (h12 : ∀ r c, outs 12 r c = X12 m c r) (c : Dev nD)

include h2
/-- An array the region only reads holds its entry contents, one it writes holds `outs` at its own key. -/
theorem ok0 (w : Fin cfg0.W) : (dat0 (R1 m) c).arrAt w cfg0.N = R2 m outs c (Pipeline.arrRef spec0 w) := by
  fin_cases w
  iterate 4 exact ((dat0 _ c).arrAt_in _ rfl _).trans ((A_eq0 _ c _).trans (V2_of m outs c _ (by decide)).symm)
  · exact (X2_arr m c 4).symm.trans ((h2 main_v21_0 c).symm.trans (upd3_at0 _ _ _ _ (by decide) (by decide)).symm)
  · exact (X2_arr m c 5).symm.trans ((h2 main_v21_1 c).symm.trans (upd2_at0 _ _ _ (by decide)).symm)
  · exact (X2_arr m c 6).symm.trans ((h2 main_v21_2 c).symm.trans (upd1_at0 _ _).symm)

include h4
set_option maxHeartbeats 1600000 in
theorem ok1 (w : Fin cfg1.W) : (dat1 (R3 m outs) c).arrAt w cfg1.N = R4 m outs c (Pipeline.arrRef spec1 w) := by
  have e : R3 m outs = R3 m (o2 m) := funext fun c => funext fun _ => congrFun (V3_congr m outs (o2 m) h2 c) _
  fin_cases w
  iterate 7 exact ((dat1 _ c).arrAt_in _ rfl _).trans ((A_eq1 _ c _).trans (V4_of m outs c _ (by decide)).symm)
  all_goals rw [e]
  · exact (X4_arr m c 7).symm.trans ((h4 main_v28_0 c).symm.trans (upd3_at0 _ _ _ _ (by decide) (by decide)).symm)
  · exact (X4_arr m c 8).symm.trans ((h4 main_v28_1 c).symm.trans (upd2_at0 _ _ _ (by decide)).symm)
  · exact (X4_arr m c 9).symm.trans ((h4 main_v28_2 c).symm.trans (upd1_at0 _ _).symm)

include h6
set_option maxHeartbeats 1600000 in
theorem ok2 (w : Fin cfg2.W) : (dat2 (R5 m outs) c).arrAt w cfg2.N = R6 m outs c (Pipeline.arrRef spec2 w) := by
  have e : R5 m outs = R5 m (o4 m) := funext fun c => funext fun _ => congrFun (V5_congr m outs (o4 m) h2 h4 c) _
  fin_cases w
  iterate 6 exact ((dat2 _ c).arrAt_in _ rfl _).trans ((A_eq2 _ c _).trans (V6_of m outs c _ (by decide)).symm)
  all_goals rw [e]
  · exact (X6_arr m c 6).symm.trans ((h6 main_v35_0 c).symm.trans (upd2_at0 _ _ _ (by decide)).symm)
  · exact (X6_arr m c 7).symm.trans ((h6 main_v35_1 c).symm.trans (upd1_at0 _ _).symm)

include h8
set_option maxHeartbeats 1600000 in
theorem ok3 (w : Fin cfg3.W) : (dat3 (R7 m outs) c).arrAt w cfg3.N = R8 m outs c (Pipeline.arrRef spec3 w) := by
  have e : R7 m outs = R7 m (o6 m) := funext fun c => funext fun _ => congrFun (V7_congr m outs (o6 m) h2 h4 h6 c) _
  fin_cases w
  iterate 4 exact ((dat3 _ c).arrAt_in _ rfl _).trans ((A_eq3 _ c _).trans (V8_of m outs c _ (by decide)).symm)
  all_goals rw [e]
  · exact (X8_arr m c 4).symm.trans ((h8 main_v53_0 c).symm.trans (upd3_at0 _ _ _ _ (by decide) (by decide)).symm)
  · exact (X8_arr m c 5).symm.trans ((h8 main_v53_1 c).symm.trans (upd2_at0 _ _ _ (by decide)).symm)
  · exact (X8_arr m c 6).symm.trans ((h8 main_v53_2 c).symm.trans (upd1_at0 _ _).symm)

include h10
set_option maxHeartbeats 1600000 in
theorem ok4 (w : Fin cfg4.W) : (dat4 (R9 m outs) c).arrAt w cfg4.N = R10 m outs c (Pipeline.arrRef spec4 w) := by
  have e : R9 m outs = R9 m (o8 m) := funext fun c => funext fun _ => congrFun (V9_congr m outs (o8 m) h2 h4 h6 h8 c) _
  fin_cases w
  iterate 7 exact ((dat4 _ c).arrAt_in _ rfl _).trans ((A_eq4 _ c _).trans (V10_of m outs c _ (by decide)).symm)
  all_goals rw [e]
  · exact (X10_arr m c 7).symm.trans ((h10 main_v60_0 c).symm.trans (upd3_at0 _ _ _ _ (by decide) (by decide)).symm)
  · exact (X10_arr m c 8).symm.trans ((h10 main_v60_1 c).symm.trans (upd2_at0 _ _ _ (by decide)).symm)
  · exact (X10_arr m c 9).symm.trans ((h10 main_v60_2 c).symm.trans (upd1_at0 _ _).symm)

include h12
set_option maxHeartbeats 1600000 in
theorem ok5 (w : Fin cfg5.W) : (dat5 (R11 m outs) c).arrAt w cfg5.N = R12 m outs c (Pipeline.arrRef spec5 w) := by
  have e : R11 m outs = R11 m (o10 m) := funext fun c => funext fun _ => congrFun (V11_congr m outs (o10 m) h2 h4 h6 h8 h10 c) _
  fin_cases w
  iterate 6 exact ((dat5 _ c).arrAt_in _ rfl _).trans ((A_eq5 _ c _).trans (V12_of m outs c _ (by decide)).symm)
  all_goals rw [e]
  · exact (X12_arr m c 6).symm.trans ((h12 main_v67_0 c).symm.trans (upd2_at0 _ _ _ (by decide)).symm)
  · exact (X12_arr m c 7).symm.trans ((h12 main_v67_1 c).symm.trans (upd1_at0 _ _).symm)

end ok

theorem outsOK : OutsOK m (outsC m) where
  h0 := ok0 m (outsC m) (fun _ _ => rfl)
  h1 := ok1 m (outsC m) (fun _ _ => rfl) (fun _ _ => rfl)
  h2 := ok2 m (outsC m) (fun _ _ => rfl) (fun _ _ => rfl) (fun _ _ => rfl)
  h3 := ok3 m (outsC m) (fun _ _ => rfl) (fun _ _ => rfl) (fun _ _ => rfl) (fun _ _ => rfl)
  h4 := ok4 m (outsC m) (fun _ _ => rfl) (fun _ _ => rfl) (fun _ _ => rfl) (fun _ _ => rfl) (fun _ _ => rfl)
  h5 := ok5 m (outsC m) (fun _ _ => rfl) (fun _ _ => rfl) (fun _ _ => rfl) (fun _ _ => rfl) (fun _ _ => rfl) (fun _ _ => rfl)

end Cert.Kernel.Run

end
-- ==== Proof.KI.RunCond.lean ====
/-
  The run of the program's thirteen items (seven stretches of host operations around six kernel regions) to the last
  contents of EVERY unscoped buffer, given each region's segment record. The frame claim reads the nineteen arguments
  off those contents and the value claim reads the result buffer.
-/
import proofs.«400309_j11605001633947_1_alg».proof.Proof.Gen.KernelIdeal.Regions

set_option maxRecDepth 1268

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given one segment record per kernel region, entered from the contents the item before left and
    left at the contents the next item finds: every weakly fair execution terminates and every final memory holds each
    unscoped buffer at the last contents `V13 m outs c` — the result buffer among them, and each argument, which no item
    writes. The launch is the several-regions one over the same segment list as the frame's; only what is read off
    the last contents differs. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c)) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, hpre3 c, hpost3 c, hpre4 c, hpost4 c, hpre5 c, hpost5 c, sep_mono .rfl (hE6 c)⟩)
    (hinit := ?_) (QY := fun c s => ∀ b ∈ Pipeline.ucRefs τ sig, s.mem (((c : Thread nD τ)).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

end Cert.KernelIdeal.Gen

end
-- ==== Proof.KI.Reg0.lean ====
import proofs.«400309_j11605001633947_1_alg».proof.Proof.Gen.KernelIdeal.Launch
import proofs.«400309_j11605001633947_1_alg».proof.Proof.Gen.KernelIdeal.Skeleton
import proofs.«400309_j11605001633947_1_alg».proof.Proof.Gen.KernelIdeal.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S2000x128 .f32 := iblk0 V c 0 t
abbrev ab0 (c : Dev nD) (t : Fin cfg0.N) : Vec F S2000x128 .f32 := iblk0 V c 1 t
abbrev wb0 (c : Dev nD) (t : Fin cfg0.N) : Vec F S128x128 .f32 := iblk0 V c 2 t
abbrev bb0 (c : Dev nD) (t : Fin cfg0.N) : Vec F S1x128 .f32 := iblk0 V c 3 t

def sc0 (c : Dev nD) : (n : ℕ) → n < cfg0.N → Vec F S1x128 .f32 × Vec F S1x128 .f32
  | 0, h => (k0_pay4 (xb0 V c ⟨0, h⟩) (ab0 V c ⟨0, h⟩) (wb0 V c ⟨0, h⟩) (bb0 V c ⟨0, h⟩) k0_pay1,
      k0_pay5 (xb0 V c ⟨0, h⟩) (ab0 V c ⟨0, h⟩) (wb0 V c ⟨0, h⟩) (bb0 V c ⟨0, h⟩) k0_pay2)
  | n + 1, h => (k0_pay4 (xb0 V c ⟨n + 1, h⟩) (ab0 V c ⟨n + 1, h⟩) (wb0 V c ⟨n + 1, h⟩) (bb0 V c ⟨n + 1, h⟩) (sc0 c n (Nat.lt_of_succ_lt h)).1,
      k0_pay5 (xb0 V c ⟨n + 1, h⟩) (ab0 V c ⟨n + 1, h⟩) (wb0 V c ⟨n + 1, h⟩) (bb0 V c ⟨n + 1, h⟩) (sc0 c n (Nat.lt_of_succ_lt h)).2)

theorem sc0_zero (c : Dev nD) (h : 0 < cfg0.N) :
    sc0 V c 0 h = (k0_pay4 (xb0 V c ⟨0, h⟩) (ab0 V c ⟨0, h⟩) (wb0 V c ⟨0, h⟩) (bb0 V c ⟨0, h⟩) k0_pay1,
      k0_pay5 (xb0 V c ⟨0, h⟩) (ab0 V c ⟨0, h⟩) (wb0 V c ⟨0, h⟩) (bb0 V c ⟨0, h⟩) k0_pay2) := rfl

theorem sc0_succ (c : Dev nD) (n : ℕ) (h : n + 1 < cfg0.N) :
    sc0 V c (n + 1) h = (k0_pay4 (xb0 V c ⟨n + 1, h⟩) (ab0 V c ⟨n + 1, h⟩) (wb0 V c ⟨n + 1, h⟩) (bb0 V c ⟨n + 1, h⟩) (sc0 V c n (Nat.lt_of_succ_lt h)).1,
      k0_pay5 (xb0 V c ⟨n + 1, h⟩) (ab0 V c ⟨n + 1, h⟩) (wb0 V c ⟨n + 1, h⟩) (bb0 V c ⟨n + 1, h⟩) (sc0 V c n (Nat.lt_of_succ_lt h)).2) := rfl

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1
theorem hx0 : ∀ t : Fin cfg0.N, ¬(cond0_1 (grid0.coords t) ∧ cond0_2 (grid0.coords t)) :=
  (by decide +kernel : ∀ t : Fin grid0.N, ¬(cond0_1 (grid0.coords t) ∧ cond0_2 (grid0.coords t)))

/-- The rows after a point are the update of the reset rows at the first point, of the previous rows `s` afterwards. -/
theorem sc0_eq (c : Dev nD) (t : Fin cfg0.N) (s) (hs : ∀ h : 0 < t.val, s = sc0 V c (t.val - 1) (by omega)) :
    (sc0 V c t.val t.isLt).1 = k0_pay4 (xb0 V c t) (ab0 V c t) (wb0 V c t) (bb0 V c t) (if cond0_1 (grid0.coords t) then k0_pay1 else s.1)
      ∧ (sc0 V c t.val t.isLt).2 = k0_pay5 (xb0 V c t) (ab0 V c t) (wb0 V c t) (bb0 V c t) (if cond0_1 (grid0.coords t) then k0_pay2 else s.2) := by
  obtain ⟨n, hn⟩ := t
  cases n with
  | zero => simp only [if_pos ((hcond0_1 ⟨0, hn⟩).mpr rfl)]; exact ⟨rfl, rfl⟩
  | succ n => simp only [if_neg fun h => Nat.succ_ne_zero n ((hcond0_1 ⟨n + 1, hn⟩).mp h), hs (Nat.succ_pos n)]; exact ⟨rfl, rfl⟩

def PhiS0 (c : Dev nD) (n : ℕ) (hn : n ≤ cfg0.N) : sProp 𝕄 :=
  iprop(∃ s, ⌜∀ h : 0 < n, s = sc0 V c (n - 1) (by omega)⌝ ∗ (((c : Thread nD τ).loc cc0_scratch0) ↦{fullShare} s.1) ∗ (((c : Thread nD τ).loc cc0_scratch1) ↦{fullShare} s.2)
    ∗ Pipeline.scopedRestBut (Ix := Unit) (Name := ℕ) (U := UR sig nD τ) (Lvl := ℕ) (Val := Elt F) spec0 c [cc0_scratch0, cc0_scratch1] ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (xb0 V c t) (ab0 V c t) (wb0 V c t) (bb0 V c t)
    | ⟨5, _⟩ => (sc0 V c t.val t.isLt).1
    | ⟨6, _⟩ => (sc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay3 (xb0 V c t) (ab0 V c t) (wb0 V c t) (bb0 V c t) := by dsimp only [dat0]
theorem after0_5 (c : Dev nD) (t : Fin cfg0.N) : (dat0 V c).after 5 t = (sc0 V c t.val t.isLt).1 := by dsimp only [dat0]
theorem after0_6 (c : Dev nD) (t : Fin cfg0.N) : (dat0 V c).after 6 t = (sc0 V c t.val t.isLt).2 := by dsimp only [dat0]

theorem Phi0 (c : Dev nD) (t : Fin (cfg0.N + 1)) : (dat0 V c).Φ t = PhiS0 V c t.val (Nat.le_of_lt_succ t.isLt) := rfl

/-- One run for every point: the first condition selects the reset of the rows, the second their copy to the row outputs. -/
theorem run0 (c : Dev nD) {i : grid0.Coords} {arg1 arg2 arg5 : Memref sig .tc .vmem S2000x128 .f32} {arg3 : Memref sig .tc .vmem S128x128 .f32} {arg4 arg6 arg7 arg8 arg9 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (hx : ¬(cond0_1 i ∧ cond0_2 i)) {x0 x1 x4 : Vec F S2000x128 .f32} {x2 : Vec F S128x128 .f32} {x3 x5 x6 s0 s1 : Vec F S1x128 .f32} {E : Set ℕ} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ owns c arg8 fullShare s0 ∗ owns c arg9 fullShare s1
        ∗ (iprop(owns c arg1 fullShare x0 ∗ owns c arg2 fullShare x1 ∗ owns c arg3 fullShare x2 ∗ owns c arg4 fullShare x3 ∗ owns c arg5 fullShare (k0_pay3 x0 x1 x2 x3)
            ∗ owns c arg6 fullShare (if cond0_2 i then k0_pay4 x0 x1 x2 x3 (if cond0_1 i then k0_pay1 else s0) else x5)
            ∗ owns c arg7 fullShare (if cond0_2 i then k0_pay5 x0 x1 x2 x3 (if cond0_1 i then k0_pay2 else s1) else x6)
            ∗ owns c arg8 fullShare (k0_pay4 x0 x1 x2 x3 (if cond0_1 i then k0_pay1 else s0))
            ∗ owns c arg9 fullShare (k0_pay5 x0 x1 x2 x3 (if cond0_1 i then k0_pay2 else s1))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  by_cases hc1 : cond0_1 i <;> by_cases hc2 : cond0_2 i
  · exact absurd ⟨hc1, hc2⟩ hx
  all_goals
    first | simp only [if_neg hc1] | simp only [if_pos hc1]
    first | simp only [if_neg hc2] | simp only [if_pos hc2]
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst_vars
    sl_exec (disch := first | exact hc1 | exact hc2)
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      · first | iexact H0 | iexact H1 | iexact H2 | iexact H3 | iexact H4 | iexact H5 | iexact H6 | iexact H7 | iexact H8
      ipureintro
      first | (sl_unfold_run_names; rw [read_writes_unit _ _ zeroOff2]; simp only [View.readAt_eq_ld, View.ld_unit_zero (S := S2000x128) zeroOff2, View.ld_unit_zero (S := S128x128) zeroOff2, View.ld_unit_zero (S := S1x128) zeroOff2, View.readCov_unit_zero (S := S1x128) _ zeroOff2]) | rfl

theorem idle0 : ∀ (w : Fin cfg0.W) (t : Fin cfg0.N), 5 ≤ w.val → if cond0_2 (grid0.coords t) then cfg0.idle w (grid0.coords t) = false
    else cfg0.idle w (grid0.coords t) = true ∧ (cfg0.win w).flush t = false := by decide +kernel

theorem leaves0 (c : Dev nD) (w : Fin cfg0.W) (hw : 5 ≤ w.val) (t : Fin cfg0.N) (d) :
    owns c ((cfg0.win w).stage (cfg0.slots t w)) fullShare (if cond0_2 (grid0.coords t) then (dat0 V c).after w t else (dat0 V c).before w t d) ⊢ (dat0 V c).leavesExact w t := by
  have h := idle0 w t hw
  by_cases hc2 : cond0_2 (grid0.coords t)
  · rw [if_pos hc2] at h ⊢; unfold Dat.leavesExact; rw [h]
  · rw [if_neg hc2] at h ⊢; rw [Dat.leavesExact_idle _ w t h.1 h.2]; iintro H; iexists d; iexact H

theorem before0 (c : Dev nD) (t : Fin cfg0.N) : (∀ d, (dat0 V c).before 0 t d = xb0 V c t) ∧ (∀ d, (dat0 V c).before 1 t d = ab0 V c t)
    ∧ (∀ d, (dat0 V c).before 2 t d = wb0 V c t) ∧ (∀ d, (dat0 V c).before 3 t d = bb0 V c t) := by
  refine ⟨?_, ?_, ?_, ?_⟩ <;> intro d <;> refine (Dat.before_in_eq_fetched (dat0 V c) _ ?_ ?_ ?_ ?_ t d).trans ?_ <;> intros <;> rfl

theorem body_obligation0 (c : Dev nD) : BodyObligation (dat0 (F := F) V c) (defs₀ (F := F)) Variants.none () Set.univ := fun t => by
  rw [bigSep_W0, bigSep_W0]
  obtain ⟨ha, hb, hc, hd⟩ := before0 V c t
  simp only [ha, hb, hc, hd, Phi0, PhiS0]
  iintro ⟨⟨%s, %hs, HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  obtain ⟨e1, e2⟩ := sc0_eq V c t s hs
  iapply run0 c (hx0 t)
  rw [owns_whole, owns_whole, owns_whole, owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← e1, ← e2]
  isplitl [HS0 HS1 Hr Hg]
  · iexists sc0 V c t.val t.isLt; isplitr; · ipureintro; exact fun _ => rfl
    isplitl [HS0]; · iexact HS0
    isplitl [HS1]; · iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply leaves0 V c 5 (by decide) t d5; iexact H5
  iapply leaves0 V c 6 (by decide) t d6; iexact H6

theorem hin0 (c : Dev nD) : Pipeline.ΦA spec0 c ⊢ (dat0 V c).Φ 0 := by
  unfold Pipeline.ΦA; rw [scopedRest0_split, Phi0, PhiS0]
  iintro ⟨⟨⟨⟨%d0, H0⟩, ⟨%d1, H1⟩⟩, Hr⟩, Hg⟩
  iexists (d0, d1); isplitr; · ipureintro; exact fun h => absurd h (Nat.lt_irrefl 0)
  isplitl [H0]; · iexact H0
  isplitl [H1]; · iexact H1
  isplitl [Hr]; · iexact Hr
  iexact Hg

theorem hout0 (c : Dev nD) : (dat0 V c).Φ (Fin.last cfg0.N) ⊢ Pipeline.ΦA spec0 c := by
  unfold Pipeline.ΦA; rw [scopedRest0_split, Phi0, PhiS0]
  iintro ⟨%s, -, H0, H1, Hr, Hg⟩
  isplitl [H0 H1 Hr]
  · isplitl [H0 H1]
    · isplitl [H0]; · iexists _; iexact H0
      iexists _; iexact H1
    iexact Hr
  iexact Hg

end Cert.KernelIdeal.Reg

end
-- ==== Proof.KI.Reg1.lean ====
import proofs.«400309_j11605001633947_1_alg».proof.Proof.Gen.KernelIdeal.Launch
import proofs.«400309_j11605001633947_1_alg».proof.Proof.Gen.KernelIdeal.Skeleton
import proofs.«400309_j11605001633947_1_alg».proof.Proof.Gen.KernelIdeal.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lb1 (c : Dev nD) (t : Fin cfg1.N) : Vec F S2000x128 .f32 := iblk1 V c 0 t
abbrev mu1 (c : Dev nD) (t : Fin cfg1.N) : Vec F S1x128 .f32 := iblk1 V c 1 t
abbrev va1 (c : Dev nD) (t : Fin cfg1.N) : Vec F S1x128 .f32 := iblk1 V c 2 t
abbrev gb1 (c : Dev nD) (t : Fin cfg1.N) : Vec F S1x128 .f32 := iblk1 V c 3 t
abbrev eb1 (c : Dev nD) (t : Fin cfg1.N) : Vec F S1x128 .f32 := iblk1 V c 4 t
abbrev wb1 (c : Dev nD) (t : Fin cfg1.N) : Vec F S128x128 .f32 := iblk1 V c 5 t
abbrev bb1 (c : Dev nD) (t : Fin cfg1.N) : Vec F S1x128 .f32 := iblk1 V c 6 t

abbrev lo1 (c : Dev nD) (t : Fin cfg1.N) : FVec F S2000x128 .f32 :=
  k1_pay5 (lb1 V c t) (va1 V c t) (gb1 V c t) (mu1 V c t) (eb1 V c t) (wb1 V c t) (bb1 V c t)

def sc1 (c : Dev nD) : (n : ℕ) → n < cfg1.N → Vec F S1x128 .f32 × Vec F S1x128 .f32
  | 0, h => (k1_pay1 (lo1 V c ⟨0, h⟩) k1_pay3, k1_pay2 (lo1 V c ⟨0, h⟩) k1_pay4)
  | n + 1, h => (k1_pay1 (lo1 V c ⟨n + 1, h⟩) (sc1 c n (Nat.lt_of_succ_lt h)).1, k1_pay2 (lo1 V c ⟨n + 1, h⟩) (sc1 c n (Nat.lt_of_succ_lt h)).2)

theorem sc1_zero (c : Dev nD) (h : 0 < cfg1.N) :
    sc1 V c 0 h = (k1_pay1 (lo1 V c ⟨0, h⟩) k1_pay3, k1_pay2 (lo1 V c ⟨0, h⟩) k1_pay4) := rfl

theorem sc1_succ (c : Dev nD) (n : ℕ) (h : n + 1 < cfg1.N) :
    sc1 V c (n + 1) h = (k1_pay1 (lo1 V c ⟨n + 1, h⟩) (sc1 V c n (Nat.lt_of_succ_lt h)).1, k1_pay2 (lo1 V c ⟨n + 1, h⟩) (sc1 V c n (Nat.lt_of_succ_lt h)).2) := rfl

abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

set_option maxHeartbeats 4000000 in
/-- The two conditions decide which stores run; in every case each buffer ends at the payload of the last store into it. -/
theorem run1 (c : Dev nD) (i : grid1.Coords) {arg1 arg8 : Memref sig .tc .vmem S2000x128 .f32} {arg2 arg3 arg4 arg5 arg7 arg9 arg10 arg11 arg12 : Memref sig .tc .vmem S1x128 .f32} {arg6 : Memref sig .tc .vmem S128x128 .f32} {harg1 harg2 harg3 harg4 harg5 harg6 harg7 harg8 harg9 harg10 harg11 harg12}
    {x0 x1 x2 x3 x4 x5 x6 x7 xi8 xi9 xs0 xs1 E} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
        ∗ owns c.tc arg8 fullShare x7 ∗ owns c.tc arg9 fullShare xi8 ∗ owns c.tc arg10 fullShare xi9 ∗ owns c.tc arg11 fullShare xs0 ∗ owns c.tc arg12 fullShare xs1
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
            ∗ owns c.tc arg8 fullShare (k1_pay5 x0 x2 x3 x1 x4 x5 x6) ∗ owns c.tc arg9 fullShare (if cond1_1 i then k1_pay1 (k1_pay5 x0 x2 x3 x1 x4 x5 x6) (if cond1_0 i then k1_pay3 else xs0) else xi8) ∗ owns c.tc arg10 fullShare (if cond1_1 i then k1_pay2 (k1_pay5 x0 x2 x3 x1 x4 x5 x6) (if cond1_0 i then k1_pay4 else xs1) else xi9)
            ∗ owns c.tc arg11 fullShare (k1_pay1 (k1_pay5 x0 x2 x3 x1 x4 x5 x6) (if cond1_0 i then k1_pay3 else xs0)) ∗ owns c.tc arg12 fullShare (k1_pay2 (k1_pay5 x0 x2 x3 x1 x4 x5 x6) (if cond1_0 i then k1_pay4 else xs1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  split_ifs
  all_goals
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    subst hf0 hf1 hf2 hf3 hf4 hf5 hf6 hf7 hf8 hf9 hf10 hf11
    sl_exec
    sl_step
    iapply Hk
    isplitl [H0]; swap; isplitl [H1]; swap; isplitl [H2]; swap; isplitl [H3]; swap; isplitl [H4]; swap; isplitl [H5]; swap
    isplitl [H6]; swap; isplitl [H7]; swap; isplitl [H8]; swap; isplitl [H9]; swap; isplitl [H10]; swap
    all_goals
      iexists _; isplitr; swap; iassumption
      ipureintro; sl_unfold_run_names
      simp only [read_writes_unit (S := S2000x128) _ _ zeroOff2, read_writes_unit (S := S1x128) _ _ zeroOff2, View.readAt_eq_ld, View.ld_unit_zero (S := S2000x128) zeroOff2, View.ld_unit_zero (S := S1x128) zeroOff2, View.ld_unit_zero (S := S128x128) zeroOff2, View.readCov_cons_toLoadRect]

abbrev scM1_0 : Memref sig .tc .vmem S1x128 .f32 := Memref.whole cc1_scratch0
abbrev scM1_1 : Memref sig .tc .vmem S1x128 .f32 := Memref.whole cc1_scratch1

def PhiS1 (c : Dev nD) (n : ℕ) (hn : n ≤ cfg1.N) : sProp 𝕄 :=
  iprop(iprop((∃ s, ⌜∀ h : n ≠ 0, s = sc1 V c (n - 1) (by omega)⌝ ∗ owns c.tc scM1_0 fullShare s.1 ∗ owns c.tc scM1_1 fullShare s.2)
      ∗ Pipeline.scopedRestBut spec1 c [cc1_scratch0, cc1_scratch1]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => lo1 V c t
    | ⟨8, _⟩ => (sc1 V c t.val t.isLt).1
    | ⟨9, _⟩ => (sc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = lo1 V c t := by dsimp only [dat1]
theorem after1_8 (c : Dev nD) (t : Fin cfg1.N) : (dat1 V c).after 8 t = (sc1 V c t.val t.isLt).1 := by dsimp only [dat1]
theorem after1_9 (c : Dev nD) (t : Fin cfg1.N) : (dat1 V c).after 9 t = (sc1 V c t.val t.isLt).2 := by dsimp only [dat1]

theorem Phi1_eq (c : Dev nD) (k : Fin (cfg1.N + 1)) : (dat1 V c).Φ k = PhiS1 V c k.val (Nat.le_of_lt_succ k.isLt) := rfl

theorem liveAt1 : ∀ (w : Fin cfg1.W) (t : Fin cfg1.N), cond1_1 (grid1.coords t) → cfg1.idle w (grid1.coords t) = false := by decide +kernel

theorem idleAt1 : ∀ (w : Fin cfg1.W) (t : Fin cfg1.N), 8 ≤ w.val → ¬cond1_1 (grid1.coords t) → cfg1.idle w (grid1.coords t) = true ∧ (cfg1.win w).flush t = false := by decide +kernel

theorem out1 (c : Dev nD) (t : Fin cfg1.N) (w : Fin cfg1.W) (hw : 8 ≤ w.val) {d x} (hx : cond1_1 (grid1.coords t) → (dat1 V c).after w t = x) :
    owns c.tc ((cfg1.win w).stage (cfg1.slots t w)) fullShare (if cond1_1 (grid1.coords t) then x else (dat1 V c).before w t d) ⊢ (dat1 V c).leavesExact w t := by
  by_cases h : cond1_1 (grid1.coords t)
  · rw [if_pos h, ← hx h]; unfold Dat.leavesExact; rw [liveAt1 w t h]; try exact Entails.refl _
  · rw [if_neg h, Dat.leavesExact_idle _ w t (idleAt1 w t hw h).1 (idleAt1 w t hw h).2]; iintro H; iexists _; iexact H

theorem PhiA1_eq (c : Dev nD) :
    (Pipeline.ΦA spec1 c : sProp 𝕄)
      = iprop(iprop(iprop((∃ d, owns c.tc scM1_0 fullShare d) ∗ (∃ d, owns c.tc scM1_1 fullShare d))
          ∗ Pipeline.scopedRestBut spec1 c [cc1_scratch0, cc1_scratch1]) ∗ (∃ r, prngReg c r)) := by
  unfold Pipeline.ΦA; rw [scopedRest1_split]; simp only [scM1_0, scM1_1, owns_whole]; try rfl

/-- One step of the scratch rows' recursion, by cases on the point being the first. -/
theorem sc1_step (c : Dev nD) (t : Fin cfg1.N) (s) (hs : ∀ h : t.val ≠ 0, s = sc1 V c (t.val - 1) (by omega)) :
    sc1 V c t.val t.isLt = (k1_pay1 (lo1 V c t) (if cond1_0 (grid1.coords t) then k1_pay3 else s.1), k1_pay2 (lo1 V c t) (if cond1_0 (grid1.coords t) then k1_pay4 else s.2)) := by
  have hc := (by decide +kernel : ∀ t : Fin grid1.N, cond1_0 (grid1.coords t) ↔ t.val = 0) t
  obtain ⟨n, hn⟩ := t
  cases n with
  | zero => simp only [if_pos (hc.mpr rfl)]; rfl
  | succ n => simp only [if_neg fun h => Nat.succ_ne_zero n (hc.mp h), hs (Nat.succ_ne_zero n)]; rfl

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;> exact fun d => ((dat1 V c).before_in_eq_fetched _ rfl (fun _ => rfl) (fun _ _ _ => rfl) (fun _ => rfl) t d).trans (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]; dsimp only
  obtain ⟨b0, b1, b2, b3, b4, b5, b6⟩ := before1 V c t
  simp only [b0, b1, b2, b3, b4, b5, b6]
  rw [Phi1_eq, Phi1_eq]; unfold PhiS1
  iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e := sc1_step V c t s hs
  iapply run1 c (grid1.coords t)
  iframe H0 H1 H2 H3 H4 H5 H6 H7 H8 H9 HS0 HS1
  iintro ⟨H0, H1, H2, H3, H4, H5, H6, H7, H8, H9, HS0, HS1⟩
  isplitl [HS0 HS1 HR Hg]
  · isplitl [HS0 HS1 HR]; swap; · iexact Hg
    isplitl [HS0 HS1]; swap; · iexact HR
    iexists (_, _); isplitr; swap
    · isplitl [HS0]; · iexact HS0
      iexact HS1
    ipureintro; exact fun _ => e.symm
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply out1 V c t 8 (by decide) fun _ => (after1_8 V c t).trans (congrArg Prod.fst e); iexact H8
  iapply out1 V c t 9 (by decide) fun _ => (after1_9 V c t).trans (congrArg Prod.snd e); iexact H9

theorem hin1 (c : Dev nD) : Pipeline.ΦA spec1 c ⊢ (dat1 V c).Φ 0 := by
  rw [PhiA1_eq, Phi1_eq]; unfold PhiS1
  iintro ⟨⟨⟨⟨%d0, H0⟩, ⟨%d1, H1⟩⟩, HR⟩, Hg⟩
  iframe HR Hg
  iexists (d0, d1); iframe H0 H1
  ipureintro; exact fun h => absurd rfl h

theorem hout1 (c : Dev nD) : (dat1 V c).Φ (Fin.last cfg1.N) ⊢ Pipeline.ΦA spec1 c := by
  rw [PhiA1_eq, Phi1_eq]; unfold PhiS1
  iintro ⟨⟨⟨%s, -, H0, H1⟩, HR⟩, Hg⟩
  iframe HR Hg
  isplitl [H0] <;> iexists _ <;> iassumption

end Cert.KernelIdeal.Reg

end
-- ==== Proof.KI.Reg2.lean ====
import proofs.«400309_j11605001633947_1_alg».proof.Proof.Gen.KernelIdeal.Launch
import proofs.«400309_j11605001633947_1_alg».proof.Proof.Gen.KernelIdeal.Skeleton
import proofs.«400309_j11605001633947_1_alg».proof.Proof.Gen.KernelIdeal.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lb2 (c : Dev nD) (t : Fin cfg2.N) : Vec F S2000x128 .f32 := iblk2 V c 0 t
abbrev mu2 (c : Dev nD) (t : Fin cfg2.N) : Vec F S1x128 .f32 := iblk2 V c 1 t
abbrev va2 (c : Dev nD) (t : Fin cfg2.N) : Vec F S1x128 .f32 := iblk2 V c 2 t
abbrev gb2 (c : Dev nD) (t : Fin cfg2.N) : Vec F S1x128 .f32 := iblk2 V c 3 t
abbrev eb2 (c : Dev nD) (t : Fin cfg2.N) : Vec F S1x128 .f32 := iblk2 V c 4 t
abbrev ib2 (c : Dev nD) (t : Fin cfg2.N) : Vec F S2000x1 .i32 := iblk2 V c 5 t

abbrev ho2 (c : Dev nD) (t : Fin cfg2.N) : FVec F S2000x128 .f32 :=
  k2_pay3 (lb2 V c t) (va2 V c t) (gb2 V c t) (mu2 V c t) (eb2 V c t)

def sc2 (c : Dev nD) : (n : ℕ) → n < cfg2.N → Vec F S128x128 .f32
  | 0, h => k2_pay1 (k2_pay4 (ib2 V c ⟨0, h⟩)) k2_pay2
      (k2_pay5 (lb2 V c ⟨0, h⟩) (va2 V c ⟨0, h⟩) (gb2 V c ⟨0, h⟩) (mu2 V c ⟨0, h⟩) (eb2 V c ⟨0, h⟩))
  | n + 1, h => k2_pay1 (k2_pay4 (ib2 V c ⟨n + 1, h⟩)) (sc2 c n (Nat.lt_of_succ_lt h))
      (k2_pay5 (lb2 V c ⟨n + 1, h⟩) (va2 V c ⟨n + 1, h⟩) (gb2 V c ⟨n + 1, h⟩) (mu2 V c ⟨n + 1, h⟩) (eb2 V c ⟨n + 1, h⟩))

theorem sc2_zero (c : Dev nD) (h : 0 < cfg2.N) :
    sc2 V c 0 h = k2_pay1 (k2_pay4 (ib2 V c ⟨0, h⟩)) k2_pay2
      (k2_pay5 (lb2 V c ⟨0, h⟩) (va2 V c ⟨0, h⟩) (gb2 V c ⟨0, h⟩) (mu2 V c ⟨0, h⟩) (eb2 V c ⟨0, h⟩)) := rfl

theorem sc2_succ (c : Dev nD) (n : ℕ) (h : n + 1 < cfg2.N) :
    sc2 V c (n + 1) h = k2_pay1 (k2_pay4 (ib2 V c ⟨n + 1, h⟩)) (sc2 V c n (Nat.lt_of_succ_lt h))
      (k2_pay5 (lb2 V c ⟨n + 1, h⟩) (va2 V c ⟨n + 1, h⟩) (gb2 V c ⟨n + 1, h⟩) (mu2 V c ⟨n + 1, h⟩) (eb2 V c ⟨n + 1, h⟩)) := rfl

abbrev scM2 : Memref sig .tc .vmem S128x128 .f32 := Memref.whole cc2_scratch0

/-- Before position `n` the accumulator holds what point `n - 1` left, if there is such a point. -/
def PhiS2 (c : Dev nD) (n : ℕ) (_ : n ≤ cfg2.N) : sProp 𝕄 :=
  iprop(iprop((∃ d, ⌜∀ m h, n = m + 1 → d = sc2 V c m h⌝ ∗ owns c.tc scM2 fullShare d) ∗ Pipeline.scopedRestBut spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => ho2 V c t
    | ⟨7, _⟩ => sc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = ho2 V c t := rfl
theorem after2_7 (c : Dev nD) (t : Fin cfg2.N) : (dat2 V c).after 7 t = sc2 V c t.val t.isLt := rfl

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;>
    exact fun d => ((dat2 V c).before_in_eq_fetched _ rfl (fun _ => rfl) (fun _ _ _ => rfl) (fun _ => rfl) t d).trans rfl

theorem PhiA2_eq (c : Dev nD) :
    (Pipeline.ΦA spec2 c : sProp 𝕄)
      = iprop(iprop((∃ d, owns c.tc scM2 fullShare d) ∗ Pipeline.scopedRestBut spec2 c [cc2_scratch0]) ∗ (∃ r, prngReg c r)) := by
  unfold Pipeline.ΦA; rw [scopedRest2_split]; simp only [scM2, owns_whole]; try rfl

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

theorem hc2 : ∀ t : Fin cfg2.N, cond2_0 (grid2.coords t) ↔ t.val = 0 := by decide +kernel
theorem ex2 : ∀ t : Fin cfg2.N, cond2_0 (grid2.coords t) → ¬cond2_1 (grid2.coords t) := by decide +kernel
theorem live2_7 : ∀ t : Fin cfg2.N, cond2_1 (grid2.coords t) → cfg2.idle 7 (grid2.coords t) = false := by decide +kernel
theorem idle2_7 : ∀ t : Fin cfg2.N, ¬cond2_1 (grid2.coords t) → cfg2.idle 7 (grid2.coords t) = true ∧ (cfg2.win 7).flush t = false := by decide +kernel

/-- One run for every point: the accumulator is reset where the first condition holds and copied out where the second does. -/
theorem run2 (c : Dev nD) {i : grid2.Coords} (arg1 arg7 : Memref sig .tc .vmem S2000x128 .f32) (arg2 arg3 arg4 arg5 : Memref sig .tc .vmem S1x128 .f32) (arg6 : Memref sig .tc .vmem S2000x1 .i32) (arg8 arg9 : Memref sig .tc .vmem S128x128 .f32)
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {x0 : Vec F S2000x128 .f32} {x1 x2 x3 x4 : Vec F S1x128 .f32} {x5 : Vec F S2000x1 .i32} (x6 : Vec F S2000x128 .f32) (x7 xs : Vec F S128x128 .f32) {p : Vec F S128x128 .f32}
    (hx : cond2_0 i → ¬cond2_1 i) (hp : k2_pay1 (k2_pay4 x5) (if cond2_0 i then k2_pay2 else xs) (k2_pay5 x0 x2 x3 x1 x4) = p) {E : Set ℕ} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare xs
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (k2_pay3 x0 x2 x3 x1 x4) ∗ owns c.tc arg8 fullShare (if cond2_1 i then p else x7) ∗ owns c.tc arg9 fullShare p) -∗ K ⟨⟩))
      ⊢ wp frame (wpE (defs₀ (F := F)) Variants.none c none) E (cc2__stage3_kernel i arg1 harg1 arg2 harg2 arg3 harg3 arg4 harg4 arg5 harg5 arg6 harg6 arg7 harg7 arg8 harg8 arg9 harg9) K := by
  subst hp
  by_cases hc1 : cond2_1 i <;> by_cases hc0 : cond2_0 i
  · exact absurd hc1 (hx hc0)
  all_goals
    first | rw [if_pos hc0] | rw [if_neg hc0]
    first | rw [if_pos hc1] | rw [if_neg hc1]
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    subst hf0 hf1 hf2 hf3 hf4 hf5 hf6 hf7 hfs
    sl_exec
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      first | iexact H0 | iexact H1 | iexact H2 | iexact H3 | iexact H4 | iexact H5 | iexact H6 | iexact H7 | iexact HS
      ipureintro; sl_unfold_words
      try first | rw [read_writes_unit (S := S2000x128) _ _ zeroOff2] | rw [read_writes_unit (S := S128x128) _ _ zeroOff2]
      simp only [View.readCov_unit_zero (S := S128x128) _ zeroOff2, View.readAt_eq_ld, View.ld_unit_zero (S := S2000x128) zeroOff2, View.ld_unit_zero (S := S1x128) zeroOff2,
        View.ld_unit_zero (S := S2000x1) zeroOff2, View.ld_unit_zero (S := S128x128) zeroOff2]

/-- One step of the accumulator's recursion, the reset folded in. -/
theorem acc2 (c : Dev nD) (t : Fin cfg2.N) (d) (hd : ∀ m h, t.val = m + 1 → d = sc2 V c m h) :
    k2_pay1 (k2_pay4 (ib2 V c t)) (if cond2_0 (grid2.coords t) then k2_pay2 else d)
      (k2_pay5 (lb2 V c t) (va2 V c t) (gb2 V c t) (mu2 V c t) (eb2 V c t)) = sc2 V c t.val t.isLt := by
  obtain ⟨n, hn⟩ := t
  cases n with
  | zero => rw [if_pos ((hc2 ⟨0, hn⟩).mpr rfl)]; rfl
  | succ n => rw [if_neg fun e => Nat.succ_ne_zero n ((hc2 ⟨n + 1, hn⟩).mp e), hd n _ rfl]; rfl

/-- The second output's buffer: the accumulator at the last point, untouched elsewhere. -/
theorem leaves2_7 (c : Dev nD) (t : Fin cfg2.N) (d) :
    owns c.tc (st2_7 t) fullShare (if cond2_1 (grid2.coords t) then sc2 V c t.val t.isLt else (dat2 V c).before 7 t d) ⊢ (dat2 V c).leavesExact 7 t := by
  by_cases h : cond2_1 (grid2.coords t)
  · rw [if_pos h]; unfold Dat.leavesExact; rw [live2_7 t h]; rfl
  · rw [if_neg h, Dat.leavesExact_idle _ 7 t (idle2_7 t h).1 (idle2_7 t h).2]; iintro H; iexists d; iexact H

theorem body_obligation2 (c : Dev nD) : BodyObligation (dat2 (F := F) V c) (defs₀ (F := F)) Variants.none () Set.univ := fun t => by
  obtain ⟨h0, h1, h2, h3, h4, h5⟩ := before2 V c t
  rw [bigSep_W2, bigSep_W2]
  simp only [h0, h1, h2, h3, h4, h5]
  show iprop(PhiS2 V c t.val (Nat.le_of_lt t.isLt) ∗ _) ⊢ wp frame _ _ (bodyAt2 t) fun _ => iprop(PhiS2 V c (t.val + 1) t.isLt ∗ (dat2 V c).owesAt () t.castSucc
      ∗ owns c.tc (st2_0 t) fullShare (lb2 V c t)
      ∗ owns c.tc (st2_1 t) fullShare (mu2 V c t)
      ∗ owns c.tc (st2_2 t) fullShare (va2 V c t)
      ∗ owns c.tc (st2_3 t) fullShare (gb2 V c t)
      ∗ owns c.tc (st2_4 t) fullShare (eb2 V c t)
      ∗ owns c.tc (st2_5 t) fullShare (ib2 V c t)
      ∗ owns c.tc (st2_6 t) fullShare (ho2 V c t)
      ∗ (dat2 V c).leavesExact 7 t)
  unfold PhiS2
  iintro ⟨⟨⟨⟨%xs, %hxs, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c (st2_0 t) (st2_6 t) (st2_1 t) (st2_2 t) (st2_3 t) (st2_4 t) (st2_5 t) (st2_7 t) scM2 ((dat2 V c).before 6 t d6) ((dat2 V c).before 7 t d7) xs (ex2 t) (acc2 V c t xs hxs))
  iframe
  iintro ⟨H0, H1, H2, H3, H4, H5, H6, H7, HS⟩
  iframe
  isplitl [HS]
  · iexists _; isplitr; swap; iexact HS; ipureintro; intro m h e; cases e; rfl
  iapply (leaves2_7 V c t d7); iexact H7

theorem hin2 (c : Dev nD) : Pipeline.ΦA spec2 c ⊢ (dat2 V c).Φ 0 := by
  rw [PhiA2_eq]; dsimp only [dat2, PhiS2]
  iintro ⟨⟨⟨%d, HS⟩, Hr⟩, Hg⟩
  iframe
  iexists d; isplitr
  · ipureintro; exact fun m _ e => absurd e.symm (Nat.succ_ne_zero m)
  iexact HS

theorem hout2 (c : Dev nD) : (dat2 V c).Φ (Fin.last cfg2.N) ⊢ Pipeline.ΦA spec2 c := by
  rw [PhiA2_eq]; dsimp only [dat2, PhiS2]
  iintro ⟨⟨⟨%d, -, HS⟩, Hr⟩, Hg⟩
  iframe
  iexists d; iexact HS

end Cert.KernelIdeal.Reg

end
-- ==== Proof.KI.Reg3.lean ====
import proofs.«400309_j11605001633947_1_alg».proof.Proof.Gen.KernelIdeal.Launch
import proofs.«400309_j11605001633947_1_alg».proof.Proof.Gen.KernelIdeal.Skeleton
import proofs.«400309_j11605001633947_1_alg».proof.Proof.Gen.KernelIdeal.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3 (c : Dev nD) (t : Fin cfg3.N) : Vec F S2000x128 .f32 := iblk3 V c 0 t
abbrev ab3 (c : Dev nD) (t : Fin cfg3.N) : Vec F S2000x128 .f32 := iblk3 V c 1 t
abbrev wb3 (c : Dev nD) (t : Fin cfg3.N) : Vec F S128x128 .f32 := iblk3 V c 2 t
abbrev bb3 (c : Dev nD) (t : Fin cfg3.N) : Vec F S1x128 .f32 := iblk3 V c 3 t

def sc3 (c : Dev nD) : (n : ℕ) → n < cfg3.N → Vec F S1x128 .f32 × Vec F S1x128 .f32
  | 0, h => (k3_pay4 (xb3 V c ⟨0, h⟩) (ab3 V c ⟨0, h⟩) (wb3 V c ⟨0, h⟩) (bb3 V c ⟨0, h⟩) k3_pay1,
      k3_pay5 (xb3 V c ⟨0, h⟩) (ab3 V c ⟨0, h⟩) (wb3 V c ⟨0, h⟩) (bb3 V c ⟨0, h⟩) k3_pay2)
  | n + 1, h => (k3_pay4 (xb3 V c ⟨n + 1, h⟩) (ab3 V c ⟨n + 1, h⟩) (wb3 V c ⟨n + 1, h⟩) (bb3 V c ⟨n + 1, h⟩) (sc3 c n (Nat.lt_of_succ_lt h)).1,
      k3_pay5 (xb3 V c ⟨n + 1, h⟩) (ab3 V c ⟨n + 1, h⟩) (wb3 V c ⟨n + 1, h⟩) (bb3 V c ⟨n + 1, h⟩) (sc3 c n (Nat.lt_of_succ_lt h)).2)

theorem sc3_zero (c : Dev nD) (h : 0 < cfg3.N) :
    sc3 V c 0 h = (k3_pay4 (xb3 V c ⟨0, h⟩) (ab3 V c ⟨0, h⟩) (wb3 V c ⟨0, h⟩) (bb3 V c ⟨0, h⟩) k3_pay1,
      k3_pay5 (xb3 V c ⟨0, h⟩) (ab3 V c ⟨0, h⟩) (wb3 V c ⟨0, h⟩) (bb3 V c ⟨0, h⟩) k3_pay2) := rfl

theorem sc3_succ (c : Dev nD) (n : ℕ) (h : n + 1 < cfg3.N) :
    sc3 V c (n + 1) h = (k3_pay4 (xb3 V c ⟨n + 1, h⟩) (ab3 V c ⟨n + 1, h⟩) (wb3 V c ⟨n + 1, h⟩) (bb3 V c ⟨n + 1, h⟩) (sc3 V c n (Nat.lt_of_succ_lt h)).1,
      k3_pay5 (xb3 V c ⟨n + 1, h⟩) (ab3 V c ⟨n + 1, h⟩) (wb3 V c ⟨n + 1, h⟩) (bb3 V c ⟨n + 1, h⟩) (sc3 V c n (Nat.lt_of_succ_lt h)).2) := rfl

abbrev cond3_1 (i : grid3.Coords) : Prop := (Scalar.cmpi .ne (Scalar.extui (Scalar.cmpi .eq (BitVec.ofNat 32 (i 0).val) 0#32)) 0#32) = 1#1
theorem hcond3_1 : ∀ t : Fin cfg3.N, cond3_1 (grid3.coords t) ↔ t.val = 0 :=
  (by decide +kernel : ∀ t : Fin grid3.N, cond3_1 (grid3.coords t) ↔ t.val = 0)

abbrev cond3_2 (i : grid3.Coords) : Prop := k3_cond2 i = 1#1
theorem hx3 : ∀ t : Fin cfg3.N, ¬(cond3_1 (grid3.coords t) ∧ cond3_2 (grid3.coords t)) :=
  (by decide +kernel : ∀ t : Fin grid3.N, ¬(cond3_1 (grid3.coords t) ∧ cond3_2 (grid3.coords t)))

/-- The rows after a point are the update of the reset rows at the first point, of the previous rows `s` afterwards. -/
theorem sc3_eq (c : Dev nD) (t : Fin cfg3.N) (s) (hs : ∀ h : 0 < t.val, s = sc3 V c (t.val - 1) (by omega)) :
    (sc3 V c t.val t.isLt).1 = k3_pay4 (xb3 V c t) (ab3 V c t) (wb3 V c t) (bb3 V c t) (if cond3_1 (grid3.coords t) then k3_pay1 else s.1)
      ∧ (sc3 V c t.val t.isLt).2 = k3_pay5 (xb3 V c t) (ab3 V c t) (wb3 V c t) (bb3 V c t) (if cond3_1 (grid3.coords t) then k3_pay2 else s.2) := by
  obtain ⟨n, hn⟩ := t
  cases n with
  | zero => simp only [if_pos ((hcond3_1 ⟨0, hn⟩).mpr rfl)]; exact ⟨rfl, rfl⟩
  | succ n => simp only [if_neg fun h => Nat.succ_ne_zero n ((hcond3_1 ⟨n + 1, hn⟩).mp h), hs (Nat.succ_pos n)]; exact ⟨rfl, rfl⟩

def PhiS3 (c : Dev nD) (n : ℕ) (hn : n ≤ cfg3.N) : sProp 𝕄 :=
  iprop(∃ s, ⌜∀ h : 0 < n, s = sc3 V c (n - 1) (by omega)⌝ ∗ (((c : Thread nD τ).loc cc3_scratch0) ↦{fullShare} s.1) ∗ (((c : Thread nD τ).loc cc3_scratch1) ↦{fullShare} s.2)
    ∗ Pipeline.scopedRestBut (Ix := Unit) (Name := ℕ) (U := UR sig nD τ) (Lvl := ℕ) (Val := Elt F) spec3 c [cc3_scratch0, cc3_scratch1] ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (xb3 V c t) (ab3 V c t) (wb3 V c t) (bb3 V c t)
    | ⟨5, _⟩ => (sc3 V c t.val t.isLt).1
    | ⟨6, _⟩ => (sc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = k3_pay3 (xb3 V c t) (ab3 V c t) (wb3 V c t) (bb3 V c t) := by dsimp only [dat3]
theorem after3_5 (c : Dev nD) (t : Fin cfg3.N) : (dat3 V c).after 5 t = (sc3 V c t.val t.isLt).1 := by dsimp only [dat3]
theorem after3_6 (c : Dev nD) (t : Fin cfg3.N) : (dat3 V c).after 6 t = (sc3 V c t.val t.isLt).2 := by dsimp only [dat3]

theorem Phi3 (c : Dev nD) (t : Fin (cfg3.N + 1)) : (dat3 V c).Φ t = PhiS3 V c t.val (Nat.le_of_lt_succ t.isLt) := rfl

/-- One run for every point: the first condition selects the reset of the rows, the second their copy to the row outputs. -/
theorem run3 (c : Dev nD) {i : grid3.Coords} {arg1 arg2 arg5 : Memref sig .tc .vmem S2000x128 .f32} {arg3 : Memref sig .tc .vmem S128x128 .f32} {arg4 arg6 arg7 arg8 arg9 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (hx : ¬(cond3_1 i ∧ cond3_2 i)) {x0 x1 x4 : Vec F S2000x128 .f32} {x2 : Vec F S128x128 .f32} {x3 x5 x6 s0 s1 : Vec F S1x128 .f32} {E : Set ℕ} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ owns c arg8 fullShare s0 ∗ owns c arg9 fullShare s1
        ∗ (iprop(owns c arg1 fullShare x0 ∗ owns c arg2 fullShare x1 ∗ owns c arg3 fullShare x2 ∗ owns c arg4 fullShare x3 ∗ owns c arg5 fullShare (k3_pay3 x0 x1 x2 x3)
            ∗ owns c arg6 fullShare (if cond3_2 i then k3_pay4 x0 x1 x2 x3 (if cond3_1 i then k3_pay1 else s0) else x5)
            ∗ owns c arg7 fullShare (if cond3_2 i then k3_pay5 x0 x1 x2 x3 (if cond3_1 i then k3_pay2 else s1) else x6)
            ∗ owns c arg8 fullShare (k3_pay4 x0 x1 x2 x3 (if cond3_1 i then k3_pay1 else s0))
            ∗ owns c arg9 fullShare (k3_pay5 x0 x1 x2 x3 (if cond3_1 i then k3_pay2 else s1))) -∗ K ⟨⟩))
      ⊢ wp frame (wpE (defs₀ (F := F)) Variants.none c none) E (cc3__stage1_kernel i arg1 harg1 arg2 harg2 arg3 harg3 arg4 harg4 arg5 harg5 arg6 harg6 arg7 harg7 arg8 harg8 arg9 harg9) K := by
  by_cases hc1 : cond3_1 i <;> by_cases hc2 : cond3_2 i
  · exact absurd ⟨hc1, hc2⟩ hx
  all_goals
    first | simp only [if_neg hc1] | simp only [if_pos hc1]
    first | simp only [if_neg hc2] | simp only [if_pos hc2]
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst_vars
    sl_exec (disch := first | exact hc1 | exact hc2)
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      · first | iexact H0 | iexact H1 | iexact H2 | iexact H3 | iexact H4 | iexact H5 | iexact H6 | iexact H7 | iexact H8
      ipureintro
      first | (sl_unfold_run_names; rw [read_writes_unit _ _ zeroOff2]; simp only [View.readAt_eq_ld, View.ld_unit_zero (S := S2000x128) zeroOff2, View.ld_unit_zero (S := S128x128) zeroOff2, View.ld_unit_zero (S := S1x128) zeroOff2, View.readCov_unit_zero (S := S1x128) _ zeroOff2]) | rfl

theorem idle3 : ∀ (w : Fin cfg3.W) (t : Fin cfg3.N), 5 ≤ w.val → if cond3_2 (grid3.coords t) then cfg3.idle w (grid3.coords t) = false
    else cfg3.idle w (grid3.coords t) = true ∧ (cfg3.win w).flush t = false := by decide +kernel

theorem leaves3 (c : Dev nD) (w : Fin cfg3.W) (hw : 5 ≤ w.val) (t : Fin cfg3.N) (d) :
    owns c ((cfg3.win w).stage (cfg3.slots t w)) fullShare (if cond3_2 (grid3.coords t) then (dat3 V c).after w t else (dat3 V c).before w t d) ⊢ (dat3 V c).leavesExact w t := by
  have h := idle3 w t hw
  by_cases hc2 : cond3_2 (grid3.coords t)
  · rw [if_pos hc2] at h ⊢; unfold Dat.leavesExact; rw [h]
  · rw [if_neg hc2] at h ⊢; rw [Dat.leavesExact_idle _ w t h.1 h.2]; iintro H; iexists d; iexact H

theorem before3 (c : Dev nD) (t : Fin cfg3.N) : (∀ d, (dat3 V c).before 0 t d = xb3 V c t) ∧ (∀ d, (dat3 V c).before 1 t d = ab3 V c t)
    ∧ (∀ d, (dat3 V c).before 2 t d = wb3 V c t) ∧ (∀ d, (dat3 V c).before 3 t d = bb3 V c t) := by
  refine ⟨?_, ?_, ?_, ?_⟩ <;> intro d <;> refine (Dat.before_in_eq_fetched (dat3 V c) _ ?_ ?_ ?_ ?_ t d).trans ?_ <;> intros <;> rfl

theorem body_obligation3 (c : Dev nD) : BodyObligation (dat3 (F := F) V c) (defs₀ (F := F)) Variants.none () Set.univ := fun t => by
  rw [bigSep_W3, bigSep_W3]
  obtain ⟨ha, hb, hc, hd⟩ := before3 V c t
  simp only [ha, hb, hc, hd, Phi3, PhiS3]
  iintro ⟨⟨%s, %hs, HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  obtain ⟨e1, e2⟩ := sc3_eq V c t s hs
  iapply run3 c (hx3 t)
  rw [owns_whole, owns_whole, owns_whole, owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← e1, ← e2]
  isplitl [HS0 HS1 Hr Hg]
  · iexists sc3 V c t.val t.isLt; isplitr; · ipureintro; exact fun _ => rfl
    isplitl [HS0]; · iexact HS0
    isplitl [HS1]; · iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply leaves3 V c 5 (by decide) t d5; iexact H5
  iapply leaves3 V c 6 (by decide) t d6; iexact H6

theorem hin3 (c : Dev nD) : Pipeline.ΦA spec3 c ⊢ (dat3 V c).Φ 0 := by
  unfold Pipeline.ΦA; rw [scopedRest3_split, Phi3, PhiS3]
  iintro ⟨⟨⟨⟨%d0, H0⟩, ⟨%d1, H1⟩⟩, Hr⟩, Hg⟩
  iexists (d0, d1); isplitr; · ipureintro; exact fun h => absurd h (Nat.lt_irrefl 0)
  isplitl [H0]; · iexact H0
  isplitl [H1]; · iexact H1
  isplitl [Hr]; · iexact Hr
  iexact Hg

theorem hout3 (c : Dev nD) : (dat3 V c).Φ (Fin.last cfg3.N) ⊢ Pipeline.ΦA spec3 c := by
  unfold Pipeline.ΦA; rw [scopedRest3_split, Phi3, PhiS3]
  iintro ⟨%s, -, H0, H1, Hr, Hg⟩
  isplitl [H0 H1 Hr]
  · isplitl [H0 H1]
    · isplitl [H0]; · iexists _; iexact H0
      iexists _; iexact H1
    iexact Hr
  iexact Hg

end Cert.KernelIdeal.Reg

end
-- ==== Proof.KI.Reg4.lean ====
import proofs.«400309_j11605001633947_1_alg».proof.Proof.Gen.KernelIdeal.Launch
import proofs.«400309_j11605001633947_1_alg».proof.Proof.Gen.KernelIdeal.Skeleton
import proofs.«400309_j11605001633947_1_alg».proof.Proof.Gen.KernelIdeal.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev lb4 (c : Dev nD) (t : Fin cfg4.N) : Vec F S2000x128 .f32 := iblk4 V c 0 t
abbrev mu4 (c : Dev nD) (t : Fin cfg4.N) : Vec F S1x128 .f32 := iblk4 V c 1 t
abbrev va4 (c : Dev nD) (t : Fin cfg4.N) : Vec F S1x128 .f32 := iblk4 V c 2 t
abbrev gb4 (c : Dev nD) (t : Fin cfg4.N) : Vec F S1x128 .f32 := iblk4 V c 3 t
abbrev eb4 (c : Dev nD) (t : Fin cfg4.N) : Vec F S1x128 .f32 := iblk4 V c 4 t
abbrev wb4 (c : Dev nD) (t : Fin cfg4.N) : Vec F S128x128 .f32 := iblk4 V c 5 t
abbrev bb4 (c : Dev nD) (t : Fin cfg4.N) : Vec F S1x128 .f32 := iblk4 V c 6 t

abbrev lo4 (c : Dev nD) (t : Fin cfg4.N) : FVec F S2000x128 .f32 :=
  k4_pay5 (lb4 V c t) (va4 V c t) (gb4 V c t) (mu4 V c t) (eb4 V c t) (wb4 V c t) (bb4 V c t)

def sc4 (c : Dev nD) : (n : ℕ) → n < cfg4.N → Vec F S1x128 .f32 × Vec F S1x128 .f32
  | 0, h => (k4_pay1 (lo4 V c ⟨0, h⟩) k4_pay3, k4_pay2 (lo4 V c ⟨0, h⟩) k4_pay4)
  | n + 1, h => (k4_pay1 (lo4 V c ⟨n + 1, h⟩) (sc4 c n (Nat.lt_of_succ_lt h)).1, k4_pay2 (lo4 V c ⟨n + 1, h⟩) (sc4 c n (Nat.lt_of_succ_lt h)).2)

theorem sc4_zero (c : Dev nD) (h : 0 < cfg4.N) :
    sc4 V c 0 h = (k4_pay1 (lo4 V c ⟨0, h⟩) k4_pay3, k4_pay2 (lo4 V c ⟨0, h⟩) k4_pay4) := rfl

theorem sc4_succ (c : Dev nD) (n : ℕ) (h : n + 1 < cfg4.N) :
    sc4 V c (n + 1) h = (k4_pay1 (lo4 V c ⟨n + 1, h⟩) (sc4 V c n (Nat.lt_of_succ_lt h)).1, k4_pay2 (lo4 V c ⟨n + 1, h⟩) (sc4 V c n (Nat.lt_of_succ_lt h)).2) := rfl

abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1

set_option maxHeartbeats 4000000 in
/-- The two conditions decide which stores run; in every case each buffer ends at the payload of the last store into it. -/
theorem run4 (c : Dev nD) (i : grid4.Coords) {arg1 arg8 : Memref sig .tc .vmem S2000x128 .f32} {arg2 arg3 arg4 arg5 arg7 arg9 arg10 arg11 arg12 : Memref sig .tc .vmem S1x128 .f32} {arg6 : Memref sig .tc .vmem S128x128 .f32} {harg1 harg2 harg3 harg4 harg5 harg6 harg7 harg8 harg9 harg10 harg11 harg12}
    {x0 x1 x2 x3 x4 x5 x6 x7 xi8 xi9 xs0 xs1 E} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
        ∗ owns c.tc arg8 fullShare x7 ∗ owns c.tc arg9 fullShare xi8 ∗ owns c.tc arg10 fullShare xi9 ∗ owns c.tc arg11 fullShare xs0 ∗ owns c.tc arg12 fullShare xs1
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6
            ∗ owns c.tc arg8 fullShare (k4_pay5 x0 x2 x3 x1 x4 x5 x6) ∗ owns c.tc arg9 fullShare (if cond4_1 i then k4_pay1 (k4_pay5 x0 x2 x3 x1 x4 x5 x6) (if cond4_0 i then k4_pay3 else xs0) else xi8) ∗ owns c.tc arg10 fullShare (if cond4_1 i then k4_pay2 (k4_pay5 x0 x2 x3 x1 x4 x5 x6) (if cond4_0 i then k4_pay4 else xs1) else xi9)
            ∗ owns c.tc arg11 fullShare (k4_pay1 (k4_pay5 x0 x2 x3 x1 x4 x5 x6) (if cond4_0 i then k4_pay3 else xs0)) ∗ owns c.tc arg12 fullShare (k4_pay2 (k4_pay5 x0 x2 x3 x1 x4 x5 x6) (if cond4_0 i then k4_pay4 else xs1))) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  split_ifs
  all_goals
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    subst hf0 hf1 hf2 hf3 hf4 hf5 hf6 hf7 hf8 hf9 hf10 hf11
    sl_exec
    sl_step
    iapply Hk
    isplitl [H0]; swap; isplitl [H1]; swap; isplitl [H2]; swap; isplitl [H3]; swap; isplitl [H4]; swap; isplitl [H5]; swap
    isplitl [H6]; swap; isplitl [H7]; swap; isplitl [H8]; swap; isplitl [H9]; swap; isplitl [H10]; swap
    all_goals
      iexists _; isplitr; swap; iassumption
      ipureintro; sl_unfold_run_names
      simp only [read_writes_unit (S := S2000x128) _ _ zeroOff2, read_writes_unit (S := S1x128) _ _ zeroOff2, View.readAt_eq_ld, View.ld_unit_zero (S := S2000x128) zeroOff2, View.ld_unit_zero (S := S1x128) zeroOff2, View.ld_unit_zero (S := S128x128) zeroOff2, View.readCov_cons_toLoadRect]

abbrev scM4_0 : Memref sig .tc .vmem S1x128 .f32 := Memref.whole cc4_scratch0
abbrev scM4_1 : Memref sig .tc .vmem S1x128 .f32 := Memref.whole cc4_scratch1

def PhiS4 (c : Dev nD) (n : ℕ) (hn : n ≤ cfg4.N) : sProp 𝕄 :=
  iprop(iprop((∃ s, ⌜∀ h : n ≠ 0, s = sc4 V c (n - 1) (by omega)⌝ ∗ owns c.tc scM4_0 fullShare s.1 ∗ owns c.tc scM4_1 fullShare s.2)
      ∗ Pipeline.scopedRestBut spec4 c [cc4_scratch0, cc4_scratch1]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => lo4 V c t
    | ⟨8, _⟩ => (sc4 V c t.val t.isLt).1
    | ⟨9, _⟩ => (sc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_7 (c : Dev nD) (t : Fin cfg4.N) : (dat4 V c).after 7 t = lo4 V c t := by dsimp only [dat4]
theorem after4_8 (c : Dev nD) (t : Fin cfg4.N) : (dat4 V c).after 8 t = (sc4 V c t.val t.isLt).1 := by dsimp only [dat4]
theorem after4_9 (c : Dev nD) (t : Fin cfg4.N) : (dat4 V c).after 9 t = (sc4 V c t.val t.isLt).2 := by dsimp only [dat4]

theorem Phi4_eq (c : Dev nD) (k : Fin (cfg4.N + 1)) : (dat4 V c).Φ k = PhiS4 V c k.val (Nat.le_of_lt_succ k.isLt) := rfl

theorem liveAt4 : ∀ (w : Fin cfg4.W) (t : Fin cfg4.N), cond4_1 (grid4.coords t) → cfg4.idle w (grid4.coords t) = false := by decide +kernel

theorem idleAt4 : ∀ (w : Fin cfg4.W) (t : Fin cfg4.N), 8 ≤ w.val → ¬cond4_1 (grid4.coords t) → cfg4.idle w (grid4.coords t) = true ∧ (cfg4.win w).flush t = false := by decide +kernel

theorem out4 (c : Dev nD) (t : Fin cfg4.N) (w : Fin cfg4.W) (hw : 8 ≤ w.val) {d x} (hx : cond4_1 (grid4.coords t) → (dat4 V c).after w t = x) :
    owns c.tc ((cfg4.win w).stage (cfg4.slots t w)) fullShare (if cond4_1 (grid4.coords t) then x else (dat4 V c).before w t d) ⊢ (dat4 V c).leavesExact w t := by
  by_cases h : cond4_1 (grid4.coords t)
  · rw [if_pos h, ← hx h]; unfold Dat.leavesExact; rw [liveAt4 w t h]; try exact Entails.refl _
  · rw [if_neg h, Dat.leavesExact_idle _ w t (idleAt4 w t hw h).1 (idleAt4 w t hw h).2]; iintro H; iexists _; iexact H

theorem PhiA4_eq (c : Dev nD) :
    (Pipeline.ΦA spec4 c : sProp 𝕄)
      = iprop(iprop(iprop((∃ d, owns c.tc scM4_0 fullShare d) ∗ (∃ d, owns c.tc scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- One step of the scratch rows' recursion, by cases on the point being the first. -/
theorem sc4_step (c : Dev nD) (t : Fin cfg4.N) (s) (hs : ∀ h : t.val ≠ 0, s = sc4 V c (t.val - 1) (by omega)) :
    sc4 V c t.val t.isLt = (k4_pay1 (lo4 V c t) (if cond4_0 (grid4.coords t) then k4_pay3 else s.1), k4_pay2 (lo4 V c t) (if cond4_0 (grid4.coords t) then k4_pay4 else s.2)) := by
  have hc := (by decide +kernel : ∀ t : Fin grid4.N, cond4_0 (grid4.coords t) ↔ t.val = 0) t
  obtain ⟨n, hn⟩ := t
  cases n with
  | zero => simp only [if_pos (hc.mpr rfl)]; rfl
  | succ n => simp only [if_neg fun h => Nat.succ_ne_zero n (hc.mp h), hs (Nat.succ_ne_zero n)]; rfl

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) ∧ (∀ d, (dat4 V c).before 6 t d = iblk4 V c 6 t) := by
  refine ⟨?_, ?_, ?_, ?_, ?_, ?_, ?_⟩ <;> exact fun d => ((dat4 V c).before_in_eq_fetched _ rfl (fun _ => rfl) (fun _ _ _ => rfl) (fun _ => rfl) t d).trans (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]; dsimp only
  obtain ⟨b0, b1, b2, b3, b4, b5, b6⟩ := before4 V c t
  simp only [b0, b1, b2, b3, b4, b5, b6]
  rw [Phi4_eq, Phi4_eq]; unfold PhiS4
  iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e := sc4_step V c t s hs
  iapply run4 c (grid4.coords t)
  iframe H0 H1 H2 H3 H4 H5 H6 H7 H8 H9 HS0 HS1
  iintro ⟨H0, H1, H2, H3, H4, H5, H6, H7, H8, H9, HS0, HS1⟩
  isplitl [HS0 HS1 HR Hg]
  · isplitl [HS0 HS1 HR]; swap; · iexact Hg
    isplitl [HS0 HS1]; swap; · iexact HR
    iexists (_, _); isplitr; swap
    · isplitl [HS0]; · iexact HS0
      iexact HS1
    ipureintro; exact fun _ => e.symm
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply out4 V c t 8 (by decide) fun _ => (after4_8 V c t).trans (congrArg Prod.fst e); iexact H8
  iapply out4 V c t 9 (by decide) fun _ => (after4_9 V c t).trans (congrArg Prod.snd e); iexact H9

theorem hin4 (c : Dev nD) : Pipeline.ΦA spec4 c ⊢ (dat4 V c).Φ 0 := by
  rw [PhiA4_eq, Phi4_eq]; unfold PhiS4
  iintro ⟨⟨⟨⟨%d0, H0⟩, ⟨%d1, H1⟩⟩, HR⟩, Hg⟩
  iframe HR Hg
  iexists (d0, d1); iframe H0 H1
  ipureintro; exact fun h => absurd rfl h

theorem hout4 (c : Dev nD) : (dat4 V c).Φ (Fin.last cfg4.N) ⊢ Pipeline.ΦA spec4 c := by
  rw [PhiA4_eq, Phi4_eq]; unfold PhiS4
  iintro ⟨⟨⟨%s, -, H0, H1⟩, HR⟩, Hg⟩
  iframe HR Hg
  isplitl [H0] <;> iexists _ <;> iassumption

end Cert.KernelIdeal.Reg

end
-- ==== Proof.KI.Reg5.lean ====
import proofs.«400309_j11605001633947_1_alg».proof.Proof.Gen.KernelIdeal.Launch
import proofs.«400309_j11605001633947_1_alg».proof.Proof.Gen.KernelIdeal.Skeleton
import proofs.«400309_j11605001633947_1_alg».proof.Proof.Gen.KernelIdeal.Points
import proofs.«400309_j11605001633947_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev lb5 (c : Dev nD) (t : Fin cfg5.N) : Vec F S2000x128 .f32 := iblk5 V c 0 t
abbrev mu5 (c : Dev nD) (t : Fin cfg5.N) : Vec F S1x128 .f32 := iblk5 V c 1 t
abbrev va5 (c : Dev nD) (t : Fin cfg5.N) : Vec F S1x128 .f32 := iblk5 V c 2 t
abbrev gb5 (c : Dev nD) (t : Fin cfg5.N) : Vec F S1x128 .f32 := iblk5 V c 3 t
abbrev eb5 (c : Dev nD) (t : Fin cfg5.N) : Vec F S1x128 .f32 := iblk5 V c 4 t
abbrev ib5 (c : Dev nD) (t : Fin cfg5.N) : Vec F S2000x1 .i32 := iblk5 V c 5 t

abbrev ho5 (c : Dev nD) (t : Fin cfg5.N) : FVec F S2000x128 .f32 :=
  k5_pay3 (lb5 V c t) (va5 V c t) (gb5 V c t) (mu5 V c t) (eb5 V c t)

def sc5 (c : Dev nD) : (n : ℕ) → n < cfg5.N → Vec F S128x128 .f32
  | 0, h => k5_pay1 (k5_pay4 (ib5 V c ⟨0, h⟩)) k5_pay2
      (k5_pay5 (lb5 V c ⟨0, h⟩) (va5 V c ⟨0, h⟩) (gb5 V c ⟨0, h⟩) (mu5 V c ⟨0, h⟩) (eb5 V c ⟨0, h⟩))
  | n + 1, h => k5_pay1 (k5_pay4 (ib5 V c ⟨n + 1, h⟩)) (sc5 c n (Nat.lt_of_succ_lt h))
      (k5_pay5 (lb5 V c ⟨n + 1, h⟩) (va5 V c ⟨n + 1, h⟩) (gb5 V c ⟨n + 1, h⟩) (mu5 V c ⟨n + 1, h⟩) (eb5 V c ⟨n + 1, h⟩))

theorem sc5_zero (c : Dev nD) (h : 0 < cfg5.N) :
    sc5 V c 0 h = k5_pay1 (k5_pay4 (ib5 V c ⟨0, h⟩)) k5_pay2
      (k5_pay5 (lb5 V c ⟨0, h⟩) (va5 V c ⟨0, h⟩) (gb5 V c ⟨0, h⟩) (mu5 V c ⟨0, h⟩) (eb5 V c ⟨0, h⟩)) := rfl

theorem sc5_succ (c : Dev nD) (n : ℕ) (h : n + 1 < cfg5.N) :
    sc5 V c (n + 1) h = k5_pay1 (k5_pay4 (ib5 V c ⟨n + 1, h⟩)) (sc5 V c n (Nat.lt_of_succ_lt h))
      (k5_pay5 (lb5 V c ⟨n + 1, h⟩) (va5 V c ⟨n + 1, h⟩) (gb5 V c ⟨n + 1, h⟩) (mu5 V c ⟨n + 1, h⟩) (eb5 V c ⟨n + 1, h⟩)) := rfl

abbrev scM5 : Memref sig .tc .vmem S128x128 .f32 := Memref.whole cc5_scratch0

/-- Before position `n` the accumulator holds what point `n - 1` left, if there is such a point. -/
def PhiS5 (c : Dev nD) (n : ℕ) (_ : n ≤ cfg5.N) : sProp 𝕄 :=
  iprop(iprop((∃ d, ⌜∀ m h, n = m + 1 → d = sc5 V c m h⌝ ∗ owns c.tc scM5 fullShare d) ∗ Pipeline.scopedRestBut spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => ho5 V c t
    | ⟨7, _⟩ => sc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = ho5 V c t := rfl
theorem after5_7 (c : Dev nD) (t : Fin cfg5.N) : (dat5 V c).after 7 t = sc5 V c t.val t.isLt := rfl

theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t)
      ∧ (∀ d, (dat5 V c).before 3 t d = iblk5 V c 3 t) ∧ (∀ d, (dat5 V c).before 4 t d = iblk5 V c 4 t) ∧ (∀ d, (dat5 V c).before 5 t d = iblk5 V c 5 t) := by
  refine ⟨?_, ?_, ?_, ?_, ?_, ?_⟩ <;>
    exact fun d => ((dat5 V c).before_in_eq_fetched _ rfl (fun _ => rfl) (fun _ _ _ => rfl) (fun _ => rfl) t d).trans rfl

theorem PhiA5_eq (c : Dev nD) :
    (Pipeline.ΦA spec5 c : sProp 𝕄)
      = iprop(iprop((∃ d, owns c.tc scM5 fullShare d) ∗ Pipeline.scopedRestBut spec5 c [cc5_scratch0]) ∗ (∃ r, prngReg c r)) := by
  unfold Pipeline.ΦA; rw [scopedRest5_split]; simp only [scM5, owns_whole]; try rfl

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

theorem hc5 : ∀ t : Fin cfg5.N, cond5_0 (grid5.coords t) ↔ t.val = 0 := by decide +kernel
theorem ex5 : ∀ t : Fin cfg5.N, cond5_0 (grid5.coords t) → ¬cond5_1 (grid5.coords t) := by decide +kernel
theorem live5_7 : ∀ t : Fin cfg5.N, cond5_1 (grid5.coords t) → cfg5.idle 7 (grid5.coords t) = false := by decide +kernel
theorem idle5_7 : ∀ t : Fin cfg5.N, ¬cond5_1 (grid5.coords t) → cfg5.idle 7 (grid5.coords t) = true ∧ (cfg5.win 7).flush t = false := by decide +kernel

/-- One run for every point: the accumulator is reset where the first condition holds and copied out where the second does. -/
theorem run5 (c : Dev nD) {i : grid5.Coords} (arg1 arg7 : Memref sig .tc .vmem S2000x128 .f32) (arg2 arg3 arg4 arg5 : Memref sig .tc .vmem S1x128 .f32) (arg6 : Memref sig .tc .vmem S2000x1 .i32) (arg8 arg9 : Memref sig .tc .vmem S128x128 .f32)
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {x0 : Vec F S2000x128 .f32} {x1 x2 x3 x4 : Vec F S1x128 .f32} {x5 : Vec F S2000x1 .i32} (x6 : Vec F S2000x128 .f32) (x7 xs : Vec F S128x128 .f32) {p : Vec F S128x128 .f32}
    (hx : cond5_0 i → ¬cond5_1 i) (hp : k5_pay1 (k5_pay4 x5) (if cond5_0 i then k5_pay2 else xs) (k5_pay5 x0 x2 x3 x1 x4) = p) {E : Set ℕ} {K : PUnit → sProp 𝕄} :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare xs
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (k5_pay3 x0 x2 x3 x1 x4) ∗ owns c.tc arg8 fullShare (if cond5_1 i then p else x7) ∗ owns c.tc arg9 fullShare p) -∗ K ⟨⟩))
      ⊢ wp frame (wpE (defs₀ (F := F)) Variants.none c none) E (cc5__stage3_kernel i arg1 harg1 arg2 harg2 arg3 harg3 arg4 harg4 arg5 harg5 arg6 harg6 arg7 harg7 arg8 harg8 arg9 harg9) K := by
  subst hp
  by_cases hc1 : cond5_1 i <;> by_cases hc0 : cond5_0 i
  · exact absurd hc1 (hx hc0)
  all_goals
    first | rw [if_pos hc0] | rw [if_neg hc0]
    first | rw [if_pos hc1] | rw [if_neg hc1]
    simp only [cc5__stage3_kernel_eq_skeleton]; unfold cc5__stage3_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    subst hf0 hf1 hf2 hf3 hf4 hf5 hf6 hf7 hfs
    sl_exec
    sl_step
    iapply Hk
    isplitl [H0]; swap; isplitl [H1]; swap; isplitl [H2]; swap; isplitl [H3]; swap; isplitl [H4]; swap; isplitl [H5]; swap; isplitl [H6]; swap; isplitl [H7]
    all_goals
      iexists _; isplitr; swap
      first | iexact H0 | iexact H1 | iexact H2 | iexact H3 | iexact H4 | iexact H5 | iexact H6 | iexact H7 | iexact HS
      ipureintro; sl_unfold_words
      try first | rw [read_writes_unit (S := S2000x128) _ _ zeroOff2] | rw [read_writes_unit (S := S128x128) _ _ zeroOff2]
      simp only [View.readCov_unit_zero (S := S128x128) _ zeroOff2, View.readAt_eq_ld, View.ld_unit_zero (S := S2000x128) zeroOff2, View.ld_unit_zero (S := S1x128) zeroOff2,
        View.ld_unit_zero (S := S2000x1) zeroOff2, View.ld_unit_zero (S := S128x128) zeroOff2]

/-- One step of the accumulator's recursion, the reset folded in. -/
theorem acc5 (c : Dev nD) (t : Fin cfg5.N) (d) (hd : ∀ m h, t.val = m + 1 → d = sc5 V c m h) :
    k5_pay1 (k5_pay4 (ib5 V c t)) (if cond5_0 (grid5.coords t) then k5_pay2 else d)
      (k5_pay5 (lb5 V c t) (va5 V c t) (gb5 V c t) (mu5 V c t) (eb5 V c t)) = sc5 V c t.val t.isLt := by
  obtain ⟨n, hn⟩ := t
  cases n with
  | zero => rw [if_pos ((hc5 ⟨0, hn⟩).mpr rfl)]; rfl
  | succ n => rw [if_neg fun e => Nat.succ_ne_zero n ((hc5 ⟨n + 1, hn⟩).mp e), hd n _ rfl]; rfl

/-- The second output's buffer: the accumulator at the last point, untouched elsewhere. -/
theorem leaves5_7 (c : Dev nD) (t : Fin cfg5.N) (d) :
    owns c.tc (st5_7 t) fullShare (if cond5_1 (grid5.coords t) then sc5 V c t.val t.isLt else (dat5 V c).before 7 t d) ⊢ (dat5 V c).leavesExact 7 t := by
  by_cases h : cond5_1 (grid5.coords t)
  · rw [if_pos h]; unfold Dat.leavesExact; rw [live5_7 t h]; rfl
  · rw [if_neg h, Dat.leavesExact_idle _ 7 t (idle5_7 t h).1 (idle5_7 t h).2]; iintro H; iexists d; iexact H

theorem body_obligation5 (c : Dev nD) : BodyObligation (dat5 (F := F) V c) (defs₀ (F := F)) Variants.none () Set.univ := fun t => by
  obtain ⟨h0, h1, h2, h3, h4, h5⟩ := before5 V c t
  rw [bigSep_W5, bigSep_W5]
  simp only [h0, h1, h2, h3, h4, h5]
  show iprop(PhiS5 V c t.val (Nat.le_of_lt t.isLt) ∗ _) ⊢ wp frame _ _ (bodyAt5 t) fun _ => iprop(PhiS5 V c (t.val + 1) t.isLt ∗ (dat5 V c).owesAt () t.castSucc
      ∗ owns c.tc (st5_0 t) fullShare (lb5 V c t)
      ∗ owns c.tc (st5_1 t) fullShare (mu5 V c t)
      ∗ owns c.tc (st5_2 t) fullShare (va5 V c t)
      ∗ owns c.tc (st5_3 t) fullShare (gb5 V c t)
      ∗ owns c.tc (st5_4 t) fullShare (eb5 V c t)
      ∗ owns c.tc (st5_5 t) fullShare (ib5 V c t)
      ∗ owns c.tc (st5_6 t) fullShare (ho5 V c t)
      ∗ (dat5 V c).leavesExact 7 t)
  unfold PhiS5
  iintro ⟨⟨⟨⟨%xs, %hxs, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run5 c (st5_0 t) (st5_6 t) (st5_1 t) (st5_2 t) (st5_3 t) (st5_4 t) (st5_5 t) (st5_7 t) scM5 ((dat5 V c).before 6 t d6) ((dat5 V c).before 7 t d7) xs (ex5 t) (acc5 V c t xs hxs))
  iframe
  iintro ⟨H0, H1, H2, H3, H4, H5, H6, H7, HS⟩
  iframe
  isplitl [HS]
  · iexists _; isplitr; swap; iexact HS; ipureintro; intro m h e; cases e; rfl
  iapply (leaves5_7 V c t d7); iexact H7

theorem hin5 (c : Dev nD) : Pipeline.ΦA spec5 c ⊢ (dat5 V c).Φ 0 := by
  rw [PhiA5_eq]; dsimp only [dat5, PhiS5]
  iintro ⟨⟨⟨%d, HS⟩, Hr⟩, Hg⟩
  iframe
  iexists d; isplitr
  · ipureintro; exact fun m _ e => absurd e.symm (Nat.succ_ne_zero m)
  iexact HS

theorem hout5 (c : Dev nD) : (dat5 V c).Φ (Fin.last cfg5.N) ⊢ Pipeline.ΦA spec5 c := by
  rw [PhiA5_eq]; dsimp only [dat5, PhiS5]
  iintro ⟨⟨⟨%d, -, HS⟩, Hr⟩, Hg⟩
  iframe
  iexists d; iexact HS

end Cert.KernelIdeal.Reg

end
-- ==== Proof.KI.PData.lean ====
import proofs.«400309_j11605001633947_1_alg».proof.Proof.KI.RunCond
import proofs.«400309_j11605001633947_1_alg».proof.Proof.KI.Reg0
import proofs.«400309_j11605001633947_1_alg».proof.Proof.KI.Reg1
import proofs.«400309_j11605001633947_1_alg».proof.Proof.KI.Reg2
import proofs.«400309_j11605001633947_1_alg».proof.Proof.KI.Reg3
import proofs.«400309_j11605001633947_1_alg».proof.Proof.KI.Reg4
import proofs.«400309_j11605001633947_1_alg».proof.Proof.KI.Reg5

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ) (outs : Outs (F := F))

abbrev R1 : (c : Dev nD) → (b : Ref sig .tc) → Buf (Elt F) ((c : Thread nD τ).loc b) := fun c b => V1 m c b
abbrev R2 : (c : Dev nD) → (b : Ref sig .tc) → Buf (Elt F) ((c : Thread nD τ).loc b) := fun c b => V2 m outs c b
abbrev R3 : (c : Dev nD) → (b : Ref sig .tc) → Buf (Elt F) ((c : Thread nD τ).loc b) := fun c b => V3 m outs c b
abbrev R4 : (c : Dev nD) → (b : Ref sig .tc) → Buf (Elt F) ((c : Thread nD τ).loc b) := fun c b => V4 m outs c b
abbrev R5 : (c : Dev nD) → (b : Ref sig .tc) → Buf (Elt F) ((c : Thread nD τ).loc b) := fun c b => V5 m outs c b
abbrev R6 : (c : Dev nD) → (b : Ref sig .tc) → Buf (Elt F) ((c : Thread nD τ).loc b) := fun c b => V6 m outs c b
abbrev R7 : (c : Dev nD) → (b : Ref sig .tc) → Buf (Elt F) ((c : Thread nD τ).loc b) := fun c b => V7 m outs c b
abbrev R8 : (c : Dev nD) → (b : Ref sig .tc) → Buf (Elt F) ((c : Thread nD τ).loc b) := fun c b => V8 m outs c b
abbrev R9 : (c : Dev nD) → (b : Ref sig .tc) → Buf (Elt F) ((c : Thread nD τ).loc b) := fun c b => V9 m outs c b
abbrev R10 : (c : Dev nD) → (b : Ref sig .tc) → Buf (Elt F) ((c : Thread nD τ).loc b) := fun c b => V10 m outs c b
abbrev R11 : (c : Dev nD) → (b : Ref sig .tc) → Buf (Elt F) ((c : Thread nD τ).loc b) := fun c b => V11 m outs c b
abbrev R12 : (c : Dev nD) → (b : Ref sig .tc) → Buf (Elt F) ((c : Thread nD τ).loc b) := fun c b => V12 m outs c b

structure OutsOK : Prop where
  h0 : ∀ (c : Dev nD) (w : Fin cfg0.W), (dat0 (R1 m) c).arrAt w cfg0.N = R2 m outs c (Pipeline.arrRef spec0 w)
  h1 : ∀ (c : Dev nD) (w : Fin cfg1.W), (dat1 (R3 m outs) c).arrAt w cfg1.N = R4 m outs c (Pipeline.arrRef spec1 w)
  h2 : ∀ (c : Dev nD) (w : Fin cfg2.W), (dat2 (R5 m outs) c).arrAt w cfg2.N = R6 m outs c (Pipeline.arrRef spec2 w)
  h3 : ∀ (c : Dev nD) (w : Fin cfg3.W), (dat3 (R7 m outs) c).arrAt w cfg3.N = R8 m outs c (Pipeline.arrRef spec3 w)
  h4 : ∀ (c : Dev nD) (w : Fin cfg4.W), (dat4 (R9 m outs) c).arrAt w cfg4.N = R10 m outs c (Pipeline.arrRef spec4 w)
  h5 : ∀ (c : Dev nD) (w : Fin cfg5.W), (dat5 (R11 m outs) c).arrAt w cfg5.N = R12 m outs c (Pipeline.arrRef spec5 w)

def pdats : (p : Fin 6) → (c : Dev nD) → Dat τ (Elt F) Unit ℕ (UR sig nD τ) ℕ (cfgs p) c
  | ⟨0, _⟩ => fun c => dat0 (R1 m) c
  | ⟨1, _⟩ => fun c => dat1 (R3 m outs) c
  | ⟨2, _⟩ => fun c => dat2 (R5 m outs) c
  | ⟨3, _⟩ => fun c => dat3 (R7 m outs) c
  | ⟨4, _⟩ => fun c => dat4 (R9 m outs) c
  | ⟨5, _⟩ => fun c => dat5 (R11 m outs) c

abbrev 𝒱₀ : Variants := Variants.none

abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

end Cert.KernelIdeal.Run

end
-- ==== Proof.KI.Seg0.lean ====
import proofs.«400309_j11605001633947_1_alg».proof.Proof.KI.PData
import proofs.«400309_j11605001633947_1_alg».proof.Proof.LibRegion

noncomputable section

namespace Cert.KernelIdeal.Run

open Idealize.ShloMosaic
open Cert.KernelIdeal Cert.KernelIdeal.Gen Cert.KernelIdeal.Reg

variable {F : FTy → Type} [FloatOps F] (m : (ℓ : Loc nD τ sig) → Buf (Elt F) ℓ) (outs : Outs (F := F))

def reg0 (hok : OutsOK m outs) : Pipeline.RegionSeg (pcfgs (F := F)) adm (pdats m outs) () defs₀ 𝒱₀ L lv 0 :=
  mkReg defs₀ (pdats m outs) launch0 (V1 m) (V2 m outs) (body_obligation0 (R1 m)) (hin0 (R1 m)) (hout0 (R1 m)) hok.h0 [4, 5, 6] (V2_of m outs)

end Cert.KernelIdeal.Run

end
-- ==== Proof.KI.Seg1.lean ====
import proofs.«400309_j11605001633947_1_alg».proof.Proof.KI.PData
import proofs.«400309_j11605001633947_1_alg».proof.Proof.LibRegion

noncomputable section

namespace Cert.KernelIdeal.Run

open Idealize.ShloMosaic
open Cert.KernelIdeal Cert.KernelIdeal.Gen Cert.KernelIdeal.Reg

variable {F : FTy → Type} [FloatOps F] (m : (ℓ : Loc nD τ sig) → Buf (Elt F) ℓ) (outs : Outs (F := F))

def reg1 (hok : OutsOK m outs) : Pipeline.RegionSeg (pcfgs (F := F)) adm (pdats m outs) () defs₀ 𝒱₀ L lv 1 :=
  mkReg defs₀ (pdats m outs) launch1 (V3 m outs) (V4 m outs) (body_obligation1 (R3 m outs)) (hin1 (R3 m outs)) (hout1 (R3 m outs)) hok.h1 [7, 8, 9] (V4_of m outs)

end Cert.KernelIdeal.Run

end
-- ==== Proof.KI.Seg2.lean ====
import proofs.«400309_j11605001633947_1_alg».proof.Proof.KI.PData
import proofs.«400309_j11605001633947_1_alg».proof.Proof.LibRegion

noncomputable section

namespace Cert.KernelIdeal.Run

open Idealize.ShloMosaic
open Cert.KernelIdeal Cert.KernelIdeal.Gen Cert.KernelIdeal.Reg

variable {F : FTy → Type} [FloatOps F] (m : (ℓ : Loc nD τ sig) → Buf (Elt F) ℓ) (outs : Outs (F := F))

def reg2 (hok : OutsOK m outs) : Pipeline.RegionSeg (pcfgs (F := F)) adm (pdats m outs) () defs₀ 𝒱₀ L lv 2 :=
  mkReg defs₀ (pdats m outs) launch2 (V5 m outs) (V6 m outs) (body_obligation2 (R5 m outs)) (hin2 (R5 m outs)) (hout2 (R5 m outs)) hok.h2 [6, 7] (V6_of m outs)

end Cert.KernelIdeal.Run

end
-- ==== Proof.KI.Seg3.lean ====
import proofs.«400309_j11605001633947_1_alg».proof.Proof.KI.PData
import proofs.«400309_j11605001633947_1_alg».proof.Proof.LibRegion

noncomputable section

namespace Cert.KernelIdeal.Run

open Idealize.ShloMosaic
open Cert.KernelIdeal Cert.KernelIdeal.Gen Cert.KernelIdeal.Reg

variable {F : FTy → Type} [FloatOps F] (m : (ℓ : Loc nD τ sig) → Buf (Elt F) ℓ) (outs : Outs (F := F))

def reg3 (hok : OutsOK m outs) : Pipeline.RegionSeg (pcfgs (F := F)) adm (pdats m outs) () defs₀ 𝒱₀ L lv 3 :=
  mkReg defs₀ (pdats m outs) launch3 (V7 m outs) (V8 m outs) (body_obligation3 (R7 m outs)) (hin3 (R7 m outs)) (hout3 (R7 m outs)) hok.h3 [4, 5, 6] (V8_of m outs)

end Cert.KernelIdeal.Run

end
-- ==== Proof.KI.Seg4.lean ====
import proofs.«400309_j11605001633947_1_alg».proof.Proof.KI.PData
import proofs.«400309_j11605001633947_1_alg».proof.Proof.LibRegion

noncomputable section

namespace Cert.KernelIdeal.Run

open Idealize.ShloMosaic
open Cert.KernelIdeal Cert.KernelIdeal.Gen Cert.KernelIdeal.Reg

variable {F : FTy → Type} [FloatOps F] (m : (ℓ : Loc nD τ sig) → Buf (Elt F) ℓ) (outs : Outs (F := F))

def reg4 (hok : OutsOK m outs) : Pipeline.RegionSeg (pcfgs (F := F)) adm (pdats m outs) () defs₀ 𝒱₀ L lv 4 :=
  mkReg defs₀ (pdats m outs) launch4 (V9 m outs) (V10 m outs) (body_obligation4 (R9 m outs)) (hin4 (R9 m outs)) (hout4 (R9 m outs)) hok.h4 [7, 8, 9] (V10_of m outs)

end Cert.KernelIdeal.Run

end
-- ==== Proof.KI.Seg5.lean ====
import proofs.«400309_j11605001633947_1_alg».proof.Proof.KI.PData
import proofs.«400309_j11605001633947_1_alg».proof.Proof.LibRegion

noncomputable section

namespace Cert.KernelIdeal.Run

open Idealize.ShloMosaic
open Cert.KernelIdeal Cert.KernelIdeal.Gen Cert.KernelIdeal.Reg

variable {F : FTy → Type} [FloatOps F] (m : (ℓ : Loc nD τ sig) → Buf (Elt F) ℓ) (outs : Outs (F := F))

def reg5 (hok : OutsOK m outs) : Pipeline.RegionSeg (pcfgs (F := F)) adm (pdats m outs) () defs₀ 𝒱₀ L lv 5 :=
  mkReg defs₀ (pdats m outs) launch5 (V11 m outs) (V12 m outs) (body_obligation5 (R11 m outs)) (hin5 (R11 m outs)) (hout5 (R11 m outs)) hok.h5 [6, 7] (V12_of m outs)

end Cert.KernelIdeal.Run

end
-- ==== Proof.KI.Launch.lean ====
import proofs.«400309_j11605001633947_1_alg».proof.Proof.KI.Seg0
import proofs.«400309_j11605001633947_1_alg».proof.Proof.KI.Seg1
import proofs.«400309_j11605001633947_1_alg».proof.Proof.KI.Seg2
import proofs.«400309_j11605001633947_1_alg».proof.Proof.KI.Seg3
import proofs.«400309_j11605001633947_1_alg».proof.Proof.KI.Seg4
import proofs.«400309_j11605001633947_1_alg».proof.Proof.KI.Seg5

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

set_option backward.isDefEq.respectTransparency.types false in

theorem run_all (hok : OutsOK m outs) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) :=
  run_cond m emb₁ () 𝒱₀ L lv (fun _ _ => rfl) ρ outs (pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, HO⟩; iexact HO)
    (reg0 m outs hok) (fun _ => .rfl) (fun _ => .rfl)
    (reg1 m outs hok) (fun _ => .rfl) (fun _ => .rfl)
    (reg2 m outs hok) (fun _ => .rfl) (fun _ => .rfl)
    (reg3 m outs hok) (fun _ => .rfl) (fun _ => .rfl)
    (reg4 m outs hok) (fun _ => .rfl) (fun _ => .rfl)
    (reg5 m outs hok) (fun _ => .rfl) (fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_main (hok : OutsOK m outs) :
    θ_run defs (onTc (τ := τ) (main (F := F))) ⟨m, fun _ => 0, ρ⟩ (fun r => ∀ c : Dev nD,
      r.2.mem ((c.tc : Thread nD τ).loc main_v69) = V13 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v69 (by decide)),
      (h c _ (mem_uc main_arg0 (by decide))).trans (V13_main_arg0 m outs c),
      (h c _ (mem_uc main_arg1 (by decide))).trans (V13_main_arg1 m outs c),
      (h c _ (mem_uc main_arg2 (by decide))).trans (V13_main_arg2 m outs c),
      (h c _ (mem_uc main_arg3 (by decide))).trans (V13_main_arg3 m outs c),
      (h c _ (mem_uc main_arg4 (by decide))).trans (V13_main_arg4 m outs c),
      (h c _ (mem_uc main_arg5 (by decide))).trans (V13_main_arg5 m outs c),
      (h c _ (mem_uc main_arg6 (by decide))).trans (V13_main_arg6 m outs c),
      (h c _ (mem_uc main_arg7 (by decide))).trans (V13_main_arg7 m outs c),
      (h c _ (mem_uc main_arg8 (by decide))).trans (V13_main_arg8 m outs c),
      (h c _ (mem_uc main_arg9 (by decide))).trans (V13_main_arg9 m outs c),
      (h c _ (mem_uc main_arg10 (by decide))).trans (V13_main_arg10 m outs c),
      (h c _ (mem_uc main_arg11 (by decide))).trans (V13_main_arg11 m outs c),
      (h c _ (mem_uc main_arg12 (by decide))).trans (V13_main_arg12 m outs c),
      (h c _ (mem_uc main_arg13 (by decide))).trans (V13_main_arg13 m outs c),
      (h c _ (mem_uc main_arg14 (by decide))).trans (V13_main_arg14 m outs c),
      (h c _ (mem_uc main_arg15 (by decide))).trans (V13_main_arg15 m outs c),
      (h c _ (mem_uc main_arg16 (by decide))).trans (V13_main_arg16 m outs c),
      (h c _ (mem_uc main_arg17 (by decide))).trans (V13_main_arg17 m outs c),
      (h c _ (mem_uc main_arg18 (by decide))).trans (V13_main_arg18 m outs c)⟩)
    (run_all m ρ outs hok)

end Cert.KernelIdeal.Run

end
-- ==== Proof.KI.Outs.lean ====
import proofs.«400309_j11605001633947_1_alg».proof.Proof.KI.PData
import proofs.«400309_j11605001633947_1_alg».proof.Proof.LibRegion
import Idealize.ShloMosaic.Lib.Pipeline.FrameSuffix

set_option maxRecDepth 16384

noncomputable section

namespace Cert.KernelIdeal.Run

open Idealize.ShloMosaic Idealize.ShloMosaic.TcCoe
open Cert.KernelIdeal Cert.KernelIdeal.Gen Cert.KernelIdeal.Reg

variable {F : FTy → Type} [FloatOps F] (m : (ℓ : Loc nD τ sig) → Buf (Elt F) ℓ)

section congr
variable (o o' : Outs (F := F)) (h2 : ∀ r c, o 2 r c = o' 2 r c) (h4 : ∀ r c, o 4 r c = o' 4 r c)
  (h6 : ∀ r c, o 6 r c = o' 6 r c) (h8 : ∀ r c, o 8 r c = o' 8 r c) (h10 : ∀ r c, o 10 r c = o' 10 r c) (c : Dev nD)

include h2
/-- The contents before a region read `outs` only at the keys of the regions already run. -/
theorem V3_congr : V3 m o c = V3 m o' c := by simp only [V3, V2, h2]
include h4
theorem V5_congr : V5 m o c = V5 m o' c := by simp only [V5, V4, h4, V3_congr m o o' h2 c]
include h6
theorem V7_congr : V7 m o c = V7 m o' c := by simp only [V7, V6, h6, V5_congr m o o' h2 h4 c]
include h8
theorem V9_congr : V9 m o c = V9 m o' c := by simp only [V9, V8, h8, V7_congr m o o' h2 h4 h6 c]
include h10
theorem V11_congr : V11 m o c = V11 m o' c := by simp only [V11, V10, h10, V9_congr m o o' h2 h4 h6 h8 c]

end congr

def X2 (c : Dev nD) : Valuation τ sig (Elt F) :=
  Pipeline.withArrays spec0 c (V1 m c) fun w => (dat0 (R1 m) c).arrAt w cfg0.N
theorem X2_arr (c : Dev nD) (w : Fin cfg0.W) :
    X2 m c (Proc.devRef .tc (Pipeline.arrRef spec0 w)) = (dat0 (R1 m) c).arrAt w cfg0.N :=
  Pipeline.withArrays_arr spec0 launch0.win.arr_inj c _ _ w
def o2 : Outs (F := F) := fun _ r c => X2 m c r

def X4 (c : Dev nD) : Valuation τ sig (Elt F) :=
  Pipeline.withArrays spec1 c (V3 m (o2 m) c) fun w => (dat1 (R3 m (o2 m)) c).arrAt w cfg1.N
theorem X4_arr (c : Dev nD) (w : Fin cfg1.W) :
    X4 m c (Proc.devRef .tc (Pipeline.arrRef spec1 w)) = (dat1 (R3 m (o2 m)) c).arrAt w cfg1.N :=
  Pipeline.withArrays_arr spec1 launch1.win.arr_inj c _ _ w
def o4 : Outs (F := F) := fun J r c => if J = 4 then X4 m c r else o2 m J r c

def X6 (c : Dev nD) : Valuation τ sig (Elt F) :=
  Pipeline.withArrays spec2 c (V5 m (o4 m) c) fun w => (dat2 (R5 m (o4 m)) c).arrAt w cfg2.N
theorem X6_arr (c : Dev nD) (w : Fin cfg2.W) :
    X6 m c (Proc.devRef .tc (Pipeline.arrRef spec2 w)) = (dat2 (R5 m (o4 m)) c).arrAt w cfg2.N :=
  Pipeline.withArrays_arr spec2 launch2.win.arr_inj c _ _ w
def o6 : Outs (F := F) := fun J r c => if J = 6 then X6 m c r else o4 m J r c

def X8 (c : Dev nD) : Valuation τ sig (Elt F) :=
  Pipeline.withArrays spec3 c (V7 m (o6 m) c) fun w => (dat3 (R7 m (o6 m)) c).arrAt w cfg3.N
theorem X8_arr (c : Dev nD) (w : Fin cfg3.W) :
    X8 m c (Proc.devRef .tc (Pipeline.arrRef spec3 w)) = (dat3 (R7 m (o6 m)) c).arrAt w cfg3.N :=
  Pipeline.withArrays_arr spec3 launch3.win.arr_inj c _ _ w
def o8 : Outs (F := F) := fun J r c => if J = 8 then X8 m c r else o6 m J r c

def X10 (c : Dev nD) : Valuation τ sig (Elt F) :=
  Pipeline.withArrays spec4 c (V9 m (o8 m) c) fun w => (dat4 (R9 m (o8 m)) c).arrAt w cfg4.N
theorem X10_arr (c : Dev nD) (w : Fin cfg4.W) :
    X10 m c (Proc.devRef .tc (Pipeline.arrRef spec4 w)) = (dat4 (R9 m (o8 m)) c).arrAt w cfg4.N :=
  Pipeline.withArrays_arr spec4 launch4.win.arr_inj c _ _ w
def o10 : Outs (F := F) := fun J r c => if J = 10 then X10 m c r else o8 m J r c

def X12 (c : Dev nD) : Valuation τ sig (Elt F) :=
  Pipeline.withArrays spec5 c (V11 m (o10 m) c) fun w => (dat5 (R11 m (o10 m)) c).arrAt w cfg5.N
theorem X12_arr (c : Dev nD) (w : Fin cfg5.W) :
    X12 m c (Proc.devRef .tc (Pipeline.arrRef spec5 w)) = (dat5 (R11 m (o10 m)) c).arrAt w cfg5.N :=
  Pipeline.withArrays_arr spec5 launch5.win.arr_inj c _ _ w
/-- After item J-1 (J = 2, 4, …, 12) the reference r of core c holds XJ there. -/
def outsC : Outs (F := F) := fun J r c => if J = 12 then X12 m c r else o10 m J r c

section ok
variable (outs : Outs (F := F)) (h2 : ∀ r c, outs 2 r c = X2 m c r) (h4 : ∀ r c, outs 4 r c = X4 m c r)
  (h6 : ∀ r c, outs 6 r c = X6 m c r) (h8 : ∀ r c, outs 8 r c = X8 m c r) (h10 : ∀ r c, outs 10 r c = X10 m c r)
  (h12 : ∀ r c, outs 12 r c = X12 m c r) (c : Dev nD)

include h2
/-- An array the region only reads holds its entry contents, one it writes holds `outs` at its own key. -/
theorem ok0 (w : Fin cfg0.W) : (dat0 (R1 m) c).arrAt w cfg0.N = R2 m outs c (Pipeline.arrRef spec0 w) := by
  fin_cases w
  iterate 4 exact ((dat0 _ c).arrAt_in _ rfl _).trans ((A_eq0 _ c _).trans (V2_of m outs c _ (by decide)).symm)
  · exact (X2_arr m c 4).symm.trans ((h2 main_v21_0 c).symm.trans (upd3_at0 _ _ _ _ (by decide) (by decide)).symm)
  · exact (X2_arr m c 5).symm.trans ((h2 main_v21_1 c).symm.trans (upd2_at0 _ _ _ (by decide)).symm)
  · exact (X2_arr m c 6).symm.trans ((h2 main_v21_2 c).symm.trans (upd1_at0 _ _).symm)

include h4
set_option maxHeartbeats 1600000 in
theorem ok1 (w : Fin cfg1.W) : (dat1 (R3 m outs) c).arrAt w cfg1.N = R4 m outs c (Pipeline.arrRef spec1 w) := by
  have e : R3 m outs = R3 m (o2 m) := funext fun c => funext fun _ => congrFun (V3_congr m outs (o2 m) h2 c) _
  fin_cases w
  iterate 7 exact ((dat1 _ c).arrAt_in _ rfl _).trans ((A_eq1 _ c _).trans (V4_of m outs c _ (by decide)).symm)
  all_goals rw [e]
  · exact (X4_arr m c 7).symm.trans ((h4 main_v28_0 c).symm.trans (upd3_at0 _ _ _ _ (by decide) (by decide)).symm)
  · exact (X4_arr m c 8).symm.trans ((h4 main_v28_1 c).symm.trans (upd2_at0 _ _ _ (by decide)).symm)
  · exact (X4_arr m c 9).symm.trans ((h4 main_v28_2 c).symm.trans (upd1_at0 _ _).symm)

include h6
set_option maxHeartbeats 1600000 in
theorem ok2 (w : Fin cfg2.W) : (dat2 (R5 m outs) c).arrAt w cfg2.N = R6 m outs c (Pipeline.arrRef spec2 w) := by
  have e : R5 m outs = R5 m (o4 m) := funext fun c => funext fun _ => congrFun (V5_congr m outs (o4 m) h2 h4 c) _
  fin_cases w
  iterate 6 exact ((dat2 _ c).arrAt_in _ rfl _).trans ((A_eq2 _ c _).trans (V6_of m outs c _ (by decide)).symm)
  all_goals rw [e]
  · exact (X6_arr m c 6).symm.trans ((h6 main_v35_0 c).symm.trans (upd2_at0 _ _ _ (by decide)).symm)
  · exact (X6_arr m c 7).symm.trans ((h6 main_v35_1 c).symm.trans (upd1_at0 _ _).symm)

include h8
set_option maxHeartbeats 1600000 in
theorem ok3 (w : Fin cfg3.W) : (dat3 (R7 m outs) c).arrAt w cfg3.N = R8 m outs c (Pipeline.arrRef spec3 w) := by
  have e : R7 m outs = R7 m (o6 m) := funext fun c => funext fun _ => congrFun (V7_congr m outs (o6 m) h2 h4 h6 c) _
  fin_cases w
  iterate 4 exact ((dat3 _ c).arrAt_in _ rfl _).trans ((A_eq3 _ c _).trans (V8_of m outs c _ (by decide)).symm)
  all_goals rw [e]
  · exact (X8_arr m c 4).symm.trans ((h8 main_v53_0 c).symm.trans (upd3_at0 _ _ _ _ (by decide) (by decide)).symm)
  · exact (X8_arr m c 5).symm.trans ((h8 main_v53_1 c).symm.trans (upd2_at0 _ _ _ (by decide)).symm)
  · exact (X8_arr m c 6).symm.trans ((h8 main_v53_2 c).symm.trans (upd1_at0 _ _).symm)

include h10
set_option maxHeartbeats 1600000 in
theorem ok4 (w : Fin cfg4.W) : (dat4 (R9 m outs) c).arrAt w cfg4.N = R10 m outs c (Pipeline.arrRef spec4 w) := by
  have e : R9 m outs = R9 m (o8 m) := funext fun c => funext fun _ => congrFun (V9_congr m outs (o8 m) h2 h4 h6 h8 c) _
  fin_cases w
  iterate 7 exact ((dat4 _ c).arrAt_in _ rfl _).trans ((A_eq4 _ c _).trans (V10_of m outs c _ (by decide)).symm)
  all_goals rw [e]
  · exact (X10_arr m c 7).symm.trans ((h10 main_v60_0 c).symm.trans (upd3_at0 _ _ _ _ (by decide) (by decide)).symm)
  · exact (X10_arr m c 8).symm.trans ((h10 main_v60_1 c).symm.trans (upd2_at0 _ _ _ (by decide)).symm)
  · exact (X10_arr m c 9).symm.trans ((h10 main_v60_2 c).symm.trans (upd1_at0 _ _).symm)

include h12
set_option maxHeartbeats 1600000 in
theorem ok5 (w : Fin cfg5.W) : (dat5 (R11 m outs) c).arrAt w cfg5.N = R12 m outs c (Pipeline.arrRef spec5 w) := by
  have e : R11 m outs = R11 m (o10 m) := funext fun c => funext fun _ => congrFun (V11_congr m outs (o10 m) h2 h4 h6 h8 h10 c) _
  fin_cases w
  iterate 6 exact ((dat5 _ c).arrAt_in _ rfl _).trans ((A_eq5 _ c _).trans (V12_of m outs c _ (by decide)).symm)
  all_goals rw [e]
  · exact (X12_arr m c 6).symm.trans ((h12 main_v67_0 c).symm.trans (upd2_at0 _ _ _ (by decide)).symm)
  · exact (X12_arr m c 7).symm.trans ((h12 main_v67_1 c).symm.trans (upd1_at0 _ _).symm)

end ok

theorem outsOK : OutsOK m (outsC m) where
  h0 := ok0 m (outsC m) (fun _ _ => rfl)
  h1 := ok1 m (outsC m) (fun _ _ => rfl) (fun _ _ => rfl)
  h2 := ok2 m (outsC m) (fun _ _ => rfl) (fun _ _ => rfl) (fun _ _ => rfl)
  h3 := ok3 m (outsC m) (fun _ _ => rfl) (fun _ _ => rfl) (fun _ _ => rfl) (fun _ _ => rfl)
  h4 := ok4 m (outsC m) (fun _ _ => rfl) (fun _ _ => rfl) (fun _ _ => rfl) (fun _ _ => rfl) (fun _ _ => rfl)
  h5 := ok5 m (outsC m) (fun _ _ => rfl) (fun _ _ => rfl) (fun _ _ => rfl) (fun _ _ => rfl) (fun _ _ => rfl) (fun _ _ => rfl)

end Cert.KernelIdeal.Run

end
-- ==== Proof.Ref.Ops.lean ====
/- The reference program's @main as a literal list of its 245 StableHLO operations, the three outlined functions
   (the variance with its select, the rectifier) substituted at their calls over each call's buffer record, cut into
   fifteen consecutive chunks: per layer the aggregation, then twice (linear map, batch statistics, normalisation), and the pooling. -/
import proofs.«400309_j11605001633947_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- layer 0, aggregation: the edge table's two rows, the wrap of negative source indices, the gather of the rows, the scatter-add at the destinations: 17 operations, the last writing main_v13. -/
abbrev opsA0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- layer 0, first linear map: self term added, product with the weights, bias: 5 operations, the last writing main_v18. -/
abbrev opsL0a : List (HloOp τ sig (Elt F)) :=
  [ StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg3 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)) ]

/-- layer 0, first batch statistics: column mean, then the variance function with its select: 28 operations, the last writing main_v22. -/
abbrev opsS0a : List (HloOp τ sig (Elt F)) :=
  [ StableHlo.nullary main_cst_1 (constant S_ .f32 0x00000000#32),
    StableHlo.binary main_v18 main_cst_1 main_v19 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v18 : StableHlo.TRef sig ⟨S50000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- layer 0, first normalisation, scale and shift, rectifier: 19 operations, the last writing main_v38. -/
abbrev opsN0a : List (HloOp τ sig (Elt F)) :=
  [ StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v24 main_v25 (subf : (⟨S50000x128, .f32⟩ : BufTy).Contents (Elt F) → (⟨S50000x128, .f32⟩ : BufTy).Contents (Elt F) → (⟨S50000x128, .f32⟩ : BufTy).Contents (Elt F)),
    StableHlo.unary main_arg5 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v25 main_v28 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v29 (broadcastInDim S128 ![] bcast_S_S128 : (⟨S_, .f32⟩ : BufTy).Contents (Elt F) → (⟨S128, .f32⟩ : BufTy).Contents (Elt F)),
    StableHlo.binary main_v22 main_v29 main_v30 (addf : (⟨S128, .f32⟩ : BufTy).Contents (Elt F) → (⟨S128, .f32⟩ : BufTy).Contents (Elt F) → (⟨S128, .f32⟩ : BufTy).Contents (Elt F)),
    StableHlo.unary main_v30 main_v31 (Host.sqrt : (⟨S128, .f32⟩ : BufTy).Contents (Elt F) → (⟨S128, .f32⟩ : BufTy).Contents (Elt F)),
    StableHlo.unary main_v31 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v33 main_v34 (Host.divf : (⟨S50000x128, .f32⟩ : BufTy).Contents (Elt F) → (⟨S50000x128, .f32⟩ : BufTy).Contents (Elt F) → (⟨S50000x128, .f32⟩ : BufTy).Contents (Elt F)),
    StableHlo.unary main_arg6 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v36 main_v37 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v37 : StableHlo.TRef sig ⟨S50000x128, .f32⟩) main_call1.v0 main_call1.v1 maximumf ]

/-- layer 0, second linear map: 4 operations, the last writing main_v42. -/
abbrev opsL0b : List (HloOp τ sig (Elt F)) :=
  [ StableHlo.binary main_v38 main_arg7 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)) ]

/-- layer 0, second batch statistics: 28 operations, the last writing main_v46. -/
abbrev opsS0b : List (HloOp τ sig (Elt F)) :=
  [ StableHlo.nullary main_cst_5 (constant S_ .f32 0x00000000#32),
    StableHlo.binary main_v42 main_cst_5 main_v43 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v44 (broadcastInDim S128 ![] bcast_S_S128 : (⟨S_, .f32⟩ : BufTy).Contents (Elt F) → (⟨S128, .f32⟩ : BufTy).Contents (Elt F)),
    StableHlo.binary main_v43 main_v44 main_v45 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v42 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v42 : StableHlo.TRef sig ⟨S50000x128, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- layer 0, second normalisation and rectifier: 19 operations, the last writing main_v62. -/
abbrev opsN0b : List (HloOp τ sig (Elt F)) :=
  [ StableHlo.unary main_v45 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v48 main_v49 (subf : (⟨S50000x128, .f32⟩ : BufTy).Contents (Elt F) → (⟨S50000x128, .f32⟩ : BufTy).Contents (Elt F) → (⟨S50000x128, .f32⟩ : BufTy).Contents (Elt F)),
    StableHlo.unary main_arg9 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v49 main_v52 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v53 (broadcastInDim S128 ![] bcast_S_S128 : (⟨S_, .f32⟩ : BufTy).Contents (Elt F) → (⟨S128, .f32⟩ : BufTy).Contents (Elt F)),
    StableHlo.binary main_v46 main_v53 main_v54 (addf : (⟨S128, .f32⟩ : BufTy).Contents (Elt F) → (⟨S128, .f32⟩ : BufTy).Contents (Elt F) → (⟨S128, .f32⟩ : BufTy).Contents (Elt F)),
    StableHlo.unary main_v54 main_v55 (Host.sqrt : (⟨S128, .f32⟩ : BufTy).Contents (Elt F) → (⟨S128, .f32⟩ : BufTy).Contents (Elt F)),
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v57 main_v58 (Host.divf : (⟨S50000x128, .f32⟩ : BufTy).Contents (Elt F) → (⟨S50000x128, .f32⟩ : BufTy).Contents (Elt F) → (⟨S50000x128, .f32⟩ : BufTy).Contents (Elt F)),
    StableHlo.unary main_arg10 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v61 : StableHlo.TRef sig ⟨S50000x128, .f32⟩) main_call3.v0 main_call3.v1 maximumf ]

/-- layer 1, aggregation (the edge rows are those of layer 0): 13 operations, the last writing main_v72. -/
abbrev opsA1 : List (HloOp τ sig (Elt F)) :=
  [ StableHlo.nullary main_c_9 (constantI S_ 32 0#32),
    StableHlo.unary main_c_9 main_v63 (broadcastInDim S800000 ![] bcast_S_S800000 : (⟨S_, .i32⟩ : BufTy).Contents (Elt F) → (⟨S800000, .i32⟩ : BufTy).Contents (Elt F)),
    StableHlo.binary main_v1 main_v63 main_v64 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v65 (broadcastInDim S800000 ![] bcast_S_S800000 : (⟨S_, .i32⟩ : BufTy).Contents (Elt F) → (⟨S800000, .i32⟩ : BufTy).Contents (Elt F)),
    StableHlo.binary main_v1 main_v65 main_v66 (addi : (⟨S800000, .i32⟩ : BufTy).Contents (Elt F) → (⟨S800000, .i32⟩ : BufTy).Contents (Elt F) → (⟨S800000, .i32⟩ : BufTy).Contents (Elt F)),
    StableHlo.ternary main_v64 main_v66 main_v1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v67 main_v68 (broadcastInDim S800000x1 ![0] bcast_S800000_S800000x1_0 : (⟨S800000, .i32⟩ : BufTy).Contents (Elt F) → (⟨S800000x1, .i32⟩ : BufTy).Contents (Elt F)),
    StableHlo.binary main_v62 main_v68 main_v69 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v70 (broadcastInDim S50000x128 ![] bcast_S_S50000x128 : (⟨S_, .f32⟩ : BufTy).Contents (Elt F) → (⟨S50000x128, .f32⟩ : BufTy).Contents (Elt F)),
    StableHlo.unary main_v3 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- layer 1, first linear map: 5 operations, the last writing main_v77. -/
abbrev opsL1a : List (HloOp τ sig (Elt F)) :=
  [ StableHlo.binary main_v62 main_v72 main_v73 (addf : (⟨S50000x128, .f32⟩ : BufTy).Contents (Elt F) → (⟨S50000x128, .f32⟩ : BufTy).Contents (Elt F) → (⟨S50000x128, .f32⟩ : BufTy).Contents (Elt F)),
    StableHlo.binary main_v73 main_arg11 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)) ]

/-- layer 1, first batch statistics: 28 operations, the last writing main_v81. -/
abbrev opsS1a : List (HloOp τ sig (Elt F)) :=
  [ StableHlo.nullary main_cst_12 (constant S_ .f32 0x00000000#32),
    StableHlo.binary main_v77 main_cst_12 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call4.cst (constant S_ .f32 0x00000000#32),
    StableHlo.TRef.binary (.of main_v77 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v77 : StableHlo.TRef sig ⟨S50000x128, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- layer 1, first normalisation and rectifier: 19 operations, the last writing main_v97. -/
abbrev opsN1a : List (HloOp τ sig (Elt F)) :=
  [ StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.unary main_arg13 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v84 main_v87 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v88 (broadcastInDim S128 ![] bcast_S_S128 : (⟨S_, .f32⟩ : BufTy).Contents (Elt F) → (⟨S128, .f32⟩ : BufTy).Contents (Elt F)),
    StableHlo.binary main_v81 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.sqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v92 main_v93 (Host.divf : (⟨S50000x128, .f32⟩ : BufTy).Contents (Elt F) → (⟨S50000x128, .f32⟩ : BufTy).Contents (Elt F) → (⟨S50000x128, .f32⟩ : BufTy).Contents (Elt F)),
    StableHlo.unary main_arg14 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v96 : StableHlo.TRef sig ⟨S50000x128, .f32⟩) main_call5.v0 main_call5.v1 maximumf ]

/-- layer 1, second linear map: 4 operations, the last writing main_v101. -/
abbrev opsL1b : List (HloOp τ sig (Elt F)) :=
  [ StableHlo.binary main_v97 main_arg15 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v100 main_v101 (addf : (⟨S50000x128, .f32⟩ : BufTy).Contents (Elt F) → (⟨S50000x128, .f32⟩ : BufTy).Contents (Elt F) → (⟨S50000x128, .f32⟩ : BufTy).Contents (Elt F)) ]

/-- layer 1, second batch statistics: 28 operations, the last writing main_v105. -/
abbrev opsS1b : List (HloOp τ sig (Elt F)) :=
  [ StableHlo.nullary main_cst_16 (constant S_ .f32 0x00000000#32),
    StableHlo.binary main_v101 main_cst_16 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v101 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v101 : StableHlo.TRef sig ⟨S50000x128, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

/-- layer 1, second normalisation and rectifier: 19 operations, the last writing main_v121. -/
abbrev opsN1b : List (HloOp τ sig (Elt F)) :=
  [ StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v107 main_v108 (subf : (⟨S50000x128, .f32⟩ : BufTy).Contents (Elt F) → (⟨S50000x128, .f32⟩ : BufTy).Contents (Elt F) → (⟨S50000x128, .f32⟩ : BufTy).Contents (Elt F)),
    StableHlo.unary main_arg17 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v108 main_v111 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v112 (broadcastInDim S128 ![] bcast_S_S128 : (⟨S_, .f32⟩ : BufTy).Contents (Elt F) → (⟨S128, .f32⟩ : BufTy).Contents (Elt F)),
    StableHlo.binary main_v105 main_v112 main_v113 (addf : (⟨S128, .f32⟩ : BufTy).Contents (Elt F) → (⟨S128, .f32⟩ : BufTy).Contents (Elt F) → (⟨S128, .f32⟩ : BufTy).Contents (Elt F)),
    StableHlo.unary main_v113 main_v114 (Host.sqrt : (⟨S128, .f32⟩ : BufTy).Contents (Elt F) → (⟨S128, .f32⟩ : BufTy).Contents (Elt F)),
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v116 main_v117 (Host.divf : (⟨S50000x128, .f32⟩ : BufTy).Contents (Elt F) → (⟨S50000x128, .f32⟩ : BufTy).Contents (Elt F) → (⟨S50000x128, .f32⟩ : BufTy).Contents (Elt F)),
    StableHlo.unary main_arg18 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v120 : StableHlo.TRef sig ⟨S50000x128, .f32⟩) main_call7.v0 main_call7.v1 maximumf ]

/-- pooling: the two scatter-adds by graph id and their concatenation: 9 operations, the last writing main_v128. -/
abbrev opsP : List (HloOp τ sig (Elt F)) :=
  [ StableHlo.nullary main_cst_20 (constant S_ .f32 0x00000000#32),
    StableHlo.unary main_cst_20 main_v122 (broadcastInDim S100x128 ![] bcast_S_S100x128 : (⟨S_, .f32⟩ : BufTy).Contents (Elt F) → (⟨S100x128, .f32⟩ : BufTy).Contents (Elt F)),
    StableHlo.unary main_arg2 main_v123 (broadcastInDim S50000x1 ![0] bcast_S50000_S50000x1_0 : (⟨S50000, .i32⟩ : BufTy).Contents (Elt F) → (⟨S50000x1, .i32⟩ : BufTy).Contents (Elt F)),
    StableHlo.ternary main_v122 main_v123 main_v62 main_v124 ((fun x i u => Host.scatterAdd scatter_S100x128_S50000x1_S50000x128_1_0_0_1 x i u) : (⟨S100x128, .f32⟩ : BufTy).Contents (Elt F) → (⟨S50000x1, .i32⟩ : BufTy).Contents (Elt F) → (⟨S50000x128, .f32⟩ : BufTy).Contents (Elt F) → (⟨S100x128, .f32⟩ : BufTy).Contents (Elt F)),
    StableHlo.nullary main_cst_21 (constant S_ .f32 0x00000000#32),
    StableHlo.unary main_cst_21 main_v125 (broadcastInDim S100x128 ![] bcast_S_S100x128 : (⟨S_, .f32⟩ : BufTy).Contents (Elt F) → (⟨S100x128, .f32⟩ : BufTy).Contents (Elt F)),
    StableHlo.unary main_arg2 main_v126 (broadcastInDim S50000x1 ![0] bcast_S50000_S50000x1_0 : (⟨S50000, .i32⟩ : BufTy).Contents (Elt F) → (⟨S50000x1, .i32⟩ : BufTy).Contents (Elt F)),
    StableHlo.ternary main_v125 main_v126 main_v121 main_v127 ((fun x i u => Host.scatterAdd scatter_S100x128_S50000x1_S50000x128_1_0_0_1 x i u) : (⟨S100x128, .f32⟩ : BufTy).Contents (Elt F) → (⟨S50000x1, .i32⟩ : BufTy).Contents (Elt F) → (⟨S50000x128, .f32⟩ : BufTy).Contents (Elt F) → (⟨S100x128, .f32⟩ : BufTy).Contents (Elt F)),
    StableHlo.binary main_v124 main_v127 main_v128 ((fun a b => concatenate S100x256 1 [⟨S100x128, a⟩, ⟨S100x128, b⟩] concatenates_S100x128_S100x128_S100x256_d1) : (⟨S100x128, .f32⟩ : BufTy).Contents (Elt F) → (⟨S100x128, .f32⟩ : BufTy).Contents (Elt F) → (⟨S100x256, .f32⟩ : BufTy).Contents (Elt F)) ]

/-- @main's 245 operations, in order. -/
abbrev ops : List (HloOp τ sig (Elt F)) :=
  opsA0 ++ opsL0a ++ opsS0a ++ opsN0a ++ opsL0b ++ opsS0b ++ opsN0b ++ opsA1 ++ opsL1a ++ opsS1a ++ opsN1a ++ opsL1b ++ opsS1b ++ opsN1b ++ opsP

end Cert.ReferenceIdeal.Run

end
-- ==== Proof.Ref.Run.lean ====
import proofs.«400309_j11605001633947_1_alg».proof.Proof.Ref.Ops

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

def window0 : List (HloOp τ sig (Elt F)) := opsA0 ++ opsL0a ++ opsS0a ++ opsN0a ++ opsL0b ++ opsS0b ++ opsN0b.take 3

def window1 : List (HloOp τ sig (Elt F)) := opsN0b.drop 3 ++ opsA1 ++ opsL1a ++ opsS1a ++ opsN1a ++ opsL1b

def window2 : List (HloOp τ sig (Elt F)) := opsS1b ++ opsN1b ++ opsP

set_option maxRecDepth 8192 in
set_option maxHeartbeats 4000000 in
theorem main_part0_eq (c : Dev nD) : main_part0 (F := F) c = seq window0 := by
  simp only [main_part0, fn_var.body, fn_where.body, fn_relu.body, bind_assoc, pure_bind]
  rfl

set_option maxRecDepth 8192 in
set_option maxHeartbeats 4000000 in
theorem main_part1_eq (c : Dev nD) : main_part1 (F := F) c = seq window1 := by
  simp only [main_part1, fn_var.body, fn_where.body, fn_relu.body, bind_assoc, pure_bind]
  rfl

set_option maxRecDepth 8192 in
set_option maxHeartbeats 4000000 in
theorem main_part2_eq (c : Dev nD) : main_part2 (F := F) c = seq window2 := by
  simp only [main_part2, fn_var.body, fn_where.body, fn_relu.body, bind_assoc, pure_bind]
  rfl

private theorem regroup {α : Type} (a b c d e f g h i j k l m n o : List α) :
    a ++ b ++ c ++ d ++ e ++ f ++ g ++ h ++ i ++ j ++ k ++ l ++ m ++ n ++ o
      = (a ++ b ++ c ++ d ++ e ++ f ++ g.take 3) ++ ((g.drop 3 ++ h ++ i ++ j ++ k ++ l) ++ (m ++ n ++ o)) := by
  simp only [List.append_assoc]
  rw [← List.append_assoc (g.take 3), List.take_append_drop]

theorem ops_eq_windows : (ops : List (HloOp τ sig (Elt F))) = window0 ++ (window1 ++ window2) :=
  regroup opsA0 opsL0a opsS0a opsN0a opsL0b opsS0b opsN0b opsA1 opsL1a opsS1a opsN1a opsL1b opsS1b opsN1b opsP

theorem main_eq (c : Dev nD) : main (F := F) c = seq ops := by
  rw [ops_eq_windows, seq_append window0, seq_append window1, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

local macro "each_op" : tactic => `(tactic| (simp only [List.Forall]; repeat' apply And.intro))

theorem ops_sub : (ops : List (HloOp τ sig (Elt F))).Forall fun op => op.bufs ⊆ tcRefs τ sig := by
  simp only [ops, List.forall_append]
  refine ⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩ <;> each_op <;> with_reducible
    first | exact nullary_bufs_sub .. | exact unary_bufs_sub .. | exact binary_bufs_sub .. | exact ternary_bufs_sub .. | exact reshape_bufs_sub ..

local macro "chunk_fresh" : tactic => `(tactic| (each_op; all_goals rfl))

theorem ops_fresh : (ops : List (HloOp τ sig (Elt F))).Forall fun op => op.fresh = ∅ := by
  simp only [ops, List.forall_append]
  refine ⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩ <;> chunk_fresh

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

abbrev writtenA0 : List (Ref sig .tc) :=
  [ main_v0, main_v1, main_v2, main_v3, main_c, main_v4, main_v5, main_c_0, main_v6, main_v7, main_v8, main_v9,
    main_v10, main_cst, main_v11, main_v12, main_v13 ]
abbrev writtenL0a : List (Ref sig .tc) :=
  [ main_v14, main_v15, main_v16, main_v17, main_v18 ]
abbrev writtenS0a : List (Ref sig .tc) :=
  [ main_cst_1, main_v19, main_cst_2, main_v20, main_v21, main_c_3, main_call0_cst, main_call0_v0, main_call0_v1,
    main_call0_cst_0, main_call0_v2, main_call0_v3, main_call0_v4, main_call0_v5, main_call0_v6, main_call0_v7,
    main_call0_cst_1, main_call0_v8, main_call0_cst_2, main_call0_v9, main_call0_v10, main_call0_v11,
    main_call0_cst_3, main_call0_v12, main_call0_cst_4, main_call0_call0_v0, main_call0_call0_v1, main_v22 ]
abbrev writtenN0a : List (Ref sig .tc) :=
  [ main_v23, main_v24, main_v25, main_v26, main_v27, main_v28, main_cst_4, main_v29, main_v30, main_v31, main_v32,
    main_v33, main_v34, main_v35, main_v36, main_v37, main_call1_cst, main_call1_v0, main_v38 ]
abbrev writtenL0b : List (Ref sig .tc) :=
  [ main_v39, main_v40, main_v41, main_v42 ]
abbrev writtenS0b : List (Ref sig .tc) :=
  [ main_cst_5, main_v43, main_cst_6, main_v44, main_v45, main_c_7, main_call2_cst, main_call2_v0, main_call2_v1,
    main_call2_cst_0, main_call2_v2, main_call2_v3, main_call2_v4, main_call2_v5, main_call2_v6, main_call2_v7,
    main_call2_cst_1, main_call2_v8, main_call2_cst_2, main_call2_v9, main_call2_v10, main_call2_v11,
    main_call2_cst_3, main_call2_v12, main_call2_cst_4, main_call2_call0_v0, main_call2_call0_v1, main_v46 ]
abbrev writtenN0b : List (Ref sig .tc) :=
  [ main_v47, main_v48, main_v49, main_v50, main_v51, main_v52, main_cst_8, main_v53, main_v54, main_v55, main_v56,
    main_v57, main_v58, main_v59, main_v60, main_v61, main_call3_cst, main_call3_v0, main_v62 ]
abbrev writtenA1 : List (Ref sig .tc) :=
  [ main_c_9, main_v63, main_v64, main_c_10, main_v65, main_v66, main_v67, main_v68, main_v69, main_cst_11, main_v70,
    main_v71, main_v72 ]
abbrev writtenL1a : List (Ref sig .tc) :=
  [ main_v73, main_v74, main_v75, main_v76, main_v77 ]
abbrev writtenS1a : List (Ref sig .tc) :=
  [ main_cst_12, main_v78, main_cst_13, main_v79, main_v80, main_c_14, main_call4_cst, main_call4_v0, main_call4_v1,
    main_call4_cst_0, main_call4_v2, main_call4_v3, main_call4_v4, main_call4_v5, main_call4_v6, main_call4_v7,
    main_call4_cst_1, main_call4_v8, main_call4_cst_2, main_call4_v9, main_call4_v10, main_call4_v11,
    main_call4_cst_3, main_call4_v12, main_call4_cst_4, main_call4_call0_v0, main_call4_call0_v1, main_v81 ]
abbrev writtenN1a : List (Ref sig .tc) :=
  [ main_v82, main_v83, main_v84, main_v85, main_v86, main_v87, main_cst_15, main_v88, main_v89, main_v90, main_v91,
    main_v92, main_v93, main_v94, main_v95, main_v96, main_call5_cst, main_call5_v0, main_v97 ]
abbrev writtenL1b : List (Ref sig .tc) :=
  [ main_v98, main_v99, main_v100, main_v101 ]
abbrev writtenS1b : List (Ref sig .tc) :=
  [ main_cst_16, main_v102, main_cst_17, main_v103, main_v104, main_c_18, main_call6_cst, main_call6_v0,
    main_call6_v1, main_call6_cst_0, main_call6_v2, main_call6_v3, main_call6_v4, main_call6_v5, main_call6_v6,
    main_call6_v7, main_call6_cst_1, main_call6_v8, main_call6_cst_2, main_call6_v9, main_call6_v10, main_call6_v11,
    main_call6_cst_3, main_call6_v12, main_call6_cst_4, main_call6_call0_v0, main_call6_call0_v1, main_v105 ]
abbrev writtenN1b : List (Ref sig .tc) :=
  [ main_v106, main_v107, main_v108, main_v109, main_v110, main_v111, main_cst_19, main_v112, main_v113, main_v114,
    main_v115, main_v116, main_v117, main_v118, main_v119, main_v120, main_call7_cst, main_call7_v0, main_v121 ]
abbrev writtenP : List (Ref sig .tc) :=
  [ main_cst_20, main_v122, main_v123, main_v124, main_cst_21, main_v125, main_v126, main_v127, main_v128 ]

abbrev written : List (Ref sig .tc) :=
  writtenA0 ++ writtenL0a ++ writtenS0a ++ writtenN0a ++ writtenL0b ++ writtenS0b ++ writtenN0b ++ writtenA1 ++ writtenL1a
    ++ writtenS1a ++ writtenN1a ++ writtenL1b ++ writtenS1b ++ writtenN1b ++ writtenP

local macro "chunk_writes" : tactic =>
  `(tactic| (each_op
             all_goals
               (simp only [nullary_writes, unary_writes, binary_writes, ternary_writes, reshape_writes,
                  Finset.singleton_subset_iff, List.mem_toFinset]
                exact List.mem_map_of_mem (by decide))))

theorem opsA0_writes : (opsA0 : List (HloOp τ sig (Elt F))).Forall fun op => op.writes ⊆ (writtenA0.map (Proc.devRef (τ := τ) .tc)).toFinset := by chunk_writes
theorem opsL0a_writes : (opsL0a : List (HloOp τ sig (Elt F))).Forall fun op => op.writes ⊆ (writtenL0a.map (Proc.devRef (τ := τ) .tc)).toFinset := by chunk_writes
theorem opsS0a_writes : (opsS0a : List (HloOp τ sig (Elt F))).Forall fun op => op.writes ⊆ (writtenS0a.map (Proc.devRef (τ := τ) .tc)).toFinset := by chunk_writes
theorem opsN0a_writes : (opsN0a : List (HloOp τ sig (Elt F))).Forall fun op => op.writes ⊆ (writtenN0a.map (Proc.devRef (τ := τ) .tc)).toFinset := by chunk_writes
theorem opsL0b_writes : (opsL0b : List (HloOp τ sig (Elt F))).Forall fun op => op.writes ⊆ (writtenL0b.map (Proc.devRef (τ := τ) .tc)).toFinset := by chunk_writes
theorem opsS0b_writes : (opsS0b : List (HloOp τ sig (Elt F))).Forall fun op => op.writes ⊆ (writtenS0b.map (Proc.devRef (τ := τ) .tc)).toFinset := by chunk_writes
theorem opsN0b_writes : (opsN0b : List (HloOp τ sig (Elt F))).Forall fun op => op.writes ⊆ (writtenN0b.map (Proc.devRef (τ := τ) .tc)).toFinset := by chunk_writes
theorem opsA1_writes : (opsA1 : List (HloOp τ sig (Elt F))).Forall fun op => op.writes ⊆ (writtenA1.map (Proc.devRef (τ := τ) .tc)).toFinset := by chunk_writes
theorem opsL1a_writes : (opsL1a : List (HloOp τ sig (Elt F))).Forall fun op => op.writes ⊆ (writtenL1a.map (Proc.devRef (τ := τ) .tc)).toFinset := by chunk_writes
theorem opsS1a_writes : (opsS1a : List (HloOp τ sig (Elt F))).Forall fun op => op.writes ⊆ (writtenS1a.map (Proc.devRef (τ := τ) .tc)).toFinset := by chunk_writes
theorem opsN1a_writes : (opsN1a : List (HloOp τ sig (Elt F))).Forall fun op => op.writes ⊆ (writtenN1a.map (Proc.devRef (τ := τ) .tc)).toFinset := by chunk_writes
theorem opsL1b_writes : (opsL1b : List (HloOp τ sig (Elt F))).Forall fun op => op.writes ⊆ (writtenL1b.map (Proc.devRef (τ := τ) .tc)).toFinset := by chunk_writes
theorem opsS1b_writes : (opsS1b : List (HloOp τ sig (Elt F))).Forall fun op => op.writes ⊆ (writtenS1b.map (Proc.devRef (τ := τ) .tc)).toFinset := by chunk_writes
theorem opsN1b_writes : (opsN1b : List (HloOp τ sig (Elt F))).Forall fun op => op.writes ⊆ (writtenN1b.map (Proc.devRef (τ := τ) .tc)).toFinset := by chunk_writes
theorem opsP_writes : (opsP : List (HloOp τ sig (Elt F))).Forall fun op => op.writes ⊆ (writtenP.map (Proc.devRef (τ := τ) .tc)).toFinset := by chunk_writes

private theorem writes_mono {W W' : List (Ref sig .tc)} (h : W ⊆ W') {l : List (HloOp τ sig (Elt F))}
    (hl : l.Forall fun op => op.writes ⊆ (W.map (Proc.devRef (τ := τ) .tc)).toFinset) :
    l.Forall fun op => op.writes ⊆ (W'.map (Proc.devRef (τ := τ) .tc)).toFinset :=
  hl.imp fun _ hop _ hb => List.mem_toFinset.mpr (List.map_subset _ h (List.mem_toFinset.mp (hop hb)))

theorem ops_writes : (ops : List (HloOp τ sig (Elt F))).Forall fun op => op.writes ⊆ (written.map (Proc.devRef (τ := τ) .tc)).toFinset := by
  simp only [ops, List.forall_append]
  exact ⟨⟨⟨⟨⟨⟨⟨⟨⟨⟨⟨⟨⟨⟨writes_mono (fun a h => by simp only [written, List.mem_append, h, true_or, or_true]) opsA0_writes,
    writes_mono (fun a h => by simp only [written, List.mem_append, h, true_or, or_true]) opsL0a_writes⟩,
    writes_mono (fun a h => by simp only [written, List.mem_append, h, true_or, or_true]) opsS0a_writes⟩,
    writes_mono (fun a h => by simp only [written, List.mem_append, h, true_or, or_true]) opsN0a_writes⟩,
    writes_mono (fun a h => by simp only [written, List.mem_append, h, true_or, or_true]) opsL0b_writes⟩,
    writes_mono (fun a h => by simp only [written, List.mem_append, h, true_or, or_true]) opsS0b_writes⟩,
    writes_mono (fun a h => by simp only [written, List.mem_append, h, true_or, or_true]) opsN0b_writes⟩,
    writes_mono (fun a h => by simp only [written, List.mem_append, h, true_or, or_true]) opsA1_writes⟩,
    writes_mono (fun a h => by simp only [written, List.mem_append, h, true_or, or_true]) opsL1a_writes⟩,
    writes_mono (fun a h => by simp only [written, List.mem_append, h, true_or, or_true]) opsS1a_writes⟩,
    writes_mono (fun a h => by simp only [written, List.mem_append, h, true_or, or_true]) opsN1a_writes⟩,
    writes_mono (fun a h => by simp only [written, List.mem_append, h, true_or, or_true]) opsL1b_writes⟩,
    writes_mono (fun a h => by simp only [written, List.mem_append, h, true_or, or_true]) opsS1b_writes⟩,
    writes_mono (fun a h => by simp only [written, List.mem_append, h, true_or, or_true]) opsN1b_writes⟩,
    writes_mono (fun a h => by simp only [written, List.mem_append, h, true_or, or_true]) opsP_writes⟩

theorem kept_of_not_written (V : Valuation τ sig (Elt F)) {r : Ref sig .tc} (h : r ∉ written) :
    after ops V (r : DevRef τ sig) = V (r : DevRef τ sig) :=
  after_of_writes_sub ops V ops_writes h

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

theorem args_not_written : ∀ r ∈ args, r ∉ written := by decide

theorem arg_kept (V : Valuation τ sig (Elt F)) (r : Ref sig .tc) (h : r ∈ args) :
    after ops V (r : DevRef τ sig) = V (r : DevRef τ sig) :=
  kept_of_not_written V (args_not_written r h)

end Cert.ReferenceIdeal.Run

end
-- ==== Proof.LibClamp.lean ====
import Mathlib.Data.BitVec
import Mathlib.Order.Basic

namespace Cert.LibClamp

def clampTo {w : Nat} (N : Nat) (hN : 0 < N) (v : BitVec w) : Fin N := ⟨min v.toInt.toNat (N - 1), by omega⟩

end Cert.LibClamp
-- ==== Proof.Spec.lean ====
import Idealize.ShloMosaic.PureOps.Ideal
import Idealize.ShloMosaic.PureOps.Ideal.Laws
import Idealize.ShloMosaic.Lib.ValueIdx
import proofs.«400309_j11605001633947_1_alg».proof.Proof.LibClamp

noncomputable section

namespace Cert.Spec

open Idealize.ShloMosaic Idealize.ShloMosaic.ValueIdx Cert.LibClamp
open scoped BigOperators

abbrev Mat (n m : ℕ) : Type := Fin n → Fin m → EReal
abbrev Row (m : ℕ) : Type := Fin m → EReal

def toMat {n m : ℕ} (v : (⟨2, ![n, m]⟩ : Shape).Idx → EReal) : Mat n m := fun r j => v (ix2 r j)
def toRow {m : ℕ} (v : (⟨1, ![m]⟩ : Shape).Idx → EReal) : Row m := fun j => v (ix1 j)
def toRow1 {m : ℕ} (v : (⟨2, ![1, m]⟩ : Shape).Idx → EReal) : Row m := fun j => v (ix2 (0 : Fin 1) j)

def toIMat {n m w : ℕ} (v : IVec ⟨2, ![n, m]⟩ w) : Fin n → Fin m → BitVec w := fun r j => v (ix2 r j)
def toIRow {m w : ℕ} (v : IVec ⟨1, ![m]⟩ w) : Fin m → BitVec w := fun j => v (ix1 j)

def cN : EReal := Ideal.ofBits .f32 0x47435000#32
def cEps : EReal := Ideal.ofBits .f32 0x3727C5AC#32

def lin {n : ℕ} (a : Mat n 128) (W : Mat 128 128) (b : Row 128) : Mat n 128 :=
  fun r j => (∑ k : Fin 128, a r k * W k j) + b j

def colsum {n m : ℕ} (x : Mat n m) : Row m := fun j => ∑ r : Fin n, x r j
def sq {n m : ℕ} (x : Mat n m) : Mat n m := fun r j => x r j * x r j
def mean {n m : ℕ} (x : Mat n m) : Row m := fun j => Ideal.div (colsum x j) cN

def varK {n m : ℕ} (x : Mat n m) : Row m := fun j => Ideal.div (colsum (sq x) j) cN - mean x j * mean x j

def varR {n m : ℕ} (x : Mat n m) : Row m :=
  fun j => Ideal.div (∑ r : Fin n, (x r j - mean x j) * (x r j - mean x j)) cN

def normK {n m : ℕ} (x : Mat n m) (mu v g be : Row m) : Mat n m :=
  fun r j => max ((g j * (x r j - mu j)) * Ideal.rsqrt (v j + cEps) + be j) 0

def normR {n m : ℕ} (x : Mat n m) (mu v g be : Row m) : Mat n m :=
  fun r j => max (Ideal.div (g j * (x r j - mu j)) (Ideal.sqrt (v j + cEps)) + be j) 0

def bnK {n m : ℕ} (x : Mat n m) (g be : Row m) : Mat n m := normK x (mean x) (varK x) g be
def bnR {n m : ℕ} (x : Mat n m) (g be : Row m) : Mat n m := normR x (mean x) (varR x) g be

def srcWord (edge : Fin 2 → Fin 800000 → BitVec 32) (e : Fin 800000) : BitVec 32 :=
  if (edge 0 e).slt 0#32 then edge 0 e + 50000#32 else edge 0 e

def agg (edge : Fin 2 → Fin 800000 → BitVec 32) (h : Mat 50000 128) : Mat 50000 128 :=
  fun c j => ∑ e ∈ Finset.univ.filter (fun e : Fin 800000 => (edge 1 e).toInt = (c.val : ℤ)),
    h (clampTo 50000 (by decide) (srcWord edge e)) j

def pool {G : ℕ} (ids : Fin 50000 → BitVec 32) (h : Mat 50000 128) : Mat G 128 :=
  fun g j => ∑ r ∈ Finset.univ.filter (fun r : Fin 50000 => (ids r).toInt = (g.val : ℤ)), h r j

structure Params where
  W1 : Mat 128 128
  b1 : Row 128
  g1 : Row 128
  be1 : Row 128
  W2 : Mat 128 128
  b2 : Row 128
  g2 : Row 128
  be2 : Row 128

def layerK (edge : Fin 2 → Fin 800000 → BitVec 32) (P : Params) (h : Mat 50000 128) : Mat 50000 128 :=
  bnK (lin (bnK (lin (fun r j => h r j + agg edge h r j) P.W1 P.b1) P.g1 P.be1) P.W2 P.b2) P.g2 P.be2
def layerR (edge : Fin 2 → Fin 800000 → BitVec 32) (P : Params) (h : Mat 50000 128) : Mat 50000 128 :=
  bnR (lin (bnR (lin (fun r j => h r j + agg edge h r j) P.W1 P.b1) P.g1 P.be1) P.W2 P.b2) P.g2 P.be2

def cat (p q : Mat 100 128) : Mat 100 256 :=
  fun g j => if h : j.val < 128 then p g ⟨j.val, h⟩ else q g ⟨j.val - 128, by have := j.isLt; omega⟩

def outK (edge : Fin 2 → Fin 800000 → BitVec 32) (ids : Fin 50000 → BitVec 32) (P0 P1 : Params) (x : Mat 50000 128) : Mat 100 256 :=
  cat (pool ids (layerK edge P0 x)) (pool ids (layerK edge P1 (layerK edge P0 x)))
def outR (edge : Fin 2 → Fin 800000 → BitVec 32) (ids : Fin 50000 → BitVec 32) (P0 P1 : Params) (x : Mat 50000 128) : Mat 100 256 :=
  cat (pool ids (layerR edge P0 x)) (pool ids (layerR edge P1 (layerR edge P0 x)))

def IsRealM {n m : ℕ} (x : Mat n m) : Prop := ∀ r j, ∃ a : ℝ, x r j = (a : EReal)
def IsRealR {m : ℕ} (x : Row m) : Prop := ∀ j, ∃ a : ℝ, x j = (a : EReal)
def Params.IsReal (P : Params) : Prop :=
  IsRealM P.W1 ∧ IsRealR P.b1 ∧ IsRealR P.g1 ∧ IsRealR P.be1 ∧ IsRealM P.W2 ∧ IsRealR P.b2 ∧ IsRealR P.g2 ∧ IsRealR P.be2

end Cert.Spec

end
-- ==== Proof.LibGatherScatter.lean ====
import Idealize.ShloMosaic.PureOps.Ideal
import Idealize.ShloMosaic.PureOps.Ideal.Laws
import Idealize.ShloMosaic.Lib.ValueIdx
import Idealize.ShloMosaic.Lib.StableHlo.Predicate
import proofs.«400309_j11605001633947_1_alg».proof.Proof.LibClamp

open scoped BigOperators

namespace Cert.LibGatherScatter

open Idealize.ShloMosaic Idealize.ShloMosaic.ValueIdx Idealize.ShloMosaic.StableHlo.Predicate
open Cert.LibClamp

theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

theorem ofFin_eq_ix1 {n : Nat} (k : Fin n) : (Shape.Idx.ofFin k : (⟨1, ![n]⟩ : Shape).Idx) = ix1 k := by
  funext a
  match a with
  | ⟨0, _⟩ => rfl

theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.KI.Host.lean ====
import proofs.«400309_j11605001633947_1_alg».proof.Proof.Gen.KernelIdeal.Launch
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import proofs.«400309_j11605001633947_1_alg».proof.Proof.Spec
import proofs.«400309_j11605001633947_1_alg».proof.Proof.LibGatherScatter

set_option maxRecDepth 1268

noncomputable section

namespace Cert.KernelIdeal.Host

open Idealize.ShloMosaic Idealize.ShloMosaic.TcCoe Idealize.ShloMosaic.ValueIdx
open Idealize.ShloMosaic.StableHlo Idealize.ShloMosaic.StableHlo.Predicate
open Cert.Spec Cert.LibClamp Cert.LibGatherScatter Cert.KernelIdeal Cert.KernelIdeal.Gen
open scoped BigOperators

variable (W : Valuation τ sig (Elt Ideal))

theorem mean1 : toRow1 (after hostOps1 W main_v23) = fun j => Ideal.div (toRow1 (W main_v21_1) j) cN := by
  funext j
  unfold toRow1
  after_results
  rfl

theorem var1 : toRow1 (after hostOps1 W main_v27)
    = fun j => Ideal.div (toRow1 (W main_v21_2) j) cN - Ideal.div (toRow1 (W main_v21_1) j) cN * Ideal.div (toRow1 (W main_v21_1) j) cN := by
  funext j
  unfold toRow1
  after_results
  rfl

theorem mean2 : toRow1 (after hostOps2 W main_v30) = fun j => Ideal.div (toRow1 (W main_v28_1) j) cN := by
  funext j
  unfold toRow1
  after_results
  rfl

theorem var2 : toRow1 (after hostOps2 W main_v34)
    = fun j => Ideal.div (toRow1 (W main_v28_2) j) cN - Ideal.div (toRow1 (W main_v28_1) j) cN * Ideal.div (toRow1 (W main_v28_1) j) cN := by
  funext j
  unfold toRow1
  after_results
  rfl

theorem mean4 : toRow1 (after hostOps4 W main_v55) = fun j => Ideal.div (toRow1 (W main_v53_1) j) cN := by
  funext j
  unfold toRow1
  after_results
  rfl

theorem var4 : toRow1 (after hostOps4 W main_v59)
    = fun j => Ideal.div (toRow1 (W main_v53_2) j) cN - Ideal.div (toRow1 (W main_v53_1) j) cN * Ideal.div (toRow1 (W main_v53_1) j) cN := by
  funext j
  unfold toRow1
  after_results
  rfl

theorem mean5 : toRow1 (after hostOps5 W main_v62) = fun j => Ideal.div (toRow1 (W main_v60_1) j) cN := by
  funext j
  unfold toRow1
  after_results
  rfl

theorem var5 : toRow1 (after hostOps5 W main_v66)
    = fun j => Ideal.div (toRow1 (W main_v60_2) j) cN - Ideal.div (toRow1 (W main_v60_1) j) cN * Ideal.div (toRow1 (W main_v60_1) j) cN := by
  funext j
  unfold toRow1
  after_results
  rfl

theorem reshape_row (x : FVec Ideal S128 .f32) (h : S128.ShapeCasts S1x128) (j : Fin 128) :
    shapeCast S1x128 x h (ix2 (0 : Fin 1) j) = x (ix1 j) :=
  shapeCast_apply x h _ _ (by rw [Shape.rowMajor_val_one, Shape.rowMajor_val_two]; show j.val = 0 * 128 + j.val; omega)

theorem row0_15 : toRow1 (after hostOps0 W main_v15) = toRow (W main_arg4) := by
  funext j
  unfold toRow1 toRow
  after_results
  exact reshape_row _ _ j

theorem row0_16 : toRow1 (after hostOps0 W main_v16) = toRow (W main_arg5) := by
  funext j
  unfold toRow1 toRow
  after_results
  exact reshape_row _ _ j

theorem row0_17 : toRow1 (after hostOps0 W main_v17) = toRow (W main_arg6) := by
  funext j
  unfold toRow1 toRow
  after_results
  exact reshape_row _ _ j

theorem row0_18 : toRow1 (after hostOps0 W main_v18) = toRow (W main_arg8) := by
  funext j
  unfold toRow1 toRow
  after_results
  exact reshape_row _ _ j

theorem row0_19 : toRow1 (after hostOps0 W main_v19) = toRow (W main_arg9) := by
  funext j
  unfold toRow1 toRow
  after_results
  exact reshape_row _ _ j

theorem row0_20 : toRow1 (after hostOps0 W main_v20) = toRow (W main_arg10) := by
  funext j
  unfold toRow1 toRow
  after_results
  exact reshape_row _ _ j

theorem row3_47 : toRow1 (after hostOps3 W main_v47) = toRow (W main_arg12) := by
  funext j
  unfold toRow1 toRow
  after_results
  exact reshape_row _ _ j

theorem row3_48 : toRow1 (after hostOps3 W main_v48) = toRow (W main_arg13) := by
  funext j
  unfold toRow1 toRow
  after_results
  exact reshape_row _ _ j

theorem row3_49 : toRow1 (after hostOps3 W main_v49) = toRow (W main_arg14) := by
  funext j
  unfold toRow1 toRow
  after_results
  exact reshape_row _ _ j

theorem row3_50 : toRow1 (after hostOps3 W main_v50) = toRow (W main_arg16) := by
  funext j
  unfold toRow1 toRow
  after_results
  exact reshape_row _ _ j

theorem row3_51 : toRow1 (after hostOps3 W main_v51) = toRow (W main_arg17) := by
  funext j
  unfold toRow1 toRow
  after_results
  exact reshape_row _ _ j

theorem row3_52 : toRow1 (after hostOps3 W main_v52) = toRow (W main_arg18) := by
  funext j
  unfold toRow1 toRow
  after_results
  exact reshape_row _ _ j

theorem wrap_eq (a : BitVec 32) :
    Scalar.select (IntOp.cmpi .slt a 0#32) (IntOp.addi a 50000#32) a = if a.slt 0#32 then a + 50000#32 else a := by
  by_cases h : a.slt 0#32 = true <;> simp [Scalar.select, IntOp.cmpi, IntOp.addi, h]

theorem col_apply (v : IVec S800000 32) (e : Fin 800000) :
    broadcastInDim S800000x1 ![0] bcast_S800000_S800000x1_0 v (ixP e) = v (ix1 e) := by
  rw [bcast_col1, ofFin_eq_ix1]

-- E is any table whose rows 0 and 1 read as the index vectors e0 and e1.
theorem agg_core (x : FVec Ideal S50000x128 .f32) (e0 e1 : IVec S800000 32) (E : Fin 2 → Fin 800000 → BitVec 32)
    (h0 : ∀ e, e0 (ix1 e) = E 0 e) (h1 : ∀ e, e1 (ix1 e) = E 1 e) (c : Fin 50000) (j : Fin 128) :
    Host.scatterAdd (F := Ideal) scatter_S50000x128_S800000x1_S800000x128_1_0_0_1
      (broadcastInDim S50000x128 ![] bcast_S_S50000x128 (constant S_ .f32 0x00000000#32))
      (broadcastInDim S800000x1 ![0] bcast_S800000_S800000x1_0 e1)
      (Host.gather gather_S50000x128_S800000x1_S800000x128_1_0_n_n_0_1_1128 x
        (broadcastInDim S800000x1 ![0] bcast_S800000_S800000x1_0
          (select (cmpi .slt e0 (broadcastInDim S800000 ![] bcast_S_S800000 (constantI S_ 32 0#32)))
            (addi e0 (broadcastInDim S800000 ![] bcast_S_S800000 (constantI S_ 32 50000#32))) e0)))
      (ix2 c j)
    = agg E (toMat x) c j := by
  rw [scatterAdd_rows_apply _ rfl rfl rfl rfl]
  have hz : broadcastInDim S50000x128 ![] bcast_S_S50000x128 (constant (F := Ideal) S_ .f32 0x00000000#32) (ix2 c j) = 0 :=
    Ideal.ofBits_zero_f32
  rw [hz, zero_add]
  unfold agg srcWord
  simp only [← h0, ← h1, toMat]
  refine Finset.sum_congr (Finset.filter_congr fun e _ => by rw [col_apply]) fun e _ => ?_
  rw [gather_rows_apply (by decide) _ rfl rfl rfl rfl rfl, col_apply]
  have hw : select (cmpi .slt e0 (broadcastInDim S800000 ![] bcast_S_S800000 (constantI S_ 32 0#32)))
        (addi e0 (broadcastInDim S800000 ![] bcast_S_S800000 (constantI S_ 32 50000#32))) e0 (ix1 e)
      = if (e0 (ix1 e)).slt 0#32 = true then e0 (ix1 e) + 50000#32 else e0 (ix1 e) := wrap_eq (e0 (ix1 e))
  rw [hw]

theorem edge_row (M : IVec S2x800000 32) (r : Fin 2) (off : Fin 2 → Nat) (hoff : off = ![r.val, 0])
    (hs : S2x800000.Slices off S1x800000) (hc : S1x800000.ShapeCasts S800000) (e : Fin 800000) :
    shapeCast S800000 (extractStridedSlice S1x800000 off M hs) hc (ix1 e) = M (ix2 r e) := by
  subst hoff
  refine (shapeCast_apply _ hc _ (ix2 (0 : Fin 1) e) ?_).trans (slice2_axis0_apply r.val M hs 0 e r rfl)
  rw [Shape.rowMajor_val_one, Shape.rowMajor_val_two]; show 0 * 800000 + e.val = e.val; omega

theorem edge0_1 : toIRow (after hostOps0 W main_v1) = fun e => toIMat (W main_arg1) 0 e := by
  funext e
  unfold toIRow toIMat
  after_results
  exact edge_row _ 0 _ rfl _ _ e

theorem edge0_3 : toIRow (after hostOps0 W main_v3) = fun e => toIMat (W main_arg1) 1 e := by
  funext e
  unfold toIRow toIMat
  after_results
  exact edge_row _ 1 _ rfl _ _ e

theorem agg0 : toMat (after hostOps0 W main_v14) = agg (toIMat (W main_arg1)) (toMat (W main_arg0)) := by
  funext c j
  show after hostOps0 W main_v14 (ix2 c j) = _
  after_results_simp
  exact agg_core _ _ _ _ (fun e => edge_row _ 0 _ rfl _ _ e) (fun e => edge_row _ 1 _ rfl _ _ e) c j

theorem agg3 : toMat (after hostOps3 W main_v46)
    = agg ![toIRow (W main_v1), toIRow (W main_v3)] (toMat (W main_v35_0)) := by
  funext c j
  show after hostOps3 W main_v46 (ix2 c j) = _
  after_results_simp
  exact agg_core _ _ _ _ (fun _ => rfl) (fun _ => rfl) c j

theorem reshape_col (x : IVec S50000 32) (h : S50000.ShapeCasts S50000x1) (r : Fin 50000) :
    shapeCast S50000x1 x h (ix2 r (0 : Fin 1)) = x (ix1 r) :=
  shapeCast_apply x h _ _ (by rw [Shape.rowMajor_val_one, Shape.rowMajor_val_two]; show r.val = r.val * 1 + 0; omega)

theorem ids0 : (fun r : Fin 50000 => (after hostOps0 W main_v4 : IVec S50000x1 32) (ix2 r (0 : Fin 1))) = toIRow (W main_arg2) := by
  funext r
  unfold toIRow
  after_results
  exact reshape_col _ _ r

theorem pool3 : toMat (after hostOps3 W main_v36) = fun g j => toMat (W main_v35_1) ⟨g.val, by omega⟩ j := by
  funext g j
  show after hostOps3 W main_v36 (ix2 g j) = _
  after_results
  exact slice2_axis0_apply 0 _ _ g j _ (Nat.zero_add _).symm

theorem out6 : toMat (after hostOps6 W main_v69)
    = cat (toMat (W main_v36)) (fun g j => toMat (W main_v67_1) ⟨g.val, by omega⟩ j) := by
  funext g j
  show after hostOps6 W main_v69 (ix2 g j) = _
  after_results
  unfold cat
  by_cases h : j.val < 128
  · rw [dif_pos h]
    exact concatenate_pair_apply_left (t := S100x256) (s₁ := S100x128) (s₂ := S100x128) (1 : Fin 2) _ _ _ (ix2 g j) rfl
      (ix2 g (⟨j.val, h⟩ : Fin 128)) fun b => by
        match b with
        | ⟨0, _⟩ => rfl
        | ⟨1, _⟩ => rfl
  · rw [dif_neg h]
    have hj := j.isLt
    refine (concatenate_pair_apply_right (t := S100x256) (s₁ := S100x128) (s₂ := S100x128) (1 : Fin 2) _ _ _ (ix2 g j) rfl rfl
      (ix2 g (⟨j.val - 128, by omega⟩ : Fin 128)) (fun b hb => ?_) ?_).trans ?_
    · match b with
      | ⟨0, _⟩ => rfl
      | ⟨1, _⟩ => exact absurd rfl hb
    · show j.val - 128 + 128 = j.val; omega
    · exact slice2_axis0_apply 0 _ _ g _ _ (Nat.zero_add _).symm

end Cert.KernelIdeal.Host

end
-- ==== Proof.KI.ValLib.lean ====
import proofs.«400309_j11605001633947_1_alg».proof.Proof.Gen.KernelIdeal.Skeleton
import proofs.«400309_j11605001633947_1_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

theorem matmul_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 _ 128 rfl rfl).symm]
  refine Finset.sum_congr rfl fun k _ => ?_
  have hk := contrEquiv1_symm_val dot_S2000x128_S128x128_S2000x128_1_0_0_1_n_n 128 rfl rfl k
  congr 2
  · exact Shape.idx_ext₂ (by unfold DotDims.lhsIdx; rw [dif_neg (by decide), dif_pos (by decide)]; rfl)
      ((DotDims.lhsIdx_val_of_single _ rfl _ _).trans hk)
  · exact Shape.idx_ext₂ ((DotDims.rhsIdx_val_of_single _ rfl _ _).trans hk)
      (by unfold DotDims.rhsIdx; rw [dif_neg (by decide), dif_pos (by decide)]; rfl)

theorem lin_apply (l : FVec Ideal S2000x128 .f32) (w : FVec Ideal S128x128 .f32) (b : Vec Ideal S1x128 .f32)
    (h1 h2 : FTy.bf16.bits < FTy.f32.bits) (h3 : S1x128.ShapeCasts S1x128) (h4 : S1x128.Broadcasts S2000x128) (p : Fin 2000) (q : Fin 128) :
    addf (matmul dot_S2000x128_S128x128_S2000x128_1_0_0_1_n_n none (truncf .bf16 l h1) (truncf .bf16 w h2) (constant (F := Ideal) S2000x128 .f32 0x00000000#32))
      (broadcastTo S2000x128 (shapeCast S1x128 b h3) h4) (ix2 p q) = (∑ k : Fin 128, l (ix2 p k) * w (ix2 k q)) + b (ix2 (0 : Fin 1) q) :=
  congrArg₂ (· + ·) (matmul_apply _ _ p q) ((broadcastTo_1b_ab_apply _ _ p q).trans (by rw [shapeCast_self]))

theorem colsum_apply (src : FVec Ideal S2000x128 .f32) (h : S2000x128.Reduces [0] S128) (hφ : FKind.Formats FTy.f32)
    (hacc : (0x00000000#32 : BitVec FTy.f32.bits) = FKind.add.neutral FTy.f32 hφ) (q : Fin 128) :
    multiReduction (F := Ideal) .add [0] S128 src 0x00000000#32 h hφ hacc (ix1 q) = ∑ p : Fin 2000, src (ix2 p q) := by
  refine (Ideal.multiReduction_add_single src 0x00000000#32 h hφ hacc (ix1 q)).trans ?_
  refine Finset.sum_congr rfl fun p _ => congrArg src ?_
  funext a
  match a with
  | ⟨0, _⟩ => rfl
  | ⟨1, _⟩ => rfl

theorem rowacc_apply (src : FVec Ideal S2000x128 .f32) (s : Vec Ideal S1x128 .f32) (h : S2000x128.Reduces [0] S128) (hφ : FKind.Formats FTy.f32)
    (hacc : (0x00000000#32 : BitVec FTy.f32.bits) = FKind.add.neutral FTy.f32 hφ) (h1 : S128.ShapeCasts S1x128) (h2 : S1x128.ShapeCasts S1x128) (q : Fin 128) :
    shapeCast S1x128 (addf s (shapeCast S1x128 (multiReduction (F := Ideal) .add [0] S128 src 0x00000000#32 h hφ hacc) h1)) h2 (ix2 (0 : Fin 1) q)
      = s (ix2 (0 : Fin 1) q) + ∑ p : Fin 2000, src (ix2 p q) := by
  rw [shapeCast_self]
  exact congrArg (s _ + ·) ((shapeCast_a_1a_apply _ _ 0 q).trans (colsum_apply _ _ _ _ q))

theorem zero_row (h : S1x128.ShapeCasts S1x128) (j : S1x128.Idx) :
    shapeCast S1x128 (broadcast S1x128 (Scalar.ofBits (F := Ideal) .f32 0x00000000#32)) h j = 0 := by
  rw [shapeCast_self]
  exact Ideal.ofBits_zero_f32

theorem normRelu_apply (x : Vec Ideal S2000x128 .f32) (va g mu be : Vec Ideal S1x128 .f32) (p : Fin 2000) (j : Fin 128) :
    k2_pay3 x va g mu be (ix2 p j) = Spec.normK (Spec.toMat x) (Spec.toRow1 mu) (Spec.toRow1 va) (Spec.toRow1 g) (Spec.toRow1 be) p j := by
  unfold k2_pay3
  simp only [shapeCast_self, maximumf_apply, addf_apply, mulf_apply, subf_apply, broadcastTo_1b_ab_apply, broadcast_apply]
  show max (_ * Ideal.rsqrt (va (ix2 (0 : Fin 1) j) + Ideal.ofBits .f32 0x3727C5AC#32) + _) (Ideal.ofBits .f32 0x00000000#32) = _
  rw [Ideal.ofBits_zero_f32]
  rfl

theorem linNorm_apply (x : Vec Ideal S2000x128 .f32) (va g mu be : Vec Ideal S1x128 .f32) (w : FVec Ideal S128x128 .f32) (b : Vec Ideal S1x128 .f32)
    (h1 h2 : FTy.bf16.bits < FTy.f32.bits) (h3 : S1x128.ShapeCasts S1x128) (h4 : S1x128.Broadcasts S2000x128) (p : Fin 2000) (q : Fin 128) :
    addf (matmul dot_S2000x128_S128x128_S2000x128_1_0_0_1_n_n none (truncf .bf16 (k2_pay3 x va g mu be) h1) (truncf .bf16 w h2) (constant (F := Ideal) S2000x128 .f32 0x00000000#32))
      (broadcastTo S2000x128 (shapeCast S1x128 b h3) h4) (ix2 p q)
      = Spec.lin (Spec.normK (Spec.toMat x) (Spec.toRow1 mu) (Spec.toRow1 va) (Spec.toRow1 g) (Spec.toRow1 be)) (Spec.toMat w) (Spec.toRow1 b) p q :=
  (lin_apply _ _ _ _ _ _ _ p q).trans (congrArg (· + _) (Finset.sum_congr rfl fun k _ => congrArg (· * _) (normRelu_apply x va g mu be p k)))

theorem bcCol_apply {α : Type} (x : S2000x1.Idx → α) (h : S2000x1.Broadcasts S2000x128) (p : Fin 2000) (g : Fin 128) :
    broadcastTo S2000x128 x h (ix2 p g) = x (ix2 p (0 : Fin 1)) :=
  broadcastTo_apply x h (ix2 p g) (ix2 p (0 : Fin 1)) fun a => by
    match a with
    | ⟨0, _⟩ => rfl
    | ⟨1, _⟩ => rfl

theorem oneHot_word (a b : BitVec 32) :
    (FloatOps.sitofp (F := Ideal) .f32 ((IntOp.cmpi .eq a b).setWidth 32) : EReal) = if a = b then 1 else 0 := by
  show (((((IntOp.cmpi .eq a b).setWidth 32).toInt : ℝ) : EReal)) = _
  by_cases h : a = b
  · rw [if_pos h]
    have e : IntOp.cmpi .eq a b = 1#1 := by simp [IntOp.cmpi, h]
    rw [e]
    have e1 : ((1#1 : BitVec 1).setWidth 32).toInt = 1 := by decide
    rw [e1]; simp
  · rw [if_neg h]
    have e : IntOp.cmpi .eq a b = 0#1 := by
      show BitVec.ofBool (a == b) = 0#1
      rw [beq_eq_false_iff_ne.mpr h]; rfl
    rw [e]
    have e0 : ((0#1 : BitVec 1).setWidth 32).toInt = 0 := by decide
    rw [e0]; simp

theorem oneHot_apply (ids : Vec Ideal S2000x1 .i32) (p : Fin 2000) (g : Fin 128) :
    k2_pay4 ids (ix2 p g) = if (ids (ix2 p (0 : Fin 1)) : BitVec 32) = BitVec.ofNat 32 g.val then (1 : EReal) else 0 := by
  unfold k2_pay4
  simp only [shapeCast_self]
  simp only [truncf_apply, sitofp_apply, extui_apply]
  show (FloatOps.sitofp (F := Ideal) .f32 ((IntOp.cmpi .eq (broadcastTo S2000x128 ids _ (ix2 p g)) (iota .tc S2000x128 32 [1] _ (ix2 p g))).setWidth 32) : EReal) = _
  rw [oneHot_word, bcCol_apply, iota_single_apply]

theorem zero_fill (y : S128x128.Idx) : k2_pay2 (F := Ideal) y = 0 := by
  unfold k2_pay2
  simp only [shapeCast_self, broadcast_apply]
  exact Ideal.ofBits_zero_f32

theorem word_eq_iff (w : BitVec 32) (g : Fin 128) : w = BitVec.ofNat 32 g.val ↔ w.toInt = (g.val : ℤ) := by
  have hg : ∀ g : Fin 128, (BitVec.ofNat 32 g.val).toInt = (g.val : ℤ) := by decide +kernel
  exact ⟨fun h => h ▸ hg g, fun h => BitVec.eq_of_toInt_eq (h.trans (hg g).symm)⟩

theorem poolStep_apply (ids : Vec Ideal S2000x1 .i32) (acc : Vec Ideal S128x128 .f32) (x : Vec Ideal S2000x128 .f32) (va gb mu eb : Vec Ideal S1x128 .f32) (g j : Fin 128) :
    k2_pay1 (k2_pay4 ids) acc (k2_pay5 x va gb mu eb) (ix2 g j)
      = acc (ix2 g j) + ∑ p : Fin 2000, if (ids (ix2 p (0 : Fin 1)) : BitVec 32).toInt = (g.val : ℤ) then k2_pay3 x va gb mu eb (ix2 p j) else 0 := by
  unfold k2_pay1
  simp only [shapeCast_self]
  show acc (ix2 g j) + FloatOps.matmul (F := Ideal) dot_S2000x128_S2000x128_S128x128_0_0_1_1_n_n none (k2_pay4 ids) (k2_pay5 x va gb mu eb) (constant S128x128 .f32 0x00000000#32) (ix2 g j) = _
  rw [Ideal.matmul_constant_zero_apply,
    ← Equiv.sum_comp (contrEquiv1 dot_S2000x128_S2000x128_S128x128_0_0_1_1_n_n 2000 rfl rfl).symm]
  refine congrArg (acc (ix2 g j) + ·) (Finset.sum_congr rfl fun p _ => ?_)
  have c2 := contrEquiv1_symm_val dot_S2000x128_S2000x128_S128x128_0_0_1_1_n_n 2000 rfl rfl p
  have l2 : dot_S2000x128_S2000x128_S128x128_0_0_1_1_n_n.lhsIdx (ix2 g j) ((contrEquiv1 _ 2000 rfl rfl).symm p) = ix2 p g := by
    funext ax; apply Fin.ext
    match ax with
    | ⟨0, _⟩ => simp [DotDims.lhsIdx, dot_S2000x128_S2000x128_S128x128_0_0_1_1_n_n]; exact c2
    | ⟨1, _⟩ => simp [DotDims.lhsIdx, dot_S2000x128_S2000x128_S128x128_0_0_1_1_n_n]; rfl
  have r2 : dot_S2000x128_S2000x128_S128x128_0_0_1_1_n_n.rhsIdx (ix2 g j) ((contrEquiv1 _ 2000 rfl rfl).symm p) = ix2 p j := by
    funext ax; apply Fin.ext
    match ax with
    | ⟨0, _⟩ => simp [DotDims.rhsIdx, dot_S2000x128_S2000x128_S128x128_0_0_1_1_n_n]; exact c2
    | ⟨1, _⟩ => simp [DotDims.rhsIdx, dot_S2000x128_S2000x128_S128x128_0_0_1_1_n_n]; rfl
  rw [l2, r2, oneHot_apply]
  by_cases h : (ids (ix2 p (0 : Fin 1)) : BitVec 32) = BitVec.ofNat 32 g.val
  · rw [if_pos h, if_pos ((word_eq_iff _ g).mp h), one_mul]; rfl
  · rw [if_neg h, if_neg (fun h' => h ((word_eq_iff _ g).mpr h')), zero_mul]

-- a row of the linear map, and of the normalisation, depends on that row of its operand only
theorem lin_congr {n n' : ℕ} {a : Spec.Mat n 128} {a' : Spec.Mat n' 128} {W W' : Spec.Mat 128 128} {b b' : Spec.Row 128} {r : Fin n} {r' : Fin n'}
    (ha : a r = a' r') (hW : W = W') (hb : b = b') (q : Fin 128) : Spec.lin a W b r q = Spec.lin a' W' b' r' q := by
  subst hW hb; unfold Spec.lin; rw [ha]
theorem normK_congr {n n' m : ℕ} {x : Spec.Mat n m} {x' : Spec.Mat n' m} {mu mu' v v' g g' be be' : Spec.Row m} {r : Fin n} {r' : Fin n'}
    (hx : x r = x' r') (hmu : mu = mu') (hv : v = v') (hg : g = g') (hbe : be = be') : Spec.normK x mu v g be r = Spec.normK x' mu' v' g' be' r' := by
  subst hmu hv hg hbe; funext j; unfold Spec.normK; rw [hx]

def row {N : ℕ} (hN : N = 25) (t : Fin N) (p : Fin 2000) : Fin 50000 :=
  ⟨2000 * t.val + p.val, by have := t.isLt; have := p.isLt; omega⟩

theorem row_surj {N m : ℕ} (hN : N = 25) (i : (⟨2, ![50000, m]⟩ : Shape).Idx) : ∃ (t : Fin N) (p : Fin 2000), ix2 (row hN t p) (i 1) = i := by
  have : (i 0).val < 50000 := (i 0).isLt
  exact ⟨⟨(i 0).val / 2000, by omega⟩, ⟨(i 0).val % 2000, by omega⟩, Shape.idx_ext₂ (by show 2000 * ((i 0).val / 2000) + (i 0).val % 2000 = _; omega) rfl⟩

theorem sum_rows (f : Fin 50000 → EReal) : ∑ r : Fin 50000, f r = ∑ t : Fin 25, ∑ p : Fin 2000, f (row rfl t p) := by
  rw [← Fintype.sum_prod_type' (f := fun (t : Fin 25) (p : Fin 2000) => f (row rfl t p))]
  refine (Equiv.sum_comp (finProdFinEquiv (m := 25) (n := 2000)) f).symm.trans ?_
  refine Finset.sum_congr rfl fun x _ => congrArg f (Fin.ext ?_)
  show x.2.val + 2000 * x.1.val = 2000 * x.1.val + x.2.val
  omega

-- by induction on the point the value is the sum over the blocks so far, and 50000 rows are 25 blocks of 2000
theorem sum_blocks {N : ℕ} (hN : N = 25) (f : Fin 50000 → EReal) (s : (n : ℕ) → n < N → EReal)
    (h0 : ∀ h, s 0 h = ∑ p, f (row hN ⟨0, h⟩ p))
    (hs : ∀ n h, s (n + 1) h = s n (Nat.lt_of_succ_lt h) + ∑ p, f (row hN ⟨n + 1, h⟩ p)) (h : 24 < N) :
    s 24 h = ∑ r, f r := by
  subst hN
  have acc : ∀ n (h : n < 25), s n h = ∑ k : Fin (n + 1), ∑ p, f (row rfl ⟨k.val, lt_of_lt_of_le k.isLt (Nat.succ_le_of_lt h)⟩ p) := by
    intro n
    induction n with
    | zero => intro h; rw [h0, Fin.sum_univ_one]; rfl
    | succ n ih => intro h; rw [hs, ih, Fin.sum_univ_castSucc (n := n + 1)]; rfl
  exact (acc 24 h).trans (sum_rows f).symm

theorem mem_of_emb {sig : RefSig} {κ : Kind} {sp : Space} {S : Shape} {e : EltTy} (v : View sig κ sp S e) {i : v.ty.Idx} {y : S.Idx}
    (h : v.emb y = i) : i ∈ v.set := h ▸ v.emb_mem_set y

-- `sum_blocks` for a row that starts at zero and adds each block's column sums
theorem colsum_blocks {N : ℕ} (hN : N = 25) (f : Fin 50000 → EReal) (q : Fin 128) (blk : Fin N → FVec Ideal S2000x128 .f32)
    (hb : ∀ t p, blk t (ix2 p q) = f (row hN t p)) (s : (n : ℕ) → n < N → Vec Ideal S1x128 .f32) (h0 : ∀ h, s 0 h = k1_pay1 (blk ⟨0, h⟩) (k1_pay3 (F := Ideal)))
    (hs : ∀ n h, s (n + 1) h = k1_pay1 (blk ⟨n + 1, h⟩) (s n (Nat.lt_of_succ_lt h))) (h : 24 < N) : s 24 h (ix2 (0 : Fin 1) q) = ∑ r, f r :=
  sum_blocks hN f (fun n h => s n h (ix2 (0 : Fin 1) q))
    (fun h => by
      rw [h0]
      exact (rowacc_apply _ _ _ _ _ _ _ q).trans (((congrArg (· + _) (zero_row _ _)).trans (zero_add _)).trans (Finset.sum_congr rfl fun p _ => hb _ p)))
    (fun n h => by
      rw [hs]
      exact (rowacc_apply _ _ _ _ _ _ _ q).trans (congrArg (_ + ·) (Finset.sum_congr rfl fun p _ => hb _ p))) h

theorem zero_val {x s k : ℕ} (h : x = 0) : x * s + 1 * k = k := by subst h; omega

theorem idx_id {n m : ℕ} {i y : (⟨2, ![n, m]⟩ : Shape).Idx} {x s : Fin 2 → ℕ} (hx : ∀ a, x a = 0) (hi : ∀ a, (i a).val = x a * s a + 1 * (y a).val) : i = y :=
  Shape.idx_ext₂ ((hi 0).trans (zero_val (hx 0))) ((hi 1).trans (zero_val (hx 1)))

theorem row_val {N x : ℕ} (hN : N = 25) (t : Fin N) (p : Fin 2000) (h : x = t.val) : x * 2000 + 1 * p.val = (row hN t p).val := by
  subst h; show _ = 2000 * t.val + p.val; omega

theorem arrAt_last {cfg : Pipeline.Cfg sig Λ₀} {c : Dev nD} (dat : Dat τ (Elt Ideal) Unit ℕ (UR sig nD τ) ℕ cfg c) (w : Fin cfg.W) (hN : cfg.N = 25)
    (hf : ∀ t : Fin cfg.N, (cfg.win w).flush t = true ↔ t.val % 25 = 24) (hl : 24 < cfg.N)
    (G : Buf (Elt Ideal) ((cfg.win w).arr.view.loc (c.tc : Thread nD τ)))
    (hG : dat.flushed w ⟨24, hl⟩ = ((cfg.win w).blk ⟨24, hl⟩).view.read (Elt Ideal) G)
    (hc : ∀ i : ((cfg.win w).arr.view.loc (c.tc : Thread nD τ)).2.ty.Idx, i ∈ ((cfg.win w).blk ⟨24, hl⟩).view.set) : dat.arrAt w cfg.N = G :=
  dat.arrAt_eq_of_cover w G (fun t h => by
    obtain rfl : t = ⟨24, hl⟩ := Fin.ext (show t.val = 24 by have := (hf t).mp h; have : t.val < cfg.N := t.isLt; omega)
    exact hG) fun i => ⟨⟨24, hl⟩, (hf _).mpr rfl, hc i⟩

end Cert.KernelIdeal.Val

end
-- ==== Proof.KI.Val0.lean ====
import proofs.«400309_j11605001633947_1_alg».proof.Proof.KI.Reg0
import proofs.«400309_j11605001633947_1_alg».proof.Proof.KI.ValLib

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators
open Cert.KernelIdeal.Reg

variable (V : (c : Dev nD) → (b : Ref sig .tc) → Buf (Elt Ideal) ((c : Thread nD τ).loc b))

abbrev X0 (c : Dev nD) : Vec Ideal S50000x128 .f32 := V c (Pipeline.arrRef spec0 0)
abbrev A0 (c : Dev nD) : Vec Ideal S50000x128 .f32 := V c (Pipeline.arrRef spec0 1)
abbrev W0 (c : Dev nD) : Vec Ideal S128x128 .f32 := V c (Pipeline.arrRef spec0 2)
abbrev B0 (c : Dev nD) : Vec Ideal S1x128 .f32 := V c (Pipeline.arrRef spec0 3)
abbrev O0_4 (c : Dev nD) : Vec Ideal S50000x128 .f32 := (dat0 V c).arrAt 4 cfg0.N
abbrev O0_5 (c : Dev nD) : Vec Ideal S1x128 .f32 := (dat0 V c).arrAt 5 cfg0.N
abbrev O0_6 (c : Dev nD) : Vec Ideal S1x128 .f32 := (dat0 V c).arrAt 6 cfg0.N

theorem idx0_0 : ∀ t : Fin cfg0.N, win0_0.index t 0 = t.val ∧ win0_0.index t 1 = 0 := by decide +kernel
theorem idx0_1 : ∀ t : Fin cfg0.N, win0_1.index t 0 = t.val ∧ win0_1.index t 1 = 0 := by decide +kernel
theorem idx0_4 : ∀ t : Fin cfg0.N, win0_4.index t 0 = t.val ∧ win0_4.index t 1 = 0 := by decide +kernel
theorem idx0_2 : ∀ (t : Fin cfg0.N) (a : Fin 2), win0_2.index t a = 0 := by decide +kernel
theorem idx0_3 : ∀ (t : Fin cfg0.N) (a : Fin 2), win0_3.index t a = 0 := by decide +kernel
theorem idx0_5 : ∀ (t : Fin cfg0.N) (a : Fin 2), win0_5.index t a = 0 := by decide +kernel
theorem idx0_6 : ∀ (t : Fin cfg0.N) (a : Fin 2), win0_6.index t a = 0 := by decide +kernel

theorem emb0_0 (t : Fin cfg0.N) (p : Fin 2000) (k : Fin 128) : ((cfg0.win 0).blk t).view.emb (ix2 p k) = ix2 (row N_0 t p) k :=
  Shape.idx_ext₂ (row_val N_0 t p (idx0_0 t).1) (zero_val (idx0_0 t).2)
theorem emb0_1 (t : Fin cfg0.N) (p : Fin 2000) (k : Fin 128) : ((cfg0.win 1).blk t).view.emb (ix2 p k) = ix2 (row N_0 t p) k :=
  Shape.idx_ext₂ (row_val N_0 t p (idx0_1 t).1) (zero_val (idx0_1 t).2)
theorem emb0_4 (t : Fin cfg0.N) (p : Fin 2000) (k : Fin 128) : ((cfg0.win 4).blk t).view.emb (ix2 p k) = ix2 (row N_0 t p) k :=
  Shape.idx_ext₂ (row_val N_0 t p (idx0_4 t).1) (zero_val (idx0_4 t).2)
theorem emb0_2 (t : Fin cfg0.N) (y : S128x128.Idx) : ((cfg0.win 2).blk t).view.emb y = y :=
  idx_id (idx0_2 t) fun _ => rfl
theorem emb0_3 (t : Fin cfg0.N) (y : S1x128.Idx) : ((cfg0.win 3).blk t).view.emb y = y :=
  idx_id (idx0_3 t) fun _ => rfl
theorem emb0_5 (t : Fin cfg0.N) (y : S1x128.Idx) : ((cfg0.win 5).blk t).view.emb y = y :=
  idx_id (idx0_5 t) fun _ => rfl
theorem emb0_6 (t : Fin cfg0.N) (y : S1x128.Idx) : ((cfg0.win 6).blk t).view.emb y = y :=
  idx_id (idx0_6 t) fun _ => rfl

def lin0 (c : Dev nD) : Spec.Mat 50000 128 :=
  Spec.lin (fun r j => Spec.toMat (X0 V c) r j + Spec.toMat (A0 V c) r j) (Spec.toMat (W0 V c)) (Spec.toRow1 (B0 V c))

abbrev lo0 (c : Dev nD) (t : Fin cfg0.N) : FVec Ideal S2000x128 .f32 := k0_pay3 (xb0 V c t) (ab0 V c t) (wb0 V c t) (bb0 V c t)

theorem pay0_3_apply (x a : Vec Ideal S2000x128 .f32) (w : Vec Ideal S128x128 .f32) (b : Vec Ideal S1x128 .f32) (p : Fin 2000) (q : Fin 128) :
    k0_pay3 (F := Ideal) x a w b (ix2 p q) = Spec.lin (fun r j => Spec.toMat x r j + Spec.toMat a r j) (Spec.toMat w) (Spec.toRow1 b) p q := by
  unfold k0_pay3
  refine (lin_apply _ _ _ _ _ _ _ p q).trans ?_
  simp only [addf_apply, shapeCast_self]
  rfl

theorem blk0_4 (c : Dev nD) (t : Fin cfg0.N) (p : Fin 2000) (q : Fin 128) : lo0 V c t (ix2 p q) = lin0 V c (row N_0 t p) q :=
  (pay0_3_apply _ _ _ _ p q).trans (lin_congr (funext fun k => congrArg₂ (· + ·) (congrArg (X0 V c) (emb0_0 t p k)) (congrArg (A0 V c) (emb0_1 t p k)))
    (funext fun k => funext fun j => congrArg (W0 V c) (emb0_2 t _)) (funext fun j => congrArg (B0 V c) (emb0_3 t _)) q)

theorem last0 : 24 < cfg0.N := by decide

theorem final0_4 (c : Dev nD) : O0_4 V c = fun i => lin0 V c (i 0) (i 1) :=
  (dat0 V c).arrAt_eq_of_cover 4 _ (fun t _ => by
    show (cfg0.win 4).cut (grid0.coords t) (lo0 V c t) = _
    funext y
    obtain ⟨p, q, rfl⟩ : ∃ (p : Fin 2000) (q : Fin 128), y = ix2 p q := ⟨y 0, y 1, eq_ix2 y⟩
    refine (blk0_4 V c t p q).trans ?_
    rw [View.read_apply, emb0_4]
    rfl) fun (i : S50000x128.Idx) => by
    obtain ⟨t, p, h⟩ := row_surj N_0 i
    exact ⟨t, flush0_4 t, mem_of_emb _ ((emb0_4 t p (i 1)).trans h)⟩
theorem final0_5 (c : Dev nD) : O0_5 V c = (sc0 V c 24 last0).1 :=
  arrAt_last (dat0 V c) 5 N_0 flush0_5 last0 _ (funext fun y => congrArg (sc0 V c 24 last0).1 (emb0_5 _ y).symm)
    fun i => mem_of_emb _ (emb0_5 _ i)
theorem final0_6 (c : Dev nD) : O0_6 V c = (sc0 V c 24 last0).2 :=
  arrAt_last (dat0 V c) 6 N_0 flush0_6 last0 _ (funext fun y => congrArg (sc0 V c 24 last0).2 (emb0_6 _ y).symm)
    fun i => mem_of_emb _ (emb0_6 _ i)

theorem out0_4 (c : Dev nD) :
    Spec.toMat (O0_4 V c) = Spec.lin (fun r j => Spec.toMat (X0 V c) r j + Spec.toMat (A0 V c) r j) (Spec.toMat (W0 V c)) (Spec.toRow1 (B0 V c)) := by
  rw [final0_4]
  rfl

theorem out0_5 (c : Dev nD) : Spec.toRow1 (O0_5 V c) = Spec.colsum (Spec.toMat (O0_4 V c)) := by
  funext q
  rw [final0_5, final0_4]
  exact colsum_blocks N_0 (fun r => lin0 V c r q) q (lo0 V c) (fun t p => blk0_4 V c t p q) (fun n h => (sc0 V c n h).1) (fun _ => rfl) (fun _ _ => rfl) last0

theorem out0_6 (c : Dev nD) : Spec.toRow1 (O0_6 V c) = Spec.colsum (Spec.sq (Spec.toMat (O0_4 V c))) := by
  funext q
  rw [final0_6, final0_4]
  exact colsum_blocks N_0 (fun r => lin0 V c r q * lin0 V c r q) q (fun t => mulf (lo0 V c t) (lo0 V c t)) (fun t p => congrArg₂ (· * ·) (blk0_4 V c t p q) (blk0_4 V c t p q))
    (fun n h => (sc0 V c n h).2) (fun _ => rfl) (fun _ _ => rfl) last0

end Cert.KernelIdeal.Val

end
-- ==== Proof.KI.Val1.lean ====
import proofs.«400309_j11605001633947_1_alg».proof.Proof.KI.Reg1
import proofs.«400309_j11605001633947_1_alg».proof.Proof.KI.ValLib

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators
open Cert.KernelIdeal.Reg

variable (V : (c : Dev nD) → (b : Ref sig .tc) → Buf (Elt Ideal) ((c : Thread nD τ).loc b))

abbrev L1 (c : Dev nD) : Vec Ideal S50000x128 .f32 := V c (Pipeline.arrRef spec1 0)
abbrev MU1 (c : Dev nD) : Vec Ideal S1x128 .f32 := V c (Pipeline.arrRef spec1 1)
abbrev VA1 (c : Dev nD) : Vec Ideal S1x128 .f32 := V c (Pipeline.arrRef spec1 2)
abbrev G1 (c : Dev nD) : Vec Ideal S1x128 .f32 := V c (Pipeline.arrRef spec1 3)
abbrev BE1 (c : Dev nD) : Vec Ideal S1x128 .f32 := V c (Pipeline.arrRef spec1 4)
abbrev W1 (c : Dev nD) : Vec Ideal S128x128 .f32 := V c (Pipeline.arrRef spec1 5)
abbrev B1 (c : Dev nD) : Vec Ideal S1x128 .f32 := V c (Pipeline.arrRef spec1 6)
abbrev O1_7 (c : Dev nD) : Vec Ideal S50000x128 .f32 := (dat1 V c).arrAt 7 cfg1.N
abbrev O1_8 (c : Dev nD) : Vec Ideal S1x128 .f32 := (dat1 V c).arrAt 8 cfg1.N
abbrev O1_9 (c : Dev nD) : Vec Ideal S1x128 .f32 := (dat1 V c).arrAt 9 cfg1.N

theorem idx1_0 : ∀ t : Fin cfg1.N, win1_0.index t 0 = t.val ∧ win1_0.index t 1 = 0 := by decide +kernel
theorem idx1_7 : ∀ t : Fin cfg1.N, win1_7.index t 0 = t.val ∧ win1_7.index t 1 = 0 := by decide +kernel
theorem idx1_1 : ∀ (t : Fin cfg1.N) (a : Fin 2), win1_1.index t a = 0 := by decide +kernel
theorem idx1_2 : ∀ (t : Fin cfg1.N) (a : Fin 2), win1_2.index t a = 0 := by decide +kernel
theorem idx1_3 : ∀ (t : Fin cfg1.N) (a : Fin 2), win1_3.index t a = 0 := by decide +kernel
theorem idx1_4 : ∀ (t : Fin cfg1.N) (a : Fin 2), win1_4.index t a = 0 := by decide +kernel
theorem idx1_5 : ∀ (t : Fin cfg1.N) (a : Fin 2), win1_5.index t a = 0 := by decide +kernel
theorem idx1_6 : ∀ (t : Fin cfg1.N) (a : Fin 2), win1_6.index t a = 0 := by decide +kernel
theorem idx1_8 : ∀ (t : Fin cfg1.N) (a : Fin 2), win1_8.index t a = 0 := by decide +kernel
theorem idx1_9 : ∀ (t : Fin cfg1.N) (a : Fin 2), win1_9.index t a = 0 := by decide +kernel

theorem emb1_0 (t : Fin cfg1.N) (p : Fin 2000) (k : Fin 128) : ((cfg1.win 0).blk t).view.emb (ix2 p k) = ix2 (row N_1 t p) k :=
  Shape.idx_ext₂ (row_val N_1 t p (idx1_0 t).1) (zero_val (idx1_0 t).2)
theorem emb1_7 (t : Fin cfg1.N) (p : Fin 2000) (k : Fin 128) : ((cfg1.win 7).blk t).view.emb (ix2 p k) = ix2 (row N_1 t p) k :=
  Shape.idx_ext₂ (row_val N_1 t p (idx1_7 t).1) (zero_val (idx1_7 t).2)
theorem emb1_1 (t : Fin cfg1.N) (y : S1x128.Idx) : ((cfg1.win 1).blk t).view.emb y = y :=
  idx_id (idx1_1 t) fun _ => rfl
theorem emb1_2 (t : Fin cfg1.N) (y : S1x128.Idx) : ((cfg1.win 2).blk t).view.emb y = y :=
  idx_id (idx1_2 t) fun _ => rfl
theorem emb1_3 (t : Fin cfg1.N) (y : S1x128.Idx) : ((cfg1.win 3).blk t).view.emb y = y :=
  idx_id (idx1_3 t) fun _ => rfl
theorem emb1_4 (t : Fin cfg1.N) (y : S1x128.Idx) : ((cfg1.win 4).blk t).view.emb y = y :=
  idx_id (idx1_4 t) fun _ => rfl
theorem emb1_6 (t : Fin cfg1.N) (y : S1x128.Idx) : ((cfg1.win 6).blk t).view.emb y = y :=
  idx_id (idx1_6 t) fun _ => rfl
theorem emb1_8 (t : Fin cfg1.N) (y : S1x128.Idx) : ((cfg1.win 8).blk t).view.emb y = y :=
  idx_id (idx1_8 t) fun _ => rfl
theorem emb1_9 (t : Fin cfg1.N) (y : S1x128.Idx) : ((cfg1.win 9).blk t).view.emb y = y :=
  idx_id (idx1_9 t) fun _ => rfl
theorem emb1_5 (t : Fin cfg1.N) (y : S128x128.Idx) : ((cfg1.win 5).blk t).view.emb y = y :=
  idx_id (idx1_5 t) fun _ => rfl

def lin1 (c : Dev nD) : Spec.Mat 50000 128 :=
  Spec.lin (Spec.normK (Spec.toMat (L1 V c)) (Spec.toRow1 (MU1 V c)) (Spec.toRow1 (VA1 V c)) (Spec.toRow1 (G1 V c)) (Spec.toRow1 (BE1 V c)))
    (Spec.toMat (W1 V c)) (Spec.toRow1 (B1 V c))

theorem blk1_7 (c : Dev nD) (t : Fin cfg1.N) (p : Fin 2000) (q : Fin 128) : lo1 V c t (ix2 p q) = lin1 V c (row N_1 t p) q :=
  (linNorm_apply _ _ _ _ _ _ _ _ _ _ _ p q).trans (lin_congr (normK_congr (funext fun k => congrArg (L1 V c) (emb1_0 t p k))
      (funext fun j => congrArg (MU1 V c) (emb1_1 t _)) (funext fun j => congrArg (VA1 V c) (emb1_2 t _))
      (funext fun j => congrArg (G1 V c) (emb1_3 t _)) (funext fun j => congrArg (BE1 V c) (emb1_4 t _)))
    (funext fun k => funext fun j => congrArg (W1 V c) (emb1_5 t _)) (funext fun j => congrArg (B1 V c) (emb1_6 t _)) q)

theorem last1 : 24 < cfg1.N := by decide

theorem final1_7 (c : Dev nD) : O1_7 V c = fun i => lin1 V c (i 0) (i 1) :=
  (dat1 V c).arrAt_eq_of_cover 7 _ (fun t _ => by
    show (cfg1.win 7).cut (grid1.coords t) (lo1 V c t) = _
    funext y
    obtain ⟨p, q, rfl⟩ : ∃ (p : Fin 2000) (q : Fin 128), y = ix2 p q := ⟨y 0, y 1, eq_ix2 y⟩
    refine (blk1_7 V c t p q).trans ?_
    rw [View.read_apply, emb1_7]
    rfl) fun (i : S50000x128.Idx) => by
    obtain ⟨t, p, h⟩ := row_surj N_1 i
    exact ⟨t, flush1_7 t, mem_of_emb _ ((emb1_7 t p (i 1)).trans h)⟩
theorem final1_8 (c : Dev nD) : O1_8 V c = (sc1 V c 24 last1).1 :=
  arrAt_last (dat1 V c) 8 N_1 flush1_8 last1 _ (funext fun y => congrArg (sc1 V c 24 last1).1 (emb1_8 _ y).symm)
    fun i => mem_of_emb _ (emb1_8 _ i)
theorem final1_9 (c : Dev nD) : O1_9 V c = (sc1 V c 24 last1).2 :=
  arrAt_last (dat1 V c) 9 N_1 flush1_9 last1 _ (funext fun y => congrArg (sc1 V c 24 last1).2 (emb1_9 _ y).symm)
    fun i => mem_of_emb _ (emb1_9 _ i)

theorem out1_7 (c : Dev nD) :
    Spec.toMat (O1_7 V c) = Spec.lin (Spec.normK (Spec.toMat (L1 V c)) (Spec.toRow1 (MU1 V c)) (Spec.toRow1 (VA1 V c)) (Spec.toRow1 (G1 V c)) (Spec.toRow1 (BE1 V c)))
      (Spec.toMat (W1 V c)) (Spec.toRow1 (B1 V c)) := by
  rw [final1_7]
  rfl

theorem out1_8 (c : Dev nD) : Spec.toRow1 (O1_8 V c) = Spec.colsum (Spec.toMat (O1_7 V c)) := by
  funext q
  rw [final1_8, final1_7]
  exact colsum_blocks N_1 (fun r => lin1 V c r q) q (lo1 V c) (fun t p => blk1_7 V c t p q) (fun n h => (sc1 V c n h).1) (fun _ => rfl) (fun _ _ => rfl) last1

theorem out1_9 (c : Dev nD) : Spec.toRow1 (O1_9 V c) = Spec.colsum (Spec.sq (Spec.toMat (O1_7 V c))) := by
  funext q
  rw [final1_9, final1_7]
  exact colsum_blocks N_1 (fun r => lin1 V c r q * lin1 V c r q) q (fun t => mulf (lo1 V c t) (lo1 V c t))
    (fun t p => congrArg₂ (· * ·) (blk1_7 V c t p q) (blk1_7 V c t p q)) (fun n h => (sc1 V c n h).2) (fun _ => rfl) (fun _ _ => rfl) last1

end Cert.KernelIdeal.Val

end
-- ==== Proof.KI.Val2.lean ====
import proofs.«400309_j11605001633947_1_alg».proof.Proof.KI.Reg2
import proofs.«400309_j11605001633947_1_alg».proof.Proof.KI.ValLib

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators
open Cert.KernelIdeal.Reg

variable (V : (c : Dev nD) → (b : Ref sig .tc) → Buf (Elt Ideal) ((c : Thread nD τ).loc b))

abbrev L2 (c : Dev nD) : Vec Ideal S50000x128 .f32 := V c (Pipeline.arrRef spec2 0)
abbrev MU2 (c : Dev nD) : Vec Ideal S1x128 .f32 := V c (Pipeline.arrRef spec2 1)
abbrev VA2 (c : Dev nD) : Vec Ideal S1x128 .f32 := V c (Pipeline.arrRef spec2 2)
abbrev G2 (c : Dev nD) : Vec Ideal S1x128 .f32 := V c (Pipeline.arrRef spec2 3)
abbrev BE2 (c : Dev nD) : Vec Ideal S1x128 .f32 := V c (Pipeline.arrRef spec2 4)
abbrev ID2 (c : Dev nD) : IVec S50000x1 32 := V c (Pipeline.arrRef spec2 5)
abbrev O2_6 (c : Dev nD) : Vec Ideal S50000x128 .f32 := (dat2 V c).arrAt 6 cfg2.N
abbrev O2_7 (c : Dev nD) : Vec Ideal S128x128 .f32 := (dat2 V c).arrAt 7 cfg2.N

theorem idx2_0 : ∀ t : Fin cfg2.N, win2_0.index t 0 = t.val ∧ win2_0.index t 1 = 0 := by decide +kernel
theorem idx2_5 : ∀ t : Fin cfg2.N, win2_5.index t 0 = t.val ∧ win2_5.index t 1 = 0 := by decide +kernel
theorem idx2_6 : ∀ t : Fin cfg2.N, win2_6.index t 0 = t.val ∧ win2_6.index t 1 = 0 := by decide +kernel
theorem idx2_1 : ∀ (t : Fin cfg2.N) (a : Fin 2), win2_1.index t a = 0 := by decide +kernel
theorem idx2_2 : ∀ (t : Fin cfg2.N) (a : Fin 2), win2_2.index t a = 0 := by decide +kernel
theorem idx2_3 : ∀ (t : Fin cfg2.N) (a : Fin 2), win2_3.index t a = 0 := by decide +kernel
theorem idx2_4 : ∀ (t : Fin cfg2.N) (a : Fin 2), win2_4.index t a = 0 := by decide +kernel
theorem idx2_7 : ∀ (t : Fin cfg2.N) (a : Fin 2), win2_7.index t a = 0 := by decide +kernel

theorem emb2_0 (t : Fin cfg2.N) (p : Fin 2000) (k : Fin 128) : ((cfg2.win 0).blk t).view.emb (ix2 p k) = ix2 (row N_2 t p) k :=
  Shape.idx_ext₂ (row_val N_2 t p (idx2_0 t).1) (zero_val (idx2_0 t).2)
theorem emb2_5 (t : Fin cfg2.N) (p : Fin 2000) (k : Fin 1) : ((cfg2.win 5).blk t).view.emb (ix2 p k) = ix2 (row N_2 t p) k :=
  Shape.idx_ext₂ (row_val N_2 t p (idx2_5 t).1) (zero_val (idx2_5 t).2)
theorem emb2_6 (t : Fin cfg2.N) (p : Fin 2000) (k : Fin 128) : ((cfg2.win 6).blk t).view.emb (ix2 p k) = ix2 (row N_2 t p) k :=
  Shape.idx_ext₂ (row_val N_2 t p (idx2_6 t).1) (zero_val (idx2_6 t).2)
theorem emb2_1 (t : Fin cfg2.N) (y : S1x128.Idx) : ((cfg2.win 1).blk t).view.emb y = y :=
  idx_id (idx2_1 t) fun _ => rfl
theorem emb2_2 (t : Fin cfg2.N) (y : S1x128.Idx) : ((cfg2.win 2).blk t).view.emb y = y :=
  idx_id (idx2_2 t) fun _ => rfl
theorem emb2_3 (t : Fin cfg2.N) (y : S1x128.Idx) : ((cfg2.win 3).blk t).view.emb y = y :=
  idx_id (idx2_3 t) fun _ => rfl
theorem emb2_4 (t : Fin cfg2.N) (y : S1x128.Idx) : ((cfg2.win 4).blk t).view.emb y = y :=
  idx_id (idx2_4 t) fun _ => rfl
theorem emb2_7 (t : Fin cfg2.N) (y : S128x128.Idx) : ((cfg2.win 7).blk t).view.emb y = y :=
  idx_id (idx2_7 t) fun _ => rfl

def norm2 (c : Dev nD) : Spec.Mat 50000 128 :=
  Spec.normK (Spec.toMat (L2 V c)) (Spec.toRow1 (MU2 V c)) (Spec.toRow1 (VA2 V c)) (Spec.toRow1 (G2 V c)) (Spec.toRow1 (BE2 V c))

theorem blk2_6 (c : Dev nD) (t : Fin cfg2.N) (p : Fin 2000) (j : Fin 128) : ho2 V c t (ix2 p j) = norm2 V c (row N_2 t p) j :=
  (normRelu_apply _ _ _ _ _ p j).trans (congrFun (normK_congr (funext fun k => congrArg (L2 V c) (emb2_0 t p k))
    (funext fun j => congrArg (MU2 V c) (emb2_1 t _)) (funext fun j => congrArg (VA2 V c) (emb2_2 t _))
    (funext fun j => congrArg (G2 V c) (emb2_3 t _)) (funext fun j => congrArg (BE2 V c) (emb2_4 t _))) j)

theorem step2_7 (c : Dev nD) (t : Fin cfg2.N) (g j : Fin 128) (acc : Vec Ideal S128x128 .f32) :
    k2_pay1 (k2_pay4 (ib2 V c t)) acc (k2_pay5 (lb2 V c t) (va2 V c t) (gb2 V c t) (mu2 V c t) (eb2 V c t)) (ix2 g j)
      = acc (ix2 g j) + ∑ p, if (ID2 V c (ix2 (row N_2 t p) (0 : Fin 1))).toInt = (g.val : ℤ) then norm2 V c (row N_2 t p) j else 0 :=
  (poolStep_apply _ _ _ _ _ _ _ g j).trans (congrArg (_ + ·) (Finset.sum_congr rfl fun p _ =>
    congrArg₂ (fun a b => if a.toInt = (g.val : ℤ) then b else 0) (congrArg (ID2 V c) (emb2_5 t p 0)) (blk2_6 V c t p j)))

theorem last2 : 24 < cfg2.N := by decide

theorem final2_6 (c : Dev nD) : O2_6 V c = fun i => norm2 V c (i 0) (i 1) :=
  (dat2 V c).arrAt_eq_of_cover 6 _ (fun t _ => by
    show (cfg2.win 6).cut (grid2.coords t) (ho2 V c t) = _
    funext y
    obtain ⟨p, q, rfl⟩ : ∃ (p : Fin 2000) (q : Fin 128), y = ix2 p q := ⟨y 0, y 1, eq_ix2 y⟩
    refine (blk2_6 V c t p q).trans ?_
    rw [View.read_apply, emb2_6]
    rfl) fun (i : S50000x128.Idx) => by
    obtain ⟨t, p, h⟩ := row_surj N_2 i
    exact ⟨t, flush2_6 t, mem_of_emb _ ((emb2_6 t p (i 1)).trans h)⟩
theorem final2_7 (c : Dev nD) : O2_7 V c = sc2 V c 24 last2 :=
  arrAt_last (dat2 V c) 7 N_2 flush2_7 last2 _ (funext fun y => congrArg (sc2 V c 24 last2) (emb2_7 _ y).symm)
    fun i => mem_of_emb _ (emb2_7 _ i)

theorem out2_6 (c : Dev nD) :
    Spec.toMat (O2_6 V c) = Spec.normK (Spec.toMat (L2 V c)) (Spec.toRow1 (MU2 V c)) (Spec.toRow1 (VA2 V c)) (Spec.toRow1 (G2 V c)) (Spec.toRow1 (BE2 V c)) := by
  rw [final2_6]
  rfl

theorem out2_7 (c : Dev nD) :
    Spec.toMat (O2_7 V c) = Spec.pool (G := 128) (fun r => ID2 V c (ix2 r (0 : Fin 1))) (Spec.toMat (O2_6 V c)) := by
  funext g j
  rw [final2_7, final2_6]
  unfold Spec.pool
  rw [Finset.sum_filter]
  exact sum_blocks N_2 (fun r => if (ID2 V c (ix2 r (0 : Fin 1))).toInt = (g.val : ℤ) then norm2 V c r j else 0) (fun n h => sc2 V c n h (ix2 g j))
    (fun h => (step2_7 V c ⟨0, h⟩ g j _).trans ((congrArg (· + _) (zero_fill _)).trans (zero_add _))) (fun n h => step2_7 V c ⟨n + 1, h⟩ g j _) last2

end Cert.KernelIdeal.Val

end
-- ==== Proof.KI.Val3.lean ====
import proofs.«400309_j11605001633947_1_alg».proof.Proof.KI.Reg3
import proofs.«400309_j11605001633947_1_alg».proof.Proof.KI.ValLib

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators
open Cert.KernelIdeal.Reg

variable (V : (c : Dev nD) → (b : Ref sig .tc) → Buf (Elt Ideal) ((c : Thread nD τ).loc b))

abbrev X3 (c : Dev nD) : Vec Ideal S50000x128 .f32 := V c (Pipeline.arrRef spec3 0)
abbrev A3 (c : Dev nD) : Vec Ideal S50000x128 .f32 := V c (Pipeline.arrRef spec3 1)
abbrev W3 (c : Dev nD) : Vec Ideal S128x128 .f32 := V c (Pipeline.arrRef spec3 2)
abbrev B3 (c : Dev nD) : Vec Ideal S1x128 .f32 := V c (Pipeline.arrRef spec3 3)
abbrev O3_4 (c : Dev nD) : Vec Ideal S50000x128 .f32 := (dat3 V c).arrAt 4 cfg3.N
abbrev O3_5 (c : Dev nD) : Vec Ideal S1x128 .f32 := (dat3 V c).arrAt 5 cfg3.N
abbrev O3_6 (c : Dev nD) : Vec Ideal S1x128 .f32 := (dat3 V c).arrAt 6 cfg3.N

theorem idx3_0 : ∀ t : Fin cfg3.N, win3_0.index t 0 = t.val ∧ win3_0.index t 1 = 0 := by decide +kernel
theorem idx3_1 : ∀ t : Fin cfg3.N, win3_1.index t 0 = t.val ∧ win3_1.index t 1 = 0 := by decide +kernel
theorem idx3_4 : ∀ t : Fin cfg3.N, win3_4.index t 0 = t.val ∧ win3_4.index t 1 = 0 := by decide +kernel
theorem idx3_2 : ∀ (t : Fin cfg3.N) (a : Fin 2), win3_2.index t a = 0 := by decide +kernel
theorem idx3_3 : ∀ (t : Fin cfg3.N) (a : Fin 2), win3_3.index t a = 0 := by decide +kernel
theorem idx3_5 : ∀ (t : Fin cfg3.N) (a : Fin 2), win3_5.index t a = 0 := by decide +kernel
theorem idx3_6 : ∀ (t : Fin cfg3.N) (a : Fin 2), win3_6.index t a = 0 := by decide +kernel

theorem emb3_0 (t : Fin cfg3.N) (p : Fin 2000) (k : Fin 128) : ((cfg3.win 0).blk t).view.emb (ix2 p k) = ix2 (row N_3 t p) k :=
  Shape.idx_ext₂ (row_val N_3 t p (idx3_0 t).1) (zero_val (idx3_0 t).2)
theorem emb3_1 (t : Fin cfg3.N) (p : Fin 2000) (k : Fin 128) : ((cfg3.win 1).blk t).view.emb (ix2 p k) = ix2 (row N_3 t p) k :=
  Shape.idx_ext₂ (row_val N_3 t p (idx3_1 t).1) (zero_val (idx3_1 t).2)
theorem emb3_4 (t : Fin cfg3.N) (p : Fin 2000) (k : Fin 128) : ((cfg3.win 4).blk t).view.emb (ix2 p k) = ix2 (row N_3 t p) k :=
  Shape.idx_ext₂ (row_val N_3 t p (idx3_4 t).1) (zero_val (idx3_4 t).2)
theorem emb3_2 (t : Fin cfg3.N) (y : S128x128.Idx) : ((cfg3.win 2).blk t).view.emb y = y :=
  idx_id (idx3_2 t) fun _ => rfl
theorem emb3_3 (t : Fin cfg3.N) (y : S1x128.Idx) : ((cfg3.win 3).blk t).view.emb y = y :=
  idx_id (idx3_3 t) fun _ => rfl
theorem emb3_5 (t : Fin cfg3.N) (y : S1x128.Idx) : ((cfg3.win 5).blk t).view.emb y = y :=
  idx_id (idx3_5 t) fun _ => rfl
theorem emb3_6 (t : Fin cfg3.N) (y : S1x128.Idx) : ((cfg3.win 6).blk t).view.emb y = y :=
  idx_id (idx3_6 t) fun _ => rfl

def lin3 (c : Dev nD) : Spec.Mat 50000 128 :=
  Spec.lin (fun r j => Spec.toMat (X3 V c) r j + Spec.toMat (A3 V c) r j) (Spec.toMat (W3 V c)) (Spec.toRow1 (B3 V c))

abbrev lo3 (c : Dev nD) (t : Fin cfg3.N) : FVec Ideal S2000x128 .f32 := k3_pay3 (xb3 V c t) (ab3 V c t) (wb3 V c t) (bb3 V c t)

theorem pay3_3_apply (x a : Vec Ideal S2000x128 .f32) (w : Vec Ideal S128x128 .f32) (b : Vec Ideal S1x128 .f32) (p : Fin 2000) (q : Fin 128) :
    k3_pay3 (F := Ideal) x a w b (ix2 p q) = Spec.lin (fun r j => Spec.toMat x r j + Spec.toMat a r j) (Spec.toMat w) (Spec.toRow1 b) p q := by
  unfold k3_pay3
  refine (lin_apply _ _ _ _ _ _ _ p q).trans ?_
  simp only [addf_apply, shapeCast_self]
  rfl

theorem blk3_4 (c : Dev nD) (t : Fin cfg3.N) (p : Fin 2000) (q : Fin 128) : lo3 V c t (ix2 p q) = lin3 V c (row N_3 t p) q :=
  (pay3_3_apply _ _ _ _ p q).trans (lin_congr (funext fun k => congrArg₂ (· + ·) (congrArg (X3 V c) (emb3_0 t p k)) (congrArg (A3 V c) (emb3_1 t p k)))
    (funext fun k => funext fun j => congrArg (W3 V c) (emb3_2 t _)) (funext fun j => congrArg (B3 V c) (emb3_3 t _)) q)

theorem last3 : 24 < cfg3.N := by decide

theorem final3_4 (c : Dev nD) : O3_4 V c = fun i => lin3 V c (i 0) (i 1) :=
  (dat3 V c).arrAt_eq_of_cover 4 _ (fun t _ => by
    show (cfg3.win 4).cut (grid3.coords t) (lo3 V c t) = _
    funext y
    obtain ⟨p, q, rfl⟩ : ∃ (p : Fin 2000) (q : Fin 128), y = ix2 p q := ⟨y 0, y 1, eq_ix2 y⟩
    refine (blk3_4 V c t p q).trans ?_
    rw [View.read_apply, emb3_4]
    rfl) fun (i : S50000x128.Idx) => by
    obtain ⟨t, p, h⟩ := row_surj N_3 i
    exact ⟨t, flush3_4 t, mem_of_emb _ ((emb3_4 t p (i 1)).trans h)⟩
theorem final3_5 (c : Dev nD) : O3_5 V c = (sc3 V c 24 last3).1 :=
  arrAt_last (dat3 V c) 5 N_3 flush3_5 last3 _ (funext fun y => congrArg (sc3 V c 24 last3).1 (emb3_5 _ y).symm)
    fun i => mem_of_emb _ (emb3_5 _ i)
theorem final3_6 (c : Dev nD) : O3_6 V c = (sc3 V c 24 last3).2 :=
  arrAt_last (dat3 V c) 6 N_3 flush3_6 last3 _ (funext fun y => congrArg (sc3 V c 24 last3).2 (emb3_6 _ y).symm)
    fun i => mem_of_emb _ (emb3_6 _ i)

theorem out3_4 (c : Dev nD) :
    Spec.toMat (O3_4 V c) = Spec.lin (fun r j => Spec.toMat (X3 V c) r j + Spec.toMat (A3 V c) r j) (Spec.toMat (W3 V c)) (Spec.toRow1 (B3 V c)) := by
  rw [final3_4]
  rfl

theorem out3_5 (c : Dev nD) : Spec.toRow1 (O3_5 V c) = Spec.colsum (Spec.toMat (O3_4 V c)) := by
  funext q
  rw [final3_5, final3_4]
  exact colsum_blocks N_3 (fun r => lin3 V c r q) q (lo3 V c) (fun t p => blk3_4 V c t p q) (fun n h => (sc3 V c n h).1) (fun _ => rfl) (fun _ _ => rfl) last3

theorem out3_6 (c : Dev nD) : Spec.toRow1 (O3_6 V c) = Spec.colsum (Spec.sq (Spec.toMat (O3_4 V c))) := by
  funext q
  rw [final3_6, final3_4]
  exact colsum_blocks N_3 (fun r => lin3 V c r q * lin3 V c r q) q (fun t => mulf (lo3 V c t) (lo3 V c t)) (fun t p => congrArg₂ (· * ·) (blk3_4 V c t p q) (blk3_4 V c t p q))
    (fun n h => (sc3 V c n h).2) (fun _ => rfl) (fun _ _ => rfl) last3

end Cert.KernelIdeal.Val

end
-- ==== Proof.KI.Val4.lean ====
import proofs.«400309_j11605001633947_1_alg».proof.Proof.KI.Reg4
import proofs.«400309_j11605001633947_1_alg».proof.Proof.KI.ValLib

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators
open Cert.KernelIdeal.Reg

variable (V : (c : Dev nD) → (b : Ref sig .tc) → Buf (Elt Ideal) ((c : Thread nD τ).loc b))

abbrev L4 (c : Dev nD) : Vec Ideal S50000x128 .f32 := V c (Pipeline.arrRef spec4 0)
abbrev MU4 (c : Dev nD) : Vec Ideal S1x128 .f32 := V c (Pipeline.arrRef spec4 1)
abbrev VA4 (c : Dev nD) : Vec Ideal S1x128 .f32 := V c (Pipeline.arrRef spec4 2)
abbrev G4 (c : Dev nD) : Vec Ideal S1x128 .f32 := V c (Pipeline.arrRef spec4 3)
abbrev BE4 (c : Dev nD) : Vec Ideal S1x128 .f32 := V c (Pipeline.arrRef spec4 4)
abbrev W4 (c : Dev nD) : Vec Ideal S128x128 .f32 := V c (Pipeline.arrRef spec4 5)
abbrev B4 (c : Dev nD) : Vec Ideal S1x128 .f32 := V c (Pipeline.arrRef spec4 6)
abbrev O4_7 (c : Dev nD) : Vec Ideal S50000x128 .f32 := (dat4 V c).arrAt 7 cfg4.N
abbrev O4_8 (c : Dev nD) : Vec Ideal S1x128 .f32 := (dat4 V c).arrAt 8 cfg4.N
abbrev O4_9 (c : Dev nD) : Vec Ideal S1x128 .f32 := (dat4 V c).arrAt 9 cfg4.N

theorem idx4_0 : ∀ t : Fin cfg4.N, win4_0.index t 0 = t.val ∧ win4_0.index t 1 = 0 := by decide +kernel
theorem idx4_7 : ∀ t : Fin cfg4.N, win4_7.index t 0 = t.val ∧ win4_7.index t 1 = 0 := by decide +kernel
theorem idx4_1 : ∀ (t : Fin cfg4.N) (a : Fin 2), win4_1.index t a = 0 := by decide +kernel
theorem idx4_2 : ∀ (t : Fin cfg4.N) (a : Fin 2), win4_2.index t a = 0 := by decide +kernel
theorem idx4_3 : ∀ (t : Fin cfg4.N) (a : Fin 2), win4_3.index t a = 0 := by decide +kernel
theorem idx4_4 : ∀ (t : Fin cfg4.N) (a : Fin 2), win4_4.index t a = 0 := by decide +kernel
theorem idx4_5 : ∀ (t : Fin cfg4.N) (a : Fin 2), win4_5.index t a = 0 := by decide +kernel
theorem idx4_6 : ∀ (t : Fin cfg4.N) (a : Fin 2), win4_6.index t a = 0 := by decide +kernel
theorem idx4_8 : ∀ (t : Fin cfg4.N) (a : Fin 2), win4_8.index t a = 0 := by decide +kernel
theorem idx4_9 : ∀ (t : Fin cfg4.N) (a : Fin 2), win4_9.index t a = 0 := by decide +kernel

theorem emb4_0 (t : Fin cfg4.N) (p : Fin 2000) (k : Fin 128) : ((cfg4.win 0).blk t).view.emb (ix2 p k) = ix2 (row N_4 t p) k :=
  Shape.idx_ext₂ (row_val N_4 t p (idx4_0 t).1) (zero_val (idx4_0 t).2)
theorem emb4_7 (t : Fin cfg4.N) (p : Fin 2000) (k : Fin 128) : ((cfg4.win 7).blk t).view.emb (ix2 p k) = ix2 (row N_4 t p) k :=
  Shape.idx_ext₂ (row_val N_4 t p (idx4_7 t).1) (zero_val (idx4_7 t).2)
theorem emb4_1 (t : Fin cfg4.N) (y : S1x128.Idx) : ((cfg4.win 1).blk t).view.emb y = y :=
  idx_id (idx4_1 t) fun _ => rfl
theorem emb4_2 (t : Fin cfg4.N) (y : S1x128.Idx) : ((cfg4.win 2).blk t).view.emb y = y :=
  idx_id (idx4_2 t) fun _ => rfl
theorem emb4_3 (t : Fin cfg4.N) (y : S1x128.Idx) : ((cfg4.win 3).blk t).view.emb y = y :=
  idx_id (idx4_3 t) fun _ => rfl
theorem emb4_4 (t : Fin cfg4.N) (y : S1x128.Idx) : ((cfg4.win 4).blk t).view.emb y = y :=
  idx_id (idx4_4 t) fun _ => rfl
theorem emb4_6 (t : Fin cfg4.N) (y : S1x128.Idx) : ((cfg4.win 6).blk t).view.emb y = y :=
  idx_id (idx4_6 t) fun _ => rfl
theorem emb4_8 (t : Fin cfg4.N) (y : S1x128.Idx) : ((cfg4.win 8).blk t).view.emb y = y :=
  idx_id (idx4_8 t) fun _ => rfl
theorem emb4_9 (t : Fin cfg4.N) (y : S1x128.Idx) : ((cfg4.win 9).blk t).view.emb y = y :=
  idx_id (idx4_9 t) fun _ => rfl
theorem emb4_5 (t : Fin cfg4.N) (y : S128x128.Idx) : ((cfg4.win 5).blk t).view.emb y = y :=
  idx_id (idx4_5 t) fun _ => rfl

def lin4 (c : Dev nD) : Spec.Mat 50000 128 :=
  Spec.lin (Spec.normK (Spec.toMat (L4 V c)) (Spec.toRow1 (MU4 V c)) (Spec.toRow1 (VA4 V c)) (Spec.toRow1 (G4 V c)) (Spec.toRow1 (BE4 V c)))
    (Spec.toMat (W4 V c)) (Spec.toRow1 (B4 V c))

theorem blk4_7 (c : Dev nD) (t : Fin cfg4.N) (p : Fin 2000) (q : Fin 128) : lo4 V c t (ix2 p q) = lin4 V c (row N_4 t p) q :=
  (linNorm_apply _ _ _ _ _ _ _ _ _ _ _ p q).trans (lin_congr (normK_congr (funext fun k => congrArg (L4 V c) (emb4_0 t p k))
      (funext fun j => congrArg (MU4 V c) (emb4_1 t _)) (funext fun j => congrArg (VA4 V c) (emb4_2 t _))
      (funext fun j => congrArg (G4 V c) (emb4_3 t _)) (funext fun j => congrArg (BE4 V c) (emb4_4 t _)))
    (funext fun k => funext fun j => congrArg (W4 V c) (emb4_5 t _)) (funext fun j => congrArg (B4 V c) (emb4_6 t _)) q)

theorem last4 : 24 < cfg4.N := by decide

theorem final4_7 (c : Dev nD) : O4_7 V c = fun i => lin4 V c (i 0) (i 1) :=
  (dat4 V c).arrAt_eq_of_cover 7 _ (fun t _ => by
    show (cfg4.win 7).cut (grid4.coords t) (lo4 V c t) = _
    funext y
    obtain ⟨p, q, rfl⟩ : ∃ (p : Fin 2000) (q : Fin 128), y = ix2 p q := ⟨y 0, y 1, eq_ix2 y⟩
    refine (blk4_7 V c t p q).trans ?_
    rw [View.read_apply, emb4_7]
    rfl) fun (i : S50000x128.Idx) => by
    obtain ⟨t, p, h⟩ := row_surj N_4 i
    exact ⟨t, flush4_7 t, mem_of_emb _ ((emb4_7 t p (i 1)).trans h)⟩
theorem final4_8 (c : Dev nD) : O4_8 V c = (sc4 V c 24 last4).1 :=
  arrAt_last (dat4 V c) 8 N_4 flush4_8 last4 _ (funext fun y => congrArg (sc4 V c 24 last4).1 (emb4_8 _ y).symm)
    fun i => mem_of_emb _ (emb4_8 _ i)
theorem final4_9 (c : Dev nD) : O4_9 V c = (sc4 V c 24 last4).2 :=
  arrAt_last (dat4 V c) 9 N_4 flush4_9 last4 _ (funext fun y => congrArg (sc4 V c 24 last4).2 (emb4_9 _ y).symm)
    fun i => mem_of_emb _ (emb4_9 _ i)

theorem out4_7 (c : Dev nD) :
    Spec.toMat (O4_7 V c) = Spec.lin (Spec.normK (Spec.toMat (L4 V c)) (Spec.toRow1 (MU4 V c)) (Spec.toRow1 (VA4 V c)) (Spec.toRow1 (G4 V c)) (Spec.toRow1 (BE4 V c)))
      (Spec.toMat (W4 V c)) (Spec.toRow1 (B4 V c)) := by
  rw [final4_7]
  rfl

theorem out4_8 (c : Dev nD) : Spec.toRow1 (O4_8 V c) = Spec.colsum (Spec.toMat (O4_7 V c)) := by
  funext q
  rw [final4_8, final4_7]
  exact colsum_blocks N_4 (fun r => lin4 V c r q) q (lo4 V c) (fun t p => blk4_7 V c t p q) (fun n h => (sc4 V c n h).1) (fun _ => rfl) (fun _ _ => rfl) last4

theorem out4_9 (c : Dev nD) : Spec.toRow1 (O4_9 V c) = Spec.colsum (Spec.sq (Spec.toMat (O4_7 V c))) := by
  funext q
  rw [final4_9, final4_7]
  exact colsum_blocks N_4 (fun r => lin4 V c r q * lin4 V c r q) q (fun t => mulf (lo4 V c t) (lo4 V c t))
    (fun t p => congrArg₂ (· * ·) (blk4_7 V c t p q) (blk4_7 V c t p q)) (fun n h => (sc4 V c n h).2) (fun _ => rfl) (fun _ _ => rfl) last4

end Cert.KernelIdeal.Val

end
-- ==== Proof.KI.Val5.lean ====
import proofs.«400309_j11605001633947_1_alg».proof.Proof.KI.Reg5
import proofs.«400309_j11605001633947_1_alg».proof.Proof.KI.ValLib

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators
open Cert.KernelIdeal.Reg

variable (V : (c : Dev nD) → (b : Ref sig .tc) → Buf (Elt Ideal) ((c : Thread nD τ).loc b))

abbrev L5 (c : Dev nD) : Vec Ideal S50000x128 .f32 := V c (Pipeline.arrRef spec5 0)
abbrev MU5 (c : Dev nD) : Vec Ideal S1x128 .f32 := V c (Pipeline.arrRef spec5 1)
abbrev VA5 (c : Dev nD) : Vec Ideal S1x128 .f32 := V c (Pipeline.arrRef spec5 2)
abbrev G5 (c : Dev nD) : Vec Ideal S1x128 .f32 := V c (Pipeline.arrRef spec5 3)
abbrev BE5 (c : Dev nD) : Vec Ideal S1x128 .f32 := V c (Pipeline.arrRef spec5 4)
abbrev ID5 (c : Dev nD) : IVec S50000x1 32 := V c (Pipeline.arrRef spec5 5)
abbrev O5_6 (c : Dev nD) : Vec Ideal S50000x128 .f32 := (dat5 V c).arrAt 6 cfg5.N
abbrev O5_7 (c : Dev nD) : Vec Ideal S128x128 .f32 := (dat5 V c).arrAt 7 cfg5.N

theorem idx5_0 : ∀ t : Fin cfg5.N, win5_0.index t 0 = t.val ∧ win5_0.index t 1 = 0 := by decide +kernel
theorem idx5_5 : ∀ t : Fin cfg5.N, win5_5.index t 0 = t.val ∧ win5_5.index t 1 = 0 := by decide +kernel
theorem idx5_6 : ∀ t : Fin cfg5.N, win5_6.index t 0 = t.val ∧ win5_6.index t 1 = 0 := by decide +kernel
theorem idx5_1 : ∀ (t : Fin cfg5.N) (a : Fin 2), win5_1.index t a = 0 := by decide +kernel
theorem idx5_2 : ∀ (t : Fin cfg5.N) (a : Fin 2), win5_2.index t a = 0 := by decide +kernel
theorem idx5_3 : ∀ (t : Fin cfg5.N) (a : Fin 2), win5_3.index t a = 0 := by decide +kernel
theorem idx5_4 : ∀ (t : Fin cfg5.N) (a : Fin 2), win5_4.index t a = 0 := by decide +kernel
theorem idx5_7 : ∀ (t : Fin cfg5.N) (a : Fin 2), win5_7.index t a = 0 := by decide +kernel

theorem emb5_0 (t : Fin cfg5.N) (p : Fin 2000) (k : Fin 128) : ((cfg5.win 0).blk t).view.emb (ix2 p k) = ix2 (row N_5 t p) k :=
  Shape.idx_ext₂ (row_val N_5 t p (idx5_0 t).1) (zero_val (idx5_0 t).2)
theorem emb5_5 (t : Fin cfg5.N) (p : Fin 2000) (k : Fin 1) : ((cfg5.win 5).blk t).view.emb (ix2 p k) = ix2 (row N_5 t p) k :=
  Shape.idx_ext₂ (row_val N_5 t p (idx5_5 t).1) (zero_val (idx5_5 t).2)
theorem emb5_6 (t : Fin cfg5.N) (p : Fin 2000) (k : Fin 128) : ((cfg5.win 6).blk t).view.emb (ix2 p k) = ix2 (row N_5 t p) k :=
  Shape.idx_ext₂ (row_val N_5 t p (idx5_6 t).1) (zero_val (idx5_6 t).2)
theorem emb5_1 (t : Fin cfg5.N) (y : S1x128.Idx) : ((cfg5.win 1).blk t).view.emb y = y :=
  idx_id (idx5_1 t) fun _ => rfl
theorem emb5_2 (t : Fin cfg5.N) (y : S1x128.Idx) : ((cfg5.win 2).blk t).view.emb y = y :=
  idx_id (idx5_2 t) fun _ => rfl
theorem emb5_3 (t : Fin cfg5.N) (y : S1x128.Idx) : ((cfg5.win 3).blk t).view.emb y = y :=
  idx_id (idx5_3 t) fun _ => rfl
theorem emb5_4 (t : Fin cfg5.N) (y : S1x128.Idx) : ((cfg5.win 4).blk t).view.emb y = y :=
  idx_id (idx5_4 t) fun _ => rfl
theorem emb5_7 (t : Fin cfg5.N) (y : S128x128.Idx) : ((cfg5.win 7).blk t).view.emb y = y :=
  idx_id (idx5_7 t) fun _ => rfl

def norm5 (c : Dev nD) : Spec.Mat 50000 128 :=
  Spec.normK (Spec.toMat (L5 V c)) (Spec.toRow1 (MU5 V c)) (Spec.toRow1 (VA5 V c)) (Spec.toRow1 (G5 V c)) (Spec.toRow1 (BE5 V c))

theorem blk5_6 (c : Dev nD) (t : Fin cfg5.N) (p : Fin 2000) (j : Fin 128) : ho5 V c t (ix2 p j) = norm5 V c (row N_5 t p) j :=
  (normRelu_apply _ _ _ _ _ p j).trans (congrFun (normK_congr (funext fun k => congrArg (L5 V c) (emb5_0 t p k))
    (funext fun j => congrArg (MU5 V c) (emb5_1 t _)) (funext fun j => congrArg (VA5 V c) (emb5_2 t _))
    (funext fun j => congrArg (G5 V c) (emb5_3 t _)) (funext fun j => congrArg (BE5 V c) (emb5_4 t _))) j)

theorem step5_7 (c : Dev nD) (t : Fin cfg5.N) (g j : Fin 128) (acc : Vec Ideal S128x128 .f32) :
    k5_pay1 (k5_pay4 (ib5 V c t)) acc (k5_pay5 (lb5 V c t) (va5 V c t) (gb5 V c t) (mu5 V c t) (eb5 V c t)) (ix2 g j)
      = acc (ix2 g j) + ∑ p, if (ID5 V c (ix2 (row N_5 t p) (0 : Fin 1))).toInt = (g.val : ℤ) then norm5 V c (row N_5 t p) j else 0 :=
  (poolStep_apply _ _ _ _ _ _ _ g j).trans (congrArg (_ + ·) (Finset.sum_congr rfl fun p _ =>
    congrArg₂ (fun a b => if a.toInt = (g.val : ℤ) then b else 0) (congrArg (ID5 V c) (emb5_5 t p 0)) (blk5_6 V c t p j)))

theorem last5 : 24 < cfg5.N := by decide

theorem final5_6 (c : Dev nD) : O5_6 V c = fun i => norm5 V c (i 0) (i 1) :=
  (dat5 V c).arrAt_eq_of_cover 6 _ (fun t _ => by
    show (cfg5.win 6).cut (grid5.coords t) (ho5 V c t) = _
    funext y
    obtain ⟨p, q, rfl⟩ : ∃ (p : Fin 2000) (q : Fin 128), y = ix2 p q := ⟨y 0, y 1, eq_ix2 y⟩
    refine (blk5_6 V c t p q).trans ?_
    rw [View.read_apply, emb5_6]
    rfl) fun (i : S50000x128.Idx) => by
    obtain ⟨t, p, h⟩ := row_surj N_5 i
    exact ⟨t, flush5_6 t, mem_of_emb _ ((emb5_6 t p (i 1)).trans h)⟩
theorem final5_7 (c : Dev nD) : O5_7 V c = sc5 V c 24 last5 :=
  arrAt_last (dat5 V c) 7 N_5 flush5_7 last5 _ (funext fun y => congrArg (sc5 V c 24 last5) (emb5_7 _ y).symm)
    fun i => mem_of_emb _ (emb5_7 _ i)

theorem out5_6 (c : Dev nD) :
    Spec.toMat (O5_6 V c) = Spec.normK (Spec.toMat (L5 V c)) (Spec.toRow1 (MU5 V c)) (Spec.toRow1 (VA5 V c)) (Spec.toRow1 (G5 V c)) (Spec.toRow1 (BE5 V c)) := by
  rw [final5_6]
  rfl

theorem out5_7 (c : Dev nD) :
    Spec.toMat (O5_7 V c) = Spec.pool (G := 128) (fun r => ID5 V c (ix2 r (0 : Fin 1))) (Spec.toMat (O5_6 V c)) := by
  funext g j
  rw [final5_7, final5_6]
  unfold Spec.pool
  rw [Finset.sum_filter]
  exact sum_blocks N_5 (fun r => if (ID5 V c (ix2 r (0 : Fin 1))).toInt = (g.val : ℤ) then norm5 V c r j else 0) (fun n h => sc5 V c n h (ix2 g j))
    (fun h => (step5_7 V c ⟨0, h⟩ g j _).trans ((congrArg (· + _) (zero_fill _)).trans (zero_add _))) (fun n h => step5_7 V c ⟨n + 1, h⟩ g j _) last5

end Cert.KernelIdeal.Val

end
-- ==== Proof.KI.Value.lean ====
import proofs.«400309_j11605001633947_1_alg».proof.Proof.KI.PData
import proofs.«400309_j11605001633947_1_alg».proof.Proof.KI.Host
import proofs.«400309_j11605001633947_1_alg».proof.Proof.KI.Val0
import proofs.«400309_j11605001633947_1_alg».proof.Proof.KI.Val1
import proofs.«400309_j11605001633947_1_alg».proof.Proof.KI.Val2
import proofs.«400309_j11605001633947_1_alg».proof.Proof.KI.Val3
import proofs.«400309_j11605001633947_1_alg».proof.Proof.KI.Val4
import proofs.«400309_j11605001633947_1_alg».proof.Proof.KI.Val5
import proofs.«400309_j11605001633947_1_alg».proof.Proof.Spec

set_option maxRecDepth 1268

noncomputable section

namespace Cert.KernelIdeal.Value

open Idealize.ShloMosaic Idealize.ShloMosaic.TcCoe Idealize.ShloMosaic.ValueIdx
open Cert.KernelIdeal Cert.KernelIdeal.Gen Cert.Spec Cert.KernelIdeal.Run Cert.KernelIdeal.Val Cert.KernelIdeal.Host

variable (m : (ℓ : Loc nD τ sig) → Buf (Elt Ideal) ℓ) (outs : Outs (F := Ideal)) (c : Dev nD)

def edge : Fin 2 → Fin 800000 → BitVec 32 := toIMat (m ((c.tc : Thread nD τ).loc main_arg1))
def gids : Fin 50000 → BitVec 32 := toIRow (m ((c.tc : Thread nD τ).loc main_arg2))
def x0 : Mat 50000 128 := toMat (m ((c.tc : Thread nD τ).loc main_arg0))
def P0 : Params := ⟨toMat (m ((c.tc : Thread nD τ).loc main_arg3)), toRow (m ((c.tc : Thread nD τ).loc main_arg4)), toRow (m ((c.tc : Thread nD τ).loc main_arg5)), toRow (m ((c.tc : Thread nD τ).loc main_arg6)), toMat (m ((c.tc : Thread nD τ).loc main_arg7)), toRow (m ((c.tc : Thread nD τ).loc main_arg8)), toRow (m ((c.tc : Thread nD τ).loc main_arg9)), toRow (m ((c.tc : Thread nD τ).loc main_arg10))⟩
def P1 : Params := ⟨toMat (m ((c.tc : Thread nD τ).loc main_arg11)), toRow (m ((c.tc : Thread nD τ).loc main_arg12)), toRow (m ((c.tc : Thread nD τ).loc main_arg13)), toRow (m ((c.tc : Thread nD τ).loc main_arg14)), toMat (m ((c.tc : Thread nD τ).loc main_arg15)), toRow (m ((c.tc : Thread nD τ).loc main_arg16)), toRow (m ((c.tc : Thread nD τ).loc main_arg17)), toRow (m ((c.tc : Thread nD τ).loc main_arg18))⟩

def lin1 (e : Fin 2 → Fin 800000 → BitVec 32) (P : Params) (h : Mat 50000 128) : Mat 50000 128 :=
  lin (fun r j => h r j + agg e h r j) P.W1 P.b1
def lin2 (e : Fin 2 → Fin 800000 → BitVec 32) (P : Params) (h : Mat 50000 128) : Mat 50000 128 :=
  lin (bnK (lin1 e P h) P.g1 P.be1) P.W2 P.b2
def h1 : Mat 50000 128 := layerK (edge m c) (P0 m c) (x0 m c)

section Shapes
variable {e e' : Fin 2 → Fin 800000 → BitVec 32} {P : Params} {h x a y z a' : Mat 50000 128} {W W' : Mat 128 128}
  {b b' g g' be be' mu va s1 s2 : Row 128}

-- Only rows 0 and 1 of the table enter the sum.
theorem agg_congr (h0 : ∀ k, e 0 k = e' 0 k) (h1 : ∀ k, e 1 k = e' 1 k) : agg e h = agg e' h := by
  funext c j
  simp only [agg, srcWord, h0, h1]
theorem lin_of (ha : a = a') (hW : W = W') (hb : b = b') : lin a W b = lin a' W' b' := by
  subst ha hW hb; rfl
theorem lin1_of (hx : x = h) (ha : a = agg e h) (hW : W = P.W1) (hb : b = P.b1) :
    lin (fun r j => x r j + a r j) W b = lin1 e P h := by
  subst hx ha hW hb; rfl
-- normK at the column mean and variance, each written through the column sums, is bnK.
theorem bn_of (hz : z = y) (h1 : s1 = colsum y) (h2 : s2 = colsum (sq y)) (hmu : mu = fun j => Ideal.div (s1 j) cN)
    (hva : va = fun j => Ideal.div (s2 j) cN - Ideal.div (s1 j) cN * Ideal.div (s1 j) cN) (hg : g = g') (hbe : be = be') :
    normK z mu va g be = bnK y g' be' := by
  subst hz h1 h2 hmu hva hg hbe; rfl
-- Equal arrays read as equal rows.
theorem row_of {u u' : (⟨2, ![1, 128]⟩ : Shape).Idx → EReal} {v v' : (⟨1, ![128]⟩ : Shape).Idx → EReal}
    (hu : u = u') (hr : toRow1 u' = toRow v) (hv : v = v') : toRow1 u = toRow v' := by
  subst hu hv; exact hr
end Shapes

section Keep
variable (r : Ref sig .tc)

abbrev Kept7 : Prop := r ∉ [main_v53_0, main_v53_1, main_v53_2] ∧ r ∉ hostOps4_W ∧ r ∉ [main_v60_0, main_v60_1, main_v60_2] ∧ r ∉ hostOps5_W ∧ r ∉ [main_v67_0, main_v67_1]
abbrev Kept1 : Prop := r ∉ [main_v21_0, main_v21_1, main_v21_2] ∧ r ∉ hostOps1_W ∧ r ∉ [main_v28_0, main_v28_1, main_v28_2] ∧ r ∉ hostOps2_W ∧ r ∉ [main_v35_0, main_v35_1] ∧ r ∉ hostOps3_W ∧ Kept7 r
abbrev Kept0 : Prop := r ∉ hostOps0_W ∧ Kept1 r

-- A reference none of items 7 to 11 writes is the same at boundaries 9, 11 and 12 as at boundary 7.
theorem keep7 (k : Kept7 r) : V9 m outs c r = V7 m outs c r ∧ V11 m outs c r = V7 m outs c r ∧ V12 m outs c r = V7 m outs c r := by
  obtain ⟨k7, k8, k9, k10, k11⟩ := k
  have e9 := (V9_of m outs c r k8).trans (V8_of m outs c r k7)
  have e11 := (V11_of m outs c r k10).trans ((V10_of m outs c r k9).trans e9)
  exact ⟨e9, e11, (V12_of m outs c r k11).trans e11⟩
-- A reference none of items 1 to 11 writes is the same at every later boundary as at boundary 1.
theorem keep1 (k : Kept1 r) : V3 m outs c r = V1 m c r ∧ V5 m outs c r = V1 m c r ∧ V6 m outs c r = V1 m c r
    ∧ V7 m outs c r = V1 m c r ∧ V9 m outs c r = V1 m c r ∧ V11 m outs c r = V1 m c r := by
  obtain ⟨k1, k2, k3, k4, k5, k6, k⟩ := k
  have e3 := (V3_of m outs c r k2).trans (V2_of m outs c r k1)
  have e5 := (V5_of m outs c r k4).trans ((V4_of m outs c r k3).trans e3)
  have e6 := (V6_of m outs c r k5).trans e5
  have e7 := (V7_of m outs c r k6).trans e6
  exact ⟨e3, e5, e6, e7, (keep7 m outs c r k).1.trans e7, (keep7 m outs c r k).2.1.trans e7⟩
-- A reference no item writes holds its launch contents at every boundary.
theorem keep0 (k : Kept0 r) : V1 m c r = V0 m c r ∧ V3 m outs c r = V0 m c r ∧ V6 m outs c r = V0 m c r
    ∧ V7 m outs c r = V0 m c r ∧ V9 m outs c r = V0 m c r := by
  have e := V1_of m c r k.1
  have k := keep1 m outs c r k.2
  exact ⟨e, k.1.trans e, k.2.2.1.trans e, k.2.2.2.1.trans e, k.2.2.2.2.1.trans e⟩
end Keep

-- The ids column, unchanged since boundary 1, read by rows is the launch ids.
theorem ids_of {v : IVec S50000x1 32} (hv : v = V1 m c main_v4) : (fun r : Fin 50000 => v (ix2 r (0 : Fin 1))) = gids m c := by
  subst hv; exact ids0 (V0 m c)

section Chain
variable {m outs} (hok : OutsOK m outs)
include hok

theorem g0_4 : V2 m outs c main_v21_0 = O0_4 (R1 m) c := (hok.h0 c 4).symm
theorem g0_5 : V2 m outs c main_v21_1 = O0_5 (R1 m) c := (hok.h0 c 5).symm
theorem g0_6 : V2 m outs c main_v21_2 = O0_6 (R1 m) c := (hok.h0 c 6).symm
theorem g1_7 : V4 m outs c main_v28_0 = O1_7 (R3 m outs) c := (hok.h1 c 7).symm
theorem g1_8 : V4 m outs c main_v28_1 = O1_8 (R3 m outs) c := (hok.h1 c 8).symm
theorem g1_9 : V4 m outs c main_v28_2 = O1_9 (R3 m outs) c := (hok.h1 c 9).symm
theorem g2_6 : V6 m outs c main_v35_0 = O2_6 (R5 m outs) c := (hok.h2 c 6).symm
theorem g2_7 : V6 m outs c main_v35_1 = O2_7 (R5 m outs) c := (hok.h2 c 7).symm
theorem g3_4 : V8 m outs c main_v53_0 = O3_4 (R7 m outs) c := (hok.h3 c 4).symm
theorem g3_5 : V8 m outs c main_v53_1 = O3_5 (R7 m outs) c := (hok.h3 c 5).symm
theorem g3_6 : V8 m outs c main_v53_2 = O3_6 (R7 m outs) c := (hok.h3 c 6).symm
theorem g4_7 : V10 m outs c main_v60_0 = O4_7 (R9 m outs) c := (hok.h4 c 7).symm
theorem g4_8 : V10 m outs c main_v60_1 = O4_8 (R9 m outs) c := (hok.h4 c 8).symm
theorem g4_9 : V10 m outs c main_v60_2 = O4_9 (R9 m outs) c := (hok.h4 c 9).symm
theorem g5_6 : V12 m outs c main_v67_0 = O5_6 (R11 m outs) c := (hok.h5 c 6).symm
theorem g5_7 : V12 m outs c main_v67_1 = O5_7 (R11 m outs) c := (hok.h5 c 7).symm

theorem s2_y : toMat (V2 m outs c main_v21_0) = lin1 (edge m c) (P0 m c) (x0 m c) := by
  rw [g0_4 c hok]
  exact (out0_4 _ c).trans (lin1_of (congrArg toMat (keep0 m outs c main_arg0 (by decide)).1) (agg0 _)
    (congrArg toMat (keep0 m outs c main_arg3 (by decide)).1) (row0_15 _))
theorem s4_z : toMat (V4 m outs c main_v28_0) = lin2 (edge m c) (P0 m c) (x0 m c) := by
  rw [g1_7 c hok]
  exact (out1_7 _ c).trans (lin_of (bn_of ((congrArg toMat (V3_of m outs c main_v21_0 (by decide))).trans (s2_y c hok))
      (by rw [g0_5 c hok, out0_5, ← g0_4 c hok, s2_y c hok]) (by rw [g0_6 c hok, out0_6, ← g0_4 c hok, s2_y c hok]) (mean1 _) (var1 _)
      (row_of (keep1 m outs c main_v16 (by decide)).1 (row0_16 _) rfl) (row_of (keep1 m outs c main_v17 (by decide)).1 (row0_17 _) rfl))
    (congrArg toMat (keep0 m outs c main_arg7 (by decide)).2.1) (row_of (keep1 m outs c main_v18 (by decide)).1 (row0_18 _) rfl))
theorem s6_h : toMat (V6 m outs c main_v35_0) = h1 m c := by
  rw [g2_6 c hok]
  exact (out2_6 _ c).trans (bn_of ((congrArg toMat (V5_of m outs c main_v28_0 (by decide))).trans (s4_z c hok))
    (by rw [g1_8 c hok, out1_8, ← g1_7 c hok, s4_z c hok]; rfl) (by rw [g1_9 c hok, out1_9, ← g1_7 c hok, s4_z c hok]; rfl) (mean2 _) (var2 _)
    (row_of (keep1 m outs c main_v19 (by decide)).2.1 (row0_19 _) rfl) (row_of (keep1 m outs c main_v20 (by decide)).2.1 (row0_20 _) rfl))

theorem s6_p : toMat (V6 m outs c main_v35_1) = pool (G := 128) (gids m c) (h1 m c) := by
  rw [g2_7 c hok, out2_7, ← g2_6 c hok, s6_h c hok]
  exact congrArg (fun i => pool i _) (ids_of m c (keep1 m outs c main_v4 (by decide)).2.1)
theorem s7_agg : toMat (V7 m outs c main_v46) = agg (edge m c) (h1 m c) := by
  rw [agg3 (V6 m outs c), s6_h c hok, (keep1 m outs c main_v1 (by decide)).2.2.1, (keep1 m outs c main_v3 (by decide)).2.2.1,
    edge0_1 (V0 m c), edge0_3 (V0 m c)]
  exact agg_congr (fun _ => rfl) (fun _ => rfl)
theorem s8_y : toMat (V8 m outs c main_v53_0) = lin1 (edge m c) (P1 m c) (h1 m c) := by
  rw [g3_4 c hok]
  exact (out3_4 _ c).trans (lin1_of ((congrArg toMat (V7_of m outs c main_v35_0 (by decide))).trans (s6_h c hok)) (s7_agg c hok)
    (congrArg toMat (keep0 m outs c main_arg11 (by decide)).2.2.2.1)
    (row_of rfl (row3_47 _) (keep0 m outs c main_arg12 (by decide)).2.2.1))
theorem s10_z : toMat (V10 m outs c main_v60_0) = lin2 (edge m c) (P1 m c) (h1 m c) := by
  rw [g4_7 c hok]
  exact (out4_7 _ c).trans (lin_of (bn_of ((congrArg toMat (V9_of m outs c main_v53_0 (by decide))).trans (s8_y c hok))
      (by rw [g3_5 c hok, out3_5, ← g3_4 c hok, s8_y c hok]) (by rw [g3_6 c hok, out3_6, ← g3_4 c hok, s8_y c hok]) (mean4 _) (var4 _)
      (row_of (keep7 m outs c main_v48 (by decide)).1 (row3_48 _) (keep0 m outs c main_arg13 (by decide)).2.2.1)
      (row_of (keep7 m outs c main_v49 (by decide)).1 (row3_49 _) (keep0 m outs c main_arg14 (by decide)).2.2.1))
    (congrArg toMat (keep0 m outs c main_arg15 (by decide)).2.2.2.2)
    (row_of (keep7 m outs c main_v50 (by decide)).1 (row3_50 _) (keep0 m outs c main_arg16 (by decide)).2.2.1))
theorem s12_h : toMat (V12 m outs c main_v67_0) = layerK (edge m c) (P1 m c) (h1 m c) := by
  rw [g5_6 c hok]
  exact (out5_6 _ c).trans (bn_of ((congrArg toMat (V11_of m outs c main_v60_0 (by decide))).trans (s10_z c hok))
    (by rw [g4_8 c hok, out4_8, ← g4_7 c hok, s10_z c hok]; rfl) (by rw [g4_9 c hok, out4_9, ← g4_7 c hok, s10_z c hok]; rfl) (mean5 _) (var5 _)
    (row_of (keep7 m outs c main_v51 (by decide)).2.1 (row3_51 _) (keep0 m outs c main_arg17 (by decide)).2.2.1)
    (row_of (keep7 m outs c main_v52 (by decide)).2.1 (row3_52 _) (keep0 m outs c main_arg18 (by decide)).2.2.1))
theorem s12_p : toMat (V12 m outs c main_v67_1) = pool (G := 128) (gids m c) (layerK (edge m c) (P1 m c) (h1 m c)) := by
  rw [g5_7 c hok, out5_7, ← g5_6 c hok, s12_h c hok]
  exact congrArg (fun i => pool i _) (ids_of m c (keep1 m outs c main_v4 (by decide)).2.2.2.2.2)

end Chain

theorem final_val (hok : Cert.KernelIdeal.Run.OutsOK m outs) (c : Dev nD) :
    toMat (V13 m outs c main_v69) = outK (toIMat (m ((c.tc : Thread nD τ).loc main_arg1))) (toIRow (m ((c.tc : Thread nD τ).loc main_arg2)))
      ⟨toMat (m ((c.tc : Thread nD τ).loc main_arg3)), toRow (m ((c.tc : Thread nD τ).loc main_arg4)), toRow (m ((c.tc : Thread nD τ).loc main_arg5)), toRow (m ((c.tc : Thread nD τ).loc main_arg6)), toMat (m ((c.tc : Thread nD τ).loc main_arg7)), toRow (m ((c.tc : Thread nD τ).loc main_arg8)), toRow (m ((c.tc : Thread nD τ).loc main_arg9)), toRow (m ((c.tc : Thread nD τ).loc main_arg10))⟩
      ⟨toMat (m ((c.tc : Thread nD τ).loc main_arg11)), toRow (m ((c.tc : Thread nD τ).loc main_arg12)), toRow (m ((c.tc : Thread nD τ).loc main_arg13)), toRow (m ((c.tc : Thread nD τ).loc main_arg14)), toMat (m ((c.tc : Thread nD τ).loc main_arg15)), toRow (m ((c.tc : Thread nD τ).loc main_arg16)), toRow (m ((c.tc : Thread nD τ).loc main_arg17)), toRow (m ((c.tc : Thread nD τ).loc main_arg18))⟩
      (toMat (m ((c.tc : Thread nD τ).loc main_arg0))) := by
  rw [out6 (V12 m outs c), (keep7 m outs c main_v36 (by decide)).2.2, pool3 (V6 m outs c), s6_p c hok, s12_p c hok]
  rfl

end Cert.KernelIdeal.Value

end
-- ==== Proof.Ref.Consts.lean ====
import Idealize.ShloMosaic.PureOps.Ideal
import Idealize.ShloMosaic.PureOps.Ideal.Laws
import proofs.«400309_j11605001633947_1_alg».proof.Proof.Spec

noncomputable section

namespace Cert.ReferenceIdeal.Val

open Idealize.ShloMosaic

theorem cN_eq : Cert.Spec.cN = ((50000 : ℝ) : EReal) := by
  simp [Cert.Spec.cN, Ideal.ofBits, Ideal.ieee, -EReal.coe_mul]; norm_num

theorem sitofp_zero : FloatOps.sitofp (F := Ideal) .f32 (0#32 : BitVec 32) = (0 : EReal) := by
  show (((0#32 : BitVec 32).toInt : ℝ) : EReal) = 0
  simp

theorem cN_sub_zero : Cert.Spec.cN - FloatOps.sitofp (F := Ideal) .f32 (0#32 : BitVec 32) = Cert.Spec.cN := by
  rw [sitofp_zero, sub_zero]

theorem cN_pos : (0 : EReal) < Cert.Spec.cN := by
  rw [cN_eq]; exact_mod_cast (by norm_num : (0 : ℝ) < 50000)

theorem cN_ne_zero : Cert.Spec.cN ≠ 0 := ne_of_gt cN_pos

theorem cN_sub_zero_pos :
    FloatOps.cmpf (F := Ideal) (φ := .f32) .ogt (Cert.Spec.cN - FloatOps.sitofp (F := Ideal) .f32 (0#32 : BitVec 32))
      (Ideal.ofBits .f32 0x00000000#32) = 1#1 := by
  rw [cN_sub_zero, Ideal.ofBits_zero_f32]
  show BitVec.ofBool (decide ((0 : EReal) < Cert.Spec.cN)) = 1#1
  rw [decide_eq_true cN_pos]; rfl

end Cert.ReferenceIdeal.Val

end
-- ==== Proof.Ref.ValS.lean ====
import proofs.«400309_j11605001633947_1_alg».proof.Proof.Ref.Ops
import proofs.«400309_j11605001633947_1_alg».proof.Proof.Spec
import proofs.«400309_j11605001633947_1_alg».proof.Proof.Ref.Consts
import Idealize.ShloMosaic.Lib.StableHlo.Run
import Idealize.ShloMosaic.Lib.IdealHost
import Idealize.ShloMosaic.Lib.ValueIdx
import Idealize.ShloMosaic.PureOps.Ideal
import Idealize.ShloMosaic.PureOps.Ideal.Laws
import Idealize.ShloMosaic.Lib.KernelVsHost

noncomputable section

namespace Cert.ReferenceIdeal.Val

open Idealize.ShloMosaic Idealize.ShloMosaic.StableHlo Idealize.SL.Sem Idealize.ShloMosaic.ValueIdx Idealize.ShloMosaic.TcCoe
open Cert.ReferenceIdeal Cert.ReferenceIdeal.Gen Cert.ReferenceIdeal.Run
open scoped BigOperators

theorem bc_vec_row {α : Type} (v : S128.Idx → α) (j : Fin 128) :
    broadcastInDim S1x128 ![1] bcast_S128_S1x128_1 v (ix2 (0 : Fin 1) j) = v (ix1 j) := by
  unfold broadcastInDim
  refine congrArg v (funext fun a => ?_)
  match a with
  | ⟨0, _⟩ => rfl

theorem hRed : Shape.Reduces S50000x128 [0] S128 := by decide

theorem lift_eq (j : Fin 128) (k : Fin 50000) : hRed.lift (ix1 j) k = ix2 k j := by
  funext c
  match c with
  | ⟨0, _⟩ => rfl
  | ⟨1, _⟩ => rfl

variable (x : FVec Ideal S50000x128 .f32)

-- The sum over the rows, started from zero and read at column j, is the column sum.
theorem colsum_read (j : Fin 128) :
    Host.reduceAdd x (constant S_ .f32 0x00000000#32) reducesTo_S50000x128_S128_d0 h_S_ (ix1 j)
      = Cert.Spec.colsum (Cert.Spec.toMat x) j := by
  rw [hostReduceAdd_apply, constant_apply, Ideal.ofBits_zero_f32, Ideal.hostReduceAdd_single _ hRed, zero_add]
  exact Finset.sum_congr rfl fun k _ => congrArg x (lift_eq j k)

def meanV : FVec Ideal S128 .f32 :=
  Host.divf (Host.reduceAdd x (constant S_ .f32 0x00000000#32) reducesTo_S50000x128_S128_d0 h_S_)
    (broadcastInDim S128 ![] bcast_S_S128 (constant S_ .f32 0x47435000#32))

def cenV : FVec Ideal S50000x128 .f32 :=
  subf x (broadcastInDim S50000x128 ![0, 1] bcast_S1x128_S50000x128_0_1
    (Host.divf
      (broadcastInDim S1x128 ![1] bcast_S128_S1x128_1
        (Host.reduceAdd x (constant S_ .f32 0x00000000#32) reducesTo_S50000x128_S128_d0 h_S_))
      (broadcastInDim S1x128 ![] bcast_S_S1x128 (constant S_ .f32 0x47435000#32))))

def denV (c : IVec S_ 32) : FVec Ideal S_ .f32 := subf (constant S_ .f32 0x47435000#32) (sitofp .f32 c)

def varV (c : IVec S_ 32) : FVec Ideal S128 .f32 :=
  select (broadcastInDim S128 ![] bcast_S_S128 (cmpf .ogt (denV c) (constant S_ .f32 0x00000000#32)))
    (Host.divf
      (Host.reduceAdd (mulf (cenV x) (cenV x)) (constant S_ .f32 0x00000000#32) reducesTo_S50000x128_S128_d0 h_S_)
      (broadcastInDim S128 ![] bcast_S_S128 (denV c)))
    (broadcastInDim S128 ![] bcast_S_S128 (id (constant S_ .f32 0x7FC00000#32)))

theorem toRow_meanV : Cert.Spec.toRow (meanV x) = Cert.Spec.mean (Cert.Spec.toMat x) := by
  funext j
  show Host.divf _ _ (ix1 j) = _
  rw [hostDivf_apply, colsum_read, broadcastInDim_scalar_apply, constant_apply]
  rfl

theorem cenV_apply (r : Fin 50000) (j : Fin 128) :
    cenV x (ix2 r j) = x (ix2 r j) - Cert.Spec.mean (Cert.Spec.toMat x) j := by
  show subf _ _ (ix2 r j) = _
  rw [subf_apply, broadcastInDim_oneRow_apply, hostDivf_apply, bc_vec_row, colsum_read, broadcastInDim_scalar_apply, constant_apply]
  rfl

theorem denV_zero : denV (constantI S_ 32 0#32) ix0 = Cert.Spec.cN := cN_sub_zero

theorem cmp_denV_zero : cmpf .ogt (denV (constantI S_ 32 0#32)) (constant S_ .f32 0x00000000#32) ix0 = 1#1 :=
  cN_sub_zero_pos

-- The divisor is the node count less zero, which is positive, so the select keeps the quotient.
theorem toRow_varV : Cert.Spec.toRow (varV x (constantI S_ 32 0#32)) = Cert.Spec.varR (Cert.Spec.toMat x) := by
  funext j
  show select _ _ _ (ix1 j) = _
  rw [select_apply, broadcastInDim_scalar_apply, cmp_denV_zero, select_one,
    hostDivf_apply, colsum_read, broadcastInDim_scalar_apply, denV_zero]
  show Ideal.div (∑ r : Fin 50000, mulf (cenV x) (cenV x) (ix2 r j)) Cert.Spec.cN = _
  refine congrArg (fun s => Ideal.div s Cert.Spec.cN) (Finset.sum_congr rfl fun r _ => ?_)
  rw [mulf_apply, cenV_apply]
  rfl

-- A line whose operations write, one each and in order, the references of W writes only references of W.
theorem writes_of_map {Val : EltTy → Type} {ops : List (HloOp τ sig Val)} {W : List (Ref sig .tc)}
    (h : ops.map HloOp.writes = W.map fun r => {Proc.devRef .tc r}) :
    ops.Forall fun op => op.writes ⊆ (W.map (Proc.devRef (τ := τ) .tc)).toFinset := by
  refine List.forall_iff_forall_mem.mpr fun op ho => ?_
  have hm := List.mem_map_of_mem (f := HloOp.writes) ho
  rw [h] at hm
  obtain ⟨r, hr, e⟩ := List.mem_map.mp hm
  rw [← e, Finset.singleton_subset_iff, List.mem_toFinset]
  exact List.mem_map_of_mem hr

variable (V : Valuation τ sig (Elt Ideal)) (r : Ref sig .tc)

attribute [local irreducible] Host.reduceAdd Host.divf broadcastInDim
set_option maxRecDepth 8192

theorem opsS0a_mean :
    Cert.Spec.toRow (after opsS0a V (main_v21 : DevRef τ sig)) = Cert.Spec.mean (Cert.Spec.toMat (V (main_v18 : DevRef τ sig))) :=
  toRow_meanV _

theorem opsS0a_var :
    Cert.Spec.toRow (after opsS0a V (main_v22 : DevRef τ sig)) = Cert.Spec.varR (Cert.Spec.toMat (V (main_v18 : DevRef τ sig))) :=
  toRow_varV _

abbrev opsS0a_W : List (Ref sig .tc) := [main_cst_1, main_v19, main_cst_2, main_v20, main_v21, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v22]

theorem opsS0a_writes : (opsS0a : List (HloOp τ sig (Elt Ideal))).Forall fun op => op.writes ⊆ (opsS0a_W.map (Proc.devRef (τ := τ) .tc)).toFinset :=
  writes_of_map rfl

theorem opsS0a_unch (h : r ∉ opsS0a_W) : after opsS0a V r = V r :=
  after_of_writes_sub opsS0a V opsS0a_writes h

theorem opsS0b_mean :
    Cert.Spec.toRow (after opsS0b V (main_v45 : DevRef τ sig)) = Cert.Spec.mean (Cert.Spec.toMat (V (main_v42 : DevRef τ sig))) :=
  toRow_meanV _

theorem opsS0b_var :
    Cert.Spec.toRow (after opsS0b V (main_v46 : DevRef τ sig)) = Cert.Spec.varR (Cert.Spec.toMat (V (main_v42 : DevRef τ sig))) :=
  toRow_varV _

abbrev opsS0b_W : List (Ref sig .tc) := [main_cst_5, main_v43, main_cst_6, main_v44, main_v45, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v46]

theorem opsS0b_writes : (opsS0b : List (HloOp τ sig (Elt Ideal))).Forall fun op => op.writes ⊆ (opsS0b_W.map (Proc.devRef (τ := τ) .tc)).toFinset :=
  writes_of_map rfl

theorem opsS0b_unch (h : r ∉ opsS0b_W) : after opsS0b V r = V r :=
  after_of_writes_sub opsS0b V opsS0b_writes h

theorem opsS1a_mean :
    Cert.Spec.toRow (after opsS1a V (main_v80 : DevRef τ sig)) = Cert.Spec.mean (Cert.Spec.toMat (V (main_v77 : DevRef τ sig))) :=
  toRow_meanV _

theorem opsS1a_var :
    Cert.Spec.toRow (after opsS1a V (main_v81 : DevRef τ sig)) = Cert.Spec.varR (Cert.Spec.toMat (V (main_v77 : DevRef τ sig))) :=
  toRow_varV _

abbrev opsS1a_W : List (Ref sig .tc) := [main_cst_12, main_v78, main_cst_13, main_v79, main_v80, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v81]

theorem opsS1a_writes : (opsS1a : List (HloOp τ sig (Elt Ideal))).Forall fun op => op.writes ⊆ (opsS1a_W.map (Proc.devRef (τ := τ) .tc)).toFinset :=
  writes_of_map rfl

theorem opsS1a_unch (h : r ∉ opsS1a_W) : after opsS1a V r = V r :=
  after_of_writes_sub opsS1a V opsS1a_writes h

theorem opsS1b_mean :
    Cert.Spec.toRow (after opsS1b V (main_v104 : DevRef τ sig)) = Cert.Spec.mean (Cert.Spec.toMat (V (main_v101 : DevRef τ sig))) :=
  toRow_meanV _

theorem opsS1b_var :
    Cert.Spec.toRow (after opsS1b V (main_v105 : DevRef τ sig)) = Cert.Spec.varR (Cert.Spec.toMat (V (main_v101 : DevRef τ sig))) :=
  toRow_varV _

abbrev opsS1b_W : List (Ref sig .tc) := [main_cst_16, main_v102, main_cst_17, main_v103, main_v104, main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v105]

theorem opsS1b_writes : (opsS1b : List (HloOp τ sig (Elt Ideal))).Forall fun op => op.writes ⊆ (opsS1b_W.map (Proc.devRef (τ := τ) .tc)).toFinset :=
  writes_of_map rfl

theorem opsS1b_unch (h : r ∉ opsS1b_W) : after opsS1b V r = V r :=
  after_of_writes_sub opsS1b V opsS1b_writes h

end Cert.ReferenceIdeal.Val

end
-- ==== Proof.Ref.ValA.lean ====
import proofs.«400309_j11605001633947_1_alg».proof.Proof.Ref.Ops
import proofs.«400309_j11605001633947_1_alg».proof.Proof.Spec
import proofs.«400309_j11605001633947_1_alg».proof.Proof.LibGatherScatter
import proofs.«400309_j11605001633947_1_alg».proof.Proof.Ref.ValS
import Idealize.ShloMosaic.Lib.StableHlo.Run
import Idealize.ShloMosaic.Lib.StableHlo.Predicate
import Idealize.ShloMosaic.Lib.ValueIdx
import Idealize.ShloMosaic.Lib.ValueLayout

noncomputable section

namespace Cert.ReferenceIdeal.Val

open Idealize.ShloMosaic Idealize.ShloMosaic.TcCoe Idealize.ShloMosaic.ValueIdx
open Idealize.ShloMosaic.StableHlo.Predicate
open Cert.ReferenceIdeal Cert.ReferenceIdeal.Gen Cert.ReferenceIdeal.Run
open Cert.LibClamp Cert.LibGatherScatter
open scoped BigOperators

theorem wrap_eq (a : BitVec 32) :
    Scalar.select (IntOp.cmpi .slt a 0#32) (IntOp.addi a 50000#32) a = if a.slt 0#32 then a + 50000#32 else a := by
  show (if BitVec.ofBool (a.slt 0#32) = 1 then a + 50000#32 else a) = _
  cases a.slt 0#32 <;> rfl

def aggOf (src dst : Fin 800000 → BitVec 32) (h : Spec.Mat 50000 128) : Spec.Mat 50000 128 :=
  fun c j => ∑ e ∈ Finset.univ.filter (fun e : Fin 800000 => (dst e).toInt = (c.val : ℤ)),
    h (clampTo 50000 (by decide) (if (src e).slt 0#32 then src e + 50000#32 else src e)) j

theorem agg_eq_aggOf (edge : Fin 2 → Fin 800000 → BitVec 32) (h : Spec.Mat 50000 128) :
    Spec.agg edge h = aggOf (edge 0) (edge 1) h := rfl

theorem edge_row (k : Fin 2) (hs : (⟨2, ![2, 800000]⟩ : Shape).Slices ![k.val, 0] ⟨2, ![1, 800000]⟩)
    (hc : (⟨2, ![1, 800000]⟩ : Shape).ShapeCasts ⟨1, ![800000]⟩) (E : IVec ⟨2, ![2, 800000]⟩ 32) :
    Spec.toIRow (shapeCast ⟨1, ![800000]⟩ (extractStridedSlice ⟨2, ![1, 800000]⟩ ![k.val, 0] E hs) hc) = Spec.toIMat E k := by
  funext e
  unfold Spec.toIRow Spec.toIMat
  rw [shapeCast_1a_a_apply, slice2_axis0_apply k.val E hs (0 : Fin 1) e k (by simp)]

theorem aggOf_apply (x : FVec Ideal ⟨2, ![50000, 128]⟩ .f32) (v1 v3 : IVec ⟨1, ![800000]⟩ 32) :
    Spec.toMat (Host.scatterAdd (F := Ideal) scatter_S50000x128_S800000x1_S800000x128_1_0_0_1
        (broadcastInDim ⟨2, ![50000, 128]⟩ ![] bcast_S_S50000x128 (constant (F := Ideal) ⟨0, ![]⟩ .f32 0x00000000#32))
        (broadcastInDim ⟨2, ![800000, 1]⟩ ![0] bcast_S800000_S800000x1_0 v3)
        (Host.gather gather_S50000x128_S800000x1_S800000x128_1_0_n_n_0_1_1128 x (broadcastInDim ⟨2, ![800000, 1]⟩ ![0] bcast_S800000_S800000x1_0
          (select (cmpi .slt v1 (broadcastInDim ⟨1, ![800000]⟩ ![] bcast_S_S800000 (constantI ⟨0, ![]⟩ 32 0#32)))
            (addi v1 (broadcastInDim ⟨1, ![800000]⟩ ![] bcast_S_S800000 (constantI ⟨0, ![]⟩ 32 50000#32))) v1))))
      = aggOf (Spec.toIRow v1) (Spec.toIRow v3) (Spec.toMat x) := by
  funext c j
  unfold Spec.toMat aggOf
  rw [scatterAdd_rows_apply scatter_S50000x128_S800000x1_S800000x128_1_0_0_1 rfl rfl rfl rfl _ _ _ c j]
  rw [broadcastInDim_scalar_apply, constant_apply, Ideal.ofBits_zero_f32, zero_add]
  have h3 : ∀ e : Fin 800000, broadcastInDim ⟨2, ![800000, 1]⟩ ![0] bcast_S800000_S800000x1_0 v3 (ixP e) = Spec.toIRow v3 e := fun e =>
    (bcast_col1 bcast_S800000_S800000x1_0 v3 e).trans (congrArg v3 (ofFin_eq_ix1 e))
  refine Finset.sum_congr (Finset.filter_congr fun e _ => by rw [h3 e]) fun e _ => ?_
  rw [gather_rows_apply (by decide) gather_S50000x128_S800000x1_S800000x128_1_0_n_n_0_1_1128 rfl rfl rfl rfl rfl x _ e j, bcast_col1 bcast_S800000_S800000x1_0 _ e, ofFin_eq_ix1]
  exact congrArg (fun w => x (ix2 (clampTo 50000 (by decide) w) j)) (wrap_eq (v1 (ix1 e)))

variable (V : Valuation τ sig (Elt Ideal)) (r : Ref sig .tc)

theorem valA0 :
    Spec.toMat (StableHlo.after (opsA0 (F := Ideal)) V main_v13 : Vec Ideal S50000x128 .f32)
      = Spec.agg (Spec.toIMat (V main_arg1 : IVec S2x800000 32)) (Spec.toMat (V main_arg0 : Vec Ideal S50000x128 .f32)) := by
  after_results
  refine (aggOf_apply _ _ _).trans ?_
  rw [agg_eq_aggOf]
  exact congrArg₂ (aggOf · · _) (edge_row 0 _ _ _) (edge_row 1 _ _ _)

theorem valA0_src :
    Spec.toIRow (StableHlo.after (opsA0 (F := Ideal)) V main_v1 : IVec S800000 32) = Spec.toIMat (V main_arg1 : IVec S2x800000 32) 0 := by
  after_results
  exact edge_row 0 _ _ _
theorem valA0_dst :
    Spec.toIRow (StableHlo.after (opsA0 (F := Ideal)) V main_v3 : IVec S800000 32) = Spec.toIMat (V main_arg1 : IVec S2x800000 32) 1 := by
  after_results
  exact edge_row 1 _ _ _

theorem valA1 :
    Spec.toMat (StableHlo.after (opsA1 (F := Ideal)) V main_v72 : Vec Ideal S50000x128 .f32)
      = aggOf (Spec.toIRow (V main_v1 : IVec S800000 32)) (Spec.toIRow (V main_v3 : IVec S800000 32))
          (Spec.toMat (V main_v62 : Vec Ideal S50000x128 .f32)) := by
  after_results
  exact aggOf_apply _ _ _

abbrev opsA0_W : List (Ref sig .tc) :=
  [main_v0, main_v1, main_v2, main_v3, main_c, main_v4, main_v5, main_c_0, main_v6, main_v7, main_v8, main_v9, main_v10,
    main_cst, main_v11, main_v12, main_v13]
theorem opsA0_writes : (opsA0 : List (HloOp τ sig (Elt Ideal))).Forall fun op =>
    op.writes ⊆ (opsA0_W.map (Proc.devRef (τ := τ) .tc)).toFinset :=
  writes_of_map rfl
theorem opsA0_unch (h : r ∉ opsA0_W) :
    StableHlo.after (opsA0 (F := Ideal)) V r = V r :=
  StableHlo.after_of_writes_sub _ V opsA0_writes h

abbrev opsA1_W : List (Ref sig .tc) :=
  [main_c_9, main_v63, main_v64, main_c_10, main_v65, main_v66, main_v67, main_v68, main_v69, main_cst_11, main_v70,
    main_v71, main_v72]
theorem opsA1_writes : (opsA1 : List (HloOp τ sig (Elt Ideal))).Forall fun op =>
    op.writes ⊆ (opsA1_W.map (Proc.devRef (τ := τ) .tc)).toFinset :=
  writes_of_map rfl
theorem opsA1_unch (h : r ∉ opsA1_W) :
    StableHlo.after (opsA1 (F := Ideal)) V r = V r :=
  StableHlo.after_of_writes_sub _ V opsA1_writes h

end Cert.ReferenceIdeal.Val

end
-- ==== Proof.Ref.ValL.lean ====
import proofs.«400309_j11605001633947_1_alg».proof.Proof.Ref.Ops
import proofs.«400309_j11605001633947_1_alg».proof.Proof.Spec
import proofs.«400309_j11605001633947_1_alg».proof.Proof.Ref.ValS
import Idealize.ShloMosaic.Lib.StableHlo.Run
import Idealize.ShloMosaic.Lib.StableHlo.Predicate
import Idealize.ShloMosaic.Lib.StackMember
import Idealize.ShloMosaic.Lib.ValueIdx

noncomputable section

namespace Cert.ReferenceIdeal.Val

open Idealize.ShloMosaic Idealize.ShloMosaic.TcCoe Idealize.ShloMosaic.ValueIdx
open Idealize.ShloMosaic.StableHlo.Predicate
open Cert.ReferenceIdeal Cert.ReferenceIdeal.Gen Cert.ReferenceIdeal.Run
open scoped BigOperators

theorem lin_apply (x : FVec Ideal S50000x128 .f32) (W : FVec Ideal S128x128 .f32) (b : FVec Ideal S128 .f32) :
    Spec.toMat (addf (Host.dotGeneral (F := Ideal) dot_S50000x128_S128x128_S50000x128_1_0_0_1_n_n none x W)
        (broadcastInDim S50000x128 ![0, 1] bcast_S1x128_S50000x128_0_1 (broadcastInDim S1x128 ![1] bcast_S128_S1x128_1 b)))
      = Spec.lin (Spec.toMat x) (Spec.toMat W) (Spec.toRow b) := by
  funext r j
  unfold Spec.toMat Spec.lin Spec.toRow
  rw [addf_apply]
  congr 1
  · exact StackMember.dotGeneral_plain_apply (m := 50000) (n := 128) (k := 128) none x W r j
  · unfold broadcastInDim
    refine congrArg b (funext fun a => ?_)
    match a with
    | ⟨0, _⟩ => rfl

variable (V : Valuation τ sig (Elt Ideal)) (r : Ref sig .tc)

theorem valL0a :
    Spec.toMat (StableHlo.after (opsL0a (F := Ideal)) V main_v18 : Vec Ideal S50000x128 .f32)
      = Spec.lin (fun r j => Spec.toMat (V main_arg0 : Vec Ideal S50000x128 .f32) r j + Spec.toMat (V main_v13 : Vec Ideal S50000x128 .f32) r j)
          (Spec.toMat (V main_arg3 : Vec Ideal S128x128 .f32)) (Spec.toRow (V main_arg4 : Vec Ideal S128 .f32)) := by
  after_results
  exact lin_apply _ _ _

theorem valL0b :
    Spec.toMat (StableHlo.after (opsL0b (F := Ideal)) V main_v42 : Vec Ideal S50000x128 .f32)
      = Spec.lin (Spec.toMat (V main_v38 : Vec Ideal S50000x128 .f32))
          (Spec.toMat (V main_arg7 : Vec Ideal S128x128 .f32)) (Spec.toRow (V main_arg8 : Vec Ideal S128 .f32)) := by
  after_results
  exact lin_apply _ _ _

theorem valL1a :
    Spec.toMat (StableHlo.after (opsL1a (F := Ideal)) V main_v77 : Vec Ideal S50000x128 .f32)
      = Spec.lin (fun r j => Spec.toMat (V main_v62 : Vec Ideal S50000x128 .f32) r j + Spec.toMat (V main_v72 : Vec Ideal S50000x128 .f32) r j)
          (Spec.toMat (V main_arg11 : Vec Ideal S128x128 .f32)) (Spec.toRow (V main_arg12 : Vec Ideal S128 .f32)) := by
  after_results
  exact lin_apply _ _ _

theorem valL1b :
    Spec.toMat (StableHlo.after (opsL1b (F := Ideal)) V main_v101 : Vec Ideal S50000x128 .f32)
      = Spec.lin (Spec.toMat (V main_v97 : Vec Ideal S50000x128 .f32))
          (Spec.toMat (V main_arg15 : Vec Ideal S128x128 .f32)) (Spec.toRow (V main_arg16 : Vec Ideal S128 .f32)) := by
  after_results
  exact lin_apply _ _ _

abbrev opsL0a_W : List (Ref sig .tc) := [main_v14, main_v15, main_v16, main_v17, main_v18]
theorem opsL0a_writes : (opsL0a : List (HloOp τ sig (Elt Ideal))).Forall fun op => op.writes ⊆ ((opsL0a_W).map (Proc.devRef (τ := τ) .tc)).toFinset :=
  writes_of_map rfl
theorem opsL0a_unch (h : r ∉ opsL0a_W) :
    StableHlo.after (opsL0a (F := Ideal)) V r = V r :=
  StableHlo.after_of_writes_sub _ V opsL0a_writes h

abbrev opsL0b_W : List (Ref sig .tc) := [main_v39, main_v40, main_v41, main_v42]
theorem opsL0b_writes : (opsL0b : List (HloOp τ sig (Elt Ideal))).Forall fun op => op.writes ⊆ ((opsL0b_W).map (Proc.devRef (τ := τ) .tc)).toFinset :=
  writes_of_map rfl
theorem opsL0b_unch (h : r ∉ opsL0b_W) :
    StableHlo.after (opsL0b (F := Ideal)) V r = V r :=
  StableHlo.after_of_writes_sub _ V opsL0b_writes h

abbrev opsL1a_W : List (Ref sig .tc) := [main_v73, main_v74, main_v75, main_v76, main_v77]
theorem opsL1a_writes : (opsL1a : List (HloOp τ sig (Elt Ideal))).Forall fun op => op.writes ⊆ ((opsL1a_W).map (Proc.devRef (τ := τ) .tc)).toFinset :=
  writes_of_map rfl
theorem opsL1a_unch (h : r ∉ opsL1a_W) :
    StableHlo.after (opsL1a (F := Ideal)) V r = V r :=
  StableHlo.after_of_writes_sub _ V opsL1a_writes h

abbrev opsL1b_W : List (Ref sig .tc) := [main_v98, main_v99, main_v100, main_v101]
theorem opsL1b_writes : (opsL1b : List (HloOp τ sig (Elt Ideal))).Forall fun op => op.writes ⊆ ((opsL1b_W).map (Proc.devRef (τ := τ) .tc)).toFinset :=
  writes_of_map rfl
theorem opsL1b_unch (h : r ∉ opsL1b_W) :
    StableHlo.after (opsL1b (F := Ideal)) V r = V r :=
  StableHlo.after_of_writes_sub _ V opsL1b_writes h

end Cert.ReferenceIdeal.Val

end
-- ==== Proof.Ref.ValP.lean ====
import proofs.«400309_j11605001633947_1_alg».proof.Proof.Ref.Ops
import proofs.«400309_j11605001633947_1_alg».proof.Proof.Spec
import proofs.«400309_j11605001633947_1_alg».proof.Proof.LibGatherScatter
import proofs.«400309_j11605001633947_1_alg».proof.Proof.Ref.ValS
import Idealize.ShloMosaic.Lib.StableHlo.Run
import Idealize.ShloMosaic.Lib.StableHlo.Predicate
import Idealize.ShloMosaic.Lib.ValueIdx
import Idealize.ShloMosaic.Lib.Pipeline.Value

noncomputable section

namespace Cert.ReferenceIdeal.Val

open Idealize.ShloMosaic Idealize.ShloMosaic.TcCoe Idealize.ShloMosaic.ValueIdx
open Idealize.ShloMosaic.StableHlo.Predicate
open Cert.ReferenceIdeal Cert.ReferenceIdeal.Gen Cert.ReferenceIdeal.Run
open Cert.LibClamp Cert.LibGatherScatter
open scoped BigOperators

theorem pool_apply (ids : IVec ⟨1, ![50000]⟩ 32) (x : FVec Ideal ⟨2, ![50000, 128]⟩ .f32) :
    Spec.toMat (Host.scatterAdd (F := Ideal) scatter_S100x128_S50000x1_S50000x128_1_0_0_1
        (broadcastInDim ⟨2, ![100, 128]⟩ ![] bcast_S_S100x128 (constant (F := Ideal) ⟨0, ![]⟩ .f32 0x00000000#32))
        (broadcastInDim ⟨2, ![50000, 1]⟩ ![0] bcast_S50000_S50000x1_0 ids) x)
      = Spec.pool (Spec.toIRow ids) (Spec.toMat x) := by
  funext g j
  unfold Spec.toMat Spec.pool
  rw [scatterAdd_rows_apply scatter_S100x128_S50000x1_S50000x128_1_0_0_1 rfl rfl rfl rfl _ _ _ g j]
  rw [broadcastInDim_scalar_apply, constant_apply, Ideal.ofBits_zero_f32, zero_add]
  have h3 : ∀ r : Fin 50000, broadcastInDim ⟨2, ![50000, 1]⟩ ![0] bcast_S50000_S50000x1_0 ids (ixP r) = Spec.toIRow ids r := fun r =>
    (bcast_col1 bcast_S50000_S50000x1_0 ids r).trans (congrArg ids (ofFin_eq_ix1 r))
  exact Finset.sum_congr (Finset.filter_congr fun r _ => by rw [h3 r]) fun r _ => rfl

theorem cat_apply (p q : FVec Ideal ⟨2, ![100, 128]⟩ .f32) :
    Spec.toMat (concatenate (⟨2, ![100, 256]⟩ : Shape) 1 [⟨⟨2, ![100, 128]⟩, p⟩, ⟨⟨2, ![100, 128]⟩, q⟩] concatenates_S100x128_S100x128_S100x256_d1)
      = Spec.cat (Spec.toMat p) (Spec.toMat q) := by
  funext g j
  unfold Spec.toMat Spec.cat
  by_cases hj : j.val < 128
  · rw [dif_pos hj]
    refine concatenate_pair_apply_left (1 : Fin 2) p q concatenates_S100x128_S100x128_S100x256_d1 (ix2 g j) rfl (ix2 g ⟨j.val, hj⟩) fun b => ?_
    match b with
    | ⟨0, _⟩ => rfl
    | ⟨1, _⟩ => rfl
  · rw [dif_neg hj]
    have hj' : j.val - 128 < 128 := by have := j.isLt; omega
    refine concatenate_pair_apply_right (1 : Fin 2) p q concatenates_S100x128_S100x128_S100x256_d1 (ix2 g j) rfl rfl (ix2 g ⟨j.val - 128, hj'⟩) (fun b hb => ?_) ?_
    · match b with
      | ⟨0, _⟩ => rfl
      | ⟨1, _⟩ => exact absurd rfl hb
    · show (j.val - 128) + 128 = j.val
      omega

variable (V : Valuation τ sig (Elt Ideal)) (r : Ref sig .tc)

theorem valP :
    Spec.toMat (StableHlo.after (opsP (F := Ideal)) V main_v128 : Vec Ideal S100x256 .f32)
      = Spec.cat (Spec.pool (Spec.toIRow (V main_arg2 : IVec S50000 32)) (Spec.toMat (V main_v62 : Vec Ideal S50000x128 .f32)))
          (Spec.pool (Spec.toIRow (V main_arg2 : IVec S50000 32)) (Spec.toMat (V main_v121 : Vec Ideal S50000x128 .f32))) := by
  after_results
  exact (cat_apply _ _).trans (congrArg₂ Spec.cat
    (pool_apply _ _)
    (pool_apply _ _))

abbrev opsP_W : List (Ref sig .tc) :=
  [main_cst_20, main_v122, main_v123, main_v124, main_cst_21, main_v125, main_v126, main_v127, main_v128]
theorem opsP_writes : (opsP : List (HloOp τ sig (Elt Ideal))).Forall fun op =>
    op.writes ⊆ (opsP_W.map (Proc.devRef (τ := τ) .tc)).toFinset :=
  writes_of_map rfl
theorem opsP_unch (h : r ∉ opsP_W) :
    StableHlo.after (opsP (F := Ideal)) V r = V r :=
  StableHlo.after_of_writes_sub _ V opsP_writes h

end Cert.ReferenceIdeal.Val

end
-- ==== Proof.Ref.ValN.lean ====
import proofs.«400309_j11605001633947_1_alg».proof.Proof.Ref.Ops
import proofs.«400309_j11605001633947_1_alg».proof.Proof.Spec
import proofs.«400309_j11605001633947_1_alg».proof.Proof.Ref.ValS
import Idealize.ShloMosaic.Lib.StableHlo.Run
import Idealize.ShloMosaic.Lib.IdealHost
import Idealize.ShloMosaic.Lib.ValueIdx
import Idealize.ShloMosaic.PureOps.Ideal
import Idealize.ShloMosaic.PureOps.Ideal.Laws

noncomputable section

namespace Cert.ReferenceIdeal.Val

open Idealize.ShloMosaic Idealize.ShloMosaic.StableHlo Idealize.SL.Sem Idealize.ShloMosaic.ValueIdx Idealize.ShloMosaic.TcCoe
open Cert.ReferenceIdeal Cert.ReferenceIdeal.Gen Cert.ReferenceIdeal.Run
open scoped BigOperators

def rowsV {α : Type} (w : S128.Idx → α) : S50000x128.Idx → α :=
  broadcastInDim S50000x128 ![0, 1] bcast_S1x128_S50000x128_0_1 (broadcastInDim S1x128 ![1] bcast_S128_S1x128_1 w)

theorem rowsV_apply {α : Type} (w : S128.Idx → α) (r : Fin 50000) (j : Fin 128) : rowsV w (ix2 r j) = w (ix1 j) := by
  unfold rowsV broadcastInDim
  refine congrArg w (funext fun a => ?_)
  match a with
  | ⟨0, _⟩ => rfl

def normV (x : FVec Ideal S50000x128 .f32) (mu v g be : FVec Ideal S128 .f32) : FVec Ideal S50000x128 .f32 :=
  maximumf
    (addf
      (Host.divf (mulf (rowsV g) (subf x (rowsV mu)))
        (rowsV (Host.sqrt (addf v (broadcastInDim S128 ![] bcast_S_S128 (constant S_ .f32 0x3727C5AC#32))))))
      (rowsV be))
    (broadcastInDim S50000x128 ![] bcast_S_S50000x128 (constant S_ .f32 0x00000000#32))

theorem toMat_normV (x : FVec Ideal S50000x128 .f32) (mu v g be : FVec Ideal S128 .f32) :
    Cert.Spec.toMat (normV x mu v g be)
      = Cert.Spec.normR (Cert.Spec.toMat x) (Cert.Spec.toRow mu) (Cert.Spec.toRow v) (Cert.Spec.toRow g) (Cert.Spec.toRow be) := by
  funext r j
  show maximumf _ _ (ix2 r j) = _
  rw [maximumf_apply, addf_apply, hostDivf_apply, mulf_apply, subf_apply, rowsV_apply g, rowsV_apply mu, rowsV_apply be,
    rowsV_apply (Host.sqrt _), broadcastInDim_scalar_apply, constant_apply, Ideal.ofBits_zero_f32]
  rfl

variable (V : Valuation τ sig (Elt Ideal)) (r : Ref sig .tc)

attribute [local irreducible] Host.divf Host.sqrt broadcastInDim
set_option maxRecDepth 8192

theorem opsN0a_val :
    Cert.Spec.toMat (after opsN0a V (main_v38 : DevRef τ sig))
      = Cert.Spec.normR (Cert.Spec.toMat (V (main_v18 : DevRef τ sig))) (Cert.Spec.toRow (V (main_v21 : DevRef τ sig)))
          (Cert.Spec.toRow (V (main_v22 : DevRef τ sig))) (Cert.Spec.toRow (V (main_arg5 : DevRef τ sig)))
          (Cert.Spec.toRow (V (main_arg6 : DevRef τ sig))) :=
  toMat_normV _ _ _ _ _

abbrev opsN0a_W : List (Ref sig .tc) := [main_v23, main_v24, main_v25, main_v26, main_v27, main_v28, main_cst_4, main_v29, main_v30, main_v31, main_v32, main_v33, main_v34, main_v35, main_v36, main_v37, main_call1_cst, main_call1_v0, main_v38]

theorem opsN0a_writes : (opsN0a : List (HloOp τ sig (Elt Ideal))).Forall fun op => op.writes ⊆ (opsN0a_W.map (Proc.devRef (τ := τ) .tc)).toFinset :=
  writes_of_map rfl

theorem opsN0a_unch (h : r ∉ opsN0a_W) : StableHlo.after opsN0a V r = V r :=
  after_of_writes_sub _ V opsN0a_writes h

theorem opsN0b_val :
    Cert.Spec.toMat (after opsN0b V (main_v62 : DevRef τ sig))
      = Cert.Spec.normR (Cert.Spec.toMat (V (main_v42 : DevRef τ sig))) (Cert.Spec.toRow (V (main_v45 : DevRef τ sig)))
          (Cert.Spec.toRow (V (main_v46 : DevRef τ sig))) (Cert.Spec.toRow (V (main_arg9 : DevRef τ sig)))
          (Cert.Spec.toRow (V (main_arg10 : DevRef τ sig))) :=
  toMat_normV _ _ _ _ _

abbrev opsN0b_W : List (Ref sig .tc) := [main_v47, main_v48, main_v49, main_v50, main_v51, main_v52, main_cst_8, main_v53, main_v54, main_v55, main_v56, main_v57, main_v58, main_v59, main_v60, main_v61, main_call3_cst, main_call3_v0, main_v62]

theorem opsN0b_writes : (opsN0b : List (HloOp τ sig (Elt Ideal))).Forall fun op => op.writes ⊆ (opsN0b_W.map (Proc.devRef (τ := τ) .tc)).toFinset :=
  writes_of_map rfl

theorem opsN0b_unch (h : r ∉ opsN0b_W) : StableHlo.after opsN0b V r = V r :=
  after_of_writes_sub _ V opsN0b_writes h

theorem opsN1a_val :
    Cert.Spec.toMat (after opsN1a V (main_v97 : DevRef τ sig))
      = Cert.Spec.normR (Cert.Spec.toMat (V (main_v77 : DevRef τ sig))) (Cert.Spec.toRow (V (main_v80 : DevRef τ sig)))
          (Cert.Spec.toRow (V (main_v81 : DevRef τ sig))) (Cert.Spec.toRow (V (main_arg13 : DevRef τ sig)))
          (Cert.Spec.toRow (V (main_arg14 : DevRef τ sig))) :=
  toMat_normV _ _ _ _ _

abbrev opsN1a_W : List (Ref sig .tc) := [main_v82, main_v83, main_v84, main_v85, main_v86, main_v87, main_cst_15, main_v88, main_v89, main_v90, main_v91, main_v92, main_v93, main_v94, main_v95, main_v96, main_call5_cst, main_call5_v0, main_v97]

theorem opsN1a_writes : (opsN1a : List (HloOp τ sig (Elt Ideal))).Forall fun op => op.writes ⊆ (opsN1a_W.map (Proc.devRef (τ := τ) .tc)).toFinset :=
  writes_of_map rfl

theorem opsN1a_unch (h : r ∉ opsN1a_W) : StableHlo.after opsN1a V r = V r :=
  after_of_writes_sub _ V opsN1a_writes h

theorem opsN1b_val :
    Cert.Spec.toMat (after opsN1b V (main_v121 : DevRef τ sig))
      = Cert.Spec.normR (Cert.Spec.toMat (V (main_v101 : DevRef τ sig))) (Cert.Spec.toRow (V (main_v104 : DevRef τ sig)))
          (Cert.Spec.toRow (V (main_v105 : DevRef τ sig))) (Cert.Spec.toRow (V (main_arg17 : DevRef τ sig)))
          (Cert.Spec.toRow (V (main_arg18 : DevRef τ sig))) :=
  toMat_normV _ _ _ _ _

abbrev opsN1b_W : List (Ref sig .tc) := [main_v106, main_v107, main_v108, main_v109, main_v110, main_v111, main_cst_19, main_v112, main_v113, main_v114, main_v115, main_v116, main_v117, main_v118, main_v119, main_v120, main_call7_cst, main_call7_v0, main_v121]

theorem opsN1b_writes : (opsN1b : List (HloOp τ sig (Elt Ideal))).Forall fun op => op.writes ⊆ (opsN1b_W.map (Proc.devRef (τ := τ) .tc)).toFinset :=
  writes_of_map rfl

theorem opsN1b_unch (h : r ∉ opsN1b_W) : StableHlo.after opsN1b V r = V r :=
  after_of_writes_sub _ V opsN1b_writes h

end Cert.ReferenceIdeal.Val

end
-- ==== Proof.Ref.Value.lean ====
import proofs.«400309_j11605001633947_1_alg».proof.Proof.Ref.ValA
import proofs.«400309_j11605001633947_1_alg».proof.Proof.Ref.ValL
import proofs.«400309_j11605001633947_1_alg».proof.Proof.Ref.ValP
import proofs.«400309_j11605001633947_1_alg».proof.Proof.Ref.ValS
import proofs.«400309_j11605001633947_1_alg».proof.Proof.Ref.ValN

noncomputable section

namespace Cert.ReferenceIdeal.Val

open Idealize.ShloMosaic Idealize.ShloMosaic.TcCoe Idealize.ShloMosaic.ValueIdx
open Cert.ReferenceIdeal Cert.ReferenceIdeal.Gen Cert.ReferenceIdeal.Run

theorem after_concat (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

abbrev Kept (r : Ref sig .tc) : Prop :=
  r ∉ opsA0_W ∧ r ∉ opsL0a_W ∧ r ∉ opsS0a_W ∧ r ∉ opsN0a_W ∧ r ∉ opsL0b_W ∧ r ∉ opsS0b_W ∧ r ∉ opsN0b_W ∧
  r ∉ opsA1_W ∧ r ∉ opsL1a_W ∧ r ∉ opsS1a_W ∧ r ∉ opsN1a_W ∧ r ∉ opsL1b_W ∧ r ∉ opsS1b_W ∧ r ∉ opsN1b_W

section Chain

variable (V : Valuation τ sig (Elt Ideal))

local notation "𝕍01" => StableHlo.after (opsA0 (F := Ideal)) V
local notation "𝕍02" => StableHlo.after (opsL0a (F := Ideal)) 𝕍01
local notation "𝕍03" => StableHlo.after (opsS0a (F := Ideal)) 𝕍02
local notation "𝕍04" => StableHlo.after (opsN0a (F := Ideal)) 𝕍03
local notation "𝕍05" => StableHlo.after (opsL0b (F := Ideal)) 𝕍04
local notation "𝕍06" => StableHlo.after (opsS0b (F := Ideal)) 𝕍05
local notation "𝕍07" => StableHlo.after (opsN0b (F := Ideal)) 𝕍06
local notation "𝕍08" => StableHlo.after (opsA1 (F := Ideal)) 𝕍07
local notation "𝕍09" => StableHlo.after (opsL1a (F := Ideal)) 𝕍08
local notation "𝕍10" => StableHlo.after (opsS1a (F := Ideal)) 𝕍09
local notation "𝕍11" => StableHlo.after (opsN1a (F := Ideal)) 𝕍10
local notation "𝕍12" => StableHlo.after (opsL1b (F := Ideal)) 𝕍11
local notation "𝕍13" => StableHlo.after (opsS1b (F := Ideal)) 𝕍12
local notation "𝕍14" => StableHlo.after (opsN1b (F := Ideal)) 𝕍13

section
variable (r : Ref sig .tc) (h : Kept r)
include h

theorem kept01 : 𝕍01 r = V r := opsA0_unch V r h.1
theorem kept02 : 𝕍02 r = V r := (opsL0a_unch _ r h.2.1).trans (kept01 V r h)
theorem kept03 : 𝕍03 r = V r := (opsS0a_unch _ r h.2.2.1).trans (kept02 V r h)
theorem kept04 : 𝕍04 r = V r := (opsN0a_unch _ r h.2.2.2.1).trans (kept03 V r h)
theorem kept05 : 𝕍05 r = V r := (opsL0b_unch _ r h.2.2.2.2.1).trans (kept04 V r h)
theorem kept06 : 𝕍06 r = V r := (opsS0b_unch _ r h.2.2.2.2.2.1).trans (kept05 V r h)
theorem kept07 : 𝕍07 r = V r := (opsN0b_unch _ r h.2.2.2.2.2.2.1).trans (kept06 V r h)
theorem kept08 : 𝕍08 r = V r := (opsA1_unch _ r h.2.2.2.2.2.2.2.1).trans (kept07 V r h)
theorem kept09 : 𝕍09 r = V r := (opsL1a_unch _ r h.2.2.2.2.2.2.2.2.1).trans (kept08 V r h)
theorem kept10 : 𝕍10 r = V r := (opsS1a_unch _ r h.2.2.2.2.2.2.2.2.2.1).trans (kept09 V r h)
theorem kept11 : 𝕍11 r = V r := (opsN1a_unch _ r h.2.2.2.2.2.2.2.2.2.2.1).trans (kept10 V r h)
theorem kept12 : 𝕍12 r = V r := (opsL1b_unch _ r h.2.2.2.2.2.2.2.2.2.2.2.1).trans (kept11 V r h)
theorem kept13 : 𝕍13 r = V r := (opsS1b_unch _ r h.2.2.2.2.2.2.2.2.2.2.2.2.1).trans (kept12 V r h)
theorem kept14 : 𝕍14 r = V r := (opsN1b_unch _ r h.2.2.2.2.2.2.2.2.2.2.2.2.2).trans (kept13 V r h)

end

local notation "ℰ" => Spec.toIMat (V main_arg1 : IVec S2x800000 32)
local notation "𝒳" => Spec.toMat (V main_arg0 : Vec Ideal S50000x128 EltTy.f32)
local notation "ℙ0" => Spec.Params.mk
  (Spec.toMat (V main_arg3 : Vec Ideal S128x128 EltTy.f32)) (Spec.toRow (V main_arg4 : Vec Ideal S128 EltTy.f32))
  (Spec.toRow (V main_arg5 : Vec Ideal S128 EltTy.f32)) (Spec.toRow (V main_arg6 : Vec Ideal S128 EltTy.f32))
  (Spec.toMat (V main_arg7 : Vec Ideal S128x128 EltTy.f32)) (Spec.toRow (V main_arg8 : Vec Ideal S128 EltTy.f32))
  (Spec.toRow (V main_arg9 : Vec Ideal S128 EltTy.f32)) (Spec.toRow (V main_arg10 : Vec Ideal S128 EltTy.f32))
local notation "ℙ1" => Spec.Params.mk
  (Spec.toMat (V main_arg11 : Vec Ideal S128x128 EltTy.f32)) (Spec.toRow (V main_arg12 : Vec Ideal S128 EltTy.f32))
  (Spec.toRow (V main_arg13 : Vec Ideal S128 EltTy.f32)) (Spec.toRow (V main_arg14 : Vec Ideal S128 EltTy.f32))
  (Spec.toMat (V main_arg15 : Vec Ideal S128x128 EltTy.f32)) (Spec.toRow (V main_arg16 : Vec Ideal S128 EltTy.f32))
  (Spec.toRow (V main_arg17 : Vec Ideal S128 EltTy.f32)) (Spec.toRow (V main_arg18 : Vec Ideal S128 EltTy.f32))
local notation "𝒴1" => Spec.lin (fun r j => 𝒳 r j + Spec.agg ℰ 𝒳 r j)
  (Spec.Params.W1 ℙ0) (Spec.Params.b1 ℙ0)
local notation "𝒵1" => Spec.bnR 𝒴1
  (Spec.Params.g1 ℙ0) (Spec.Params.be1 ℙ0)
local notation "𝒴2" => Spec.lin 𝒵1
  (Spec.Params.W2 ℙ0) (Spec.Params.b2 ℙ0)
local notation "ℋ1" => Spec.layerR ℰ ℙ0 𝒳
local notation "𝒴3" => Spec.lin (fun r j => ℋ1 r j + Spec.agg ℰ ℋ1 r j)
  (Spec.Params.W1 ℙ1) (Spec.Params.b1 ℙ1)
local notation "𝒵3" => Spec.bnR 𝒴3
  (Spec.Params.g1 ℙ1) (Spec.Params.be1 ℙ1)
local notation "𝒴4" => Spec.lin 𝒵3
  (Spec.Params.W2 ℙ1) (Spec.Params.b2 ℙ1)
local notation "ℋ2" => Spec.layerR ℰ ℙ1 ℋ1

theorem s01 : Spec.toMat (𝕍01 main_v13 : Vec Ideal S50000x128 EltTy.f32) = Spec.agg ℰ 𝒳 := valA0 V
theorem s01s : Spec.toIRow (𝕍01 main_v1 : IVec S800000 32) = ℰ 0 := valA0_src V
theorem s01d : Spec.toIRow (𝕍01 main_v3 : IVec S800000 32) = ℰ 1 := valA0_dst V

theorem s02 : Spec.toMat (𝕍02 main_v18 : Vec Ideal S50000x128 EltTy.f32) = 𝒴1 := by
  rw [valL0a, s01 V, kept01 V main_arg0 (by decide), kept01 V main_arg3 (by decide), kept01 V main_arg4 (by decide)]

theorem s04 : Spec.toMat (𝕍04 main_v38 : Vec Ideal S50000x128 EltTy.f32) = 𝒵1 := by
  rw [opsN0a_val, opsS0a_mean, opsS0a_var, opsS0a_unch _ main_v18 (by decide), s02 V,
    kept03 V main_arg5 (by decide), kept03 V main_arg6 (by decide)]
  rfl

theorem s05 : Spec.toMat (𝕍05 main_v42 : Vec Ideal S50000x128 EltTy.f32) = 𝒴2 := by
  rw [valL0b, s04 V, kept04 V main_arg7 (by decide), kept04 V main_arg8 (by decide)]

theorem s07 : Spec.toMat (𝕍07 main_v62 : Vec Ideal S50000x128 EltTy.f32) = ℋ1 := by
  rw [opsN0b_val, opsS0b_mean, opsS0b_var, opsS0b_unch _ main_v42 (by decide), s05 V,
    kept06 V main_arg9 (by decide), kept06 V main_arg10 (by decide)]
  rfl

theorem s07s : Spec.toIRow (𝕍07 main_v1 : IVec S800000 32) = ℰ 0 := by
  rw [opsN0b_unch _ main_v1 (by decide), opsS0b_unch _ main_v1 (by decide), opsL0b_unch _ main_v1 (by decide),
    opsN0a_unch _ main_v1 (by decide), opsS0a_unch _ main_v1 (by decide), opsL0a_unch _ main_v1 (by decide), s01s V]
theorem s07d : Spec.toIRow (𝕍07 main_v3 : IVec S800000 32) = ℰ 1 := by
  rw [opsN0b_unch _ main_v3 (by decide), opsS0b_unch _ main_v3 (by decide), opsL0b_unch _ main_v3 (by decide),
    opsN0a_unch _ main_v3 (by decide), opsS0a_unch _ main_v3 (by decide), opsL0a_unch _ main_v3 (by decide), s01d V]

theorem s08 : Spec.toMat (𝕍08 main_v72 : Vec Ideal S50000x128 EltTy.f32) = Spec.agg ℰ ℋ1 := by
  rw [valA1, s07s V, s07d V, s07 V]
  exact (agg_eq_aggOf _ _).symm

theorem s09 : Spec.toMat (𝕍09 main_v77 : Vec Ideal S50000x128 EltTy.f32) = 𝒴3 := by
  rw [valL1a, s08 V, opsA1_unch _ main_v62 (by decide), s07 V,
    kept08 V main_arg11 (by decide), kept08 V main_arg12 (by decide)]

theorem s11 : Spec.toMat (𝕍11 main_v97 : Vec Ideal S50000x128 EltTy.f32) = 𝒵3 := by
  rw [opsN1a_val, opsS1a_mean, opsS1a_var, opsS1a_unch _ main_v77 (by decide), s09 V,
    kept10 V main_arg13 (by decide), kept10 V main_arg14 (by decide)]
  rfl

theorem s12 : Spec.toMat (𝕍12 main_v101 : Vec Ideal S50000x128 EltTy.f32) = 𝒴4 := by
  rw [valL1b, s11 V, kept11 V main_arg15 (by decide), kept11 V main_arg16 (by decide)]

theorem s14 : Spec.toMat (𝕍14 main_v121 : Vec Ideal S50000x128 EltTy.f32) = ℋ2 := by
  rw [opsN1b_val, opsS1b_mean, opsS1b_var, opsS1b_unch _ main_v101 (by decide), s12 V,
    kept13 V main_arg17 (by decide), kept13 V main_arg18 (by decide)]
  rfl

theorem s14h : Spec.toMat (𝕍14 main_v62 : Vec Ideal S50000x128 EltTy.f32) = ℋ1 := by
  rw [opsN1b_unch _ main_v62 (by decide), opsS1b_unch _ main_v62 (by decide), opsL1b_unch _ main_v62 (by decide),
    opsN1a_unch _ main_v62 (by decide), opsS1a_unch _ main_v62 (by decide), opsL1a_unch _ main_v62 (by decide),
    opsA1_unch _ main_v62 (by decide), s07 V]

theorem after_ops : StableHlo.after (ops (F := Ideal)) V = StableHlo.after (opsP (F := Ideal)) 𝕍14 := by
  show StableHlo.after (opsA0 ++ opsL0a ++ opsS0a ++ opsN0a ++ opsL0b ++ opsS0b ++ opsN0b ++ opsA1 ++ opsL1a ++ opsS1a
    ++ opsN1a ++ opsL1b ++ opsS1b ++ opsN1b ++ opsP) V = _
  simp only [after_concat]

theorem out_val :
    Spec.toMat (StableHlo.after (ops (F := Ideal)) V main_v128 : Vec Ideal S100x256 EltTy.f32)
      = Spec.outR ℰ (Spec.toIRow (V main_arg2 : IVec S50000 32)) ℙ0 ℙ1 𝒳 := by
  rw [after_ops V, valP, s14h V, s14 V, kept14 V main_arg2 (by decide)]
  rfl

end Chain

end Cert.ReferenceIdeal.Val

end
-- ==== Proof.Math.lean ====
import Mathlib.Analysis.Real.Sqrt
import Mathlib.Data.EReal.Basic
import Mathlib.Algebra.BigOperators.Ring.Finset
import Mathlib.Algebra.Order.BigOperators.Ring.Finset
import proofs.«400309_j11605001633947_1_alg».proof.Proof.Spec

noncomputable section

namespace Cert.Math

open Idealize.ShloMosaic Cert.Spec
open scoped BigOperators

theorem cN_eq : cN = ((50000 : ℝ) : EReal) := by
  simp [cN, Ideal.ofBits, Ideal.ieee, -EReal.coe_mul]; norm_num

theorem cEps_eq : cEps = (((10995116 : ℝ) * (2 : ℝ) ^ (-40 : ℤ) : ℝ) : EReal) := by
  simp [cEps, Ideal.ofBits, Ideal.ieee, -EReal.coe_mul]

theorem cEps_pos : ∃ e : ℝ, 0 < e ∧ cEps = (e : EReal) :=
  ⟨_, by positivity, cEps_eq⟩

theorem N_ne : (50000 : ℝ) ≠ 0 := by norm_num

theorem div_cN (x : EReal) : Ideal.div x cN = x * ((1 / 50000 : ℝ) : EReal) := by
  rw [cN_eq, Ideal.div_coe N_ne]

def IsR (x : EReal) : Prop := ∃ a : ℝ, x = (a : EReal)

theorem IsR.coe (a : ℝ) : IsR (a : EReal) := ⟨a, rfl⟩

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases le_total x y with h | h
  · rw [max_eq_right h]; exact hy
  · rw [max_eq_left h]; exact hx

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h _ (Finset.mem_insert_self _ _)).add (ih fun i hi => h i (Finset.mem_insert_of_mem hi))

theorem IsR.divN {x : EReal} (hx : IsR x) : IsR (Ideal.div x cN) := by
  rw [div_cN]; exact hx.mul (IsR.coe _)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_dev_sq (a : Fin 50000 → ℝ) (c : ℝ) :
    ∑ r, (a r - c) * (a r - c) = (∑ r, a r * a r) - 2 * c * (∑ r, a r) + 50000 * (c * c) := by
  have h : ∀ r, (a r - c) * (a r - c) = a r * a r - 2 * c * a r + c * c := fun r => by ring
  simp only [h, Finset.sum_add_distrib, Finset.sum_sub_distrib, ← Finset.mul_sum, Finset.sum_const, Finset.card_univ,
    Fintype.card_fin, nsmul_eq_mul]
  push_cast
  ring

theorem var_real_nonneg (a : Fin 50000 → ℝ) (c : ℝ) : 0 ≤ (∑ r, (a r - c) * (a r - c)) * (1 / 50000) :=
  mul_nonneg (Finset.sum_nonneg fun r _ => mul_self_nonneg _) (by norm_num)

theorem varK_eq_varR {m : ℕ} (x : Mat 50000 m) (hx : IsRealM x) : varK x = varR x := by
  have hx' : ∀ r j, ∃ a : ℝ, x r j = (a : EReal) := hx
  choose a ha using hx'
  funext j
  simp only [varK, varR, mean, colsum, Spec.sq, ha, div_cN]
  simp only [← EReal.coe_mul, ← coe_sum, ← EReal.coe_sub]
  rw [sum_dev_sq]
  refine congrArg (fun t : ℝ => (t : EReal)) ?_
  ring

theorem var_add_eps_pos {m : ℕ} (x : Mat 50000 m) (hx : IsRealM x) (j : Fin m) :
    ∃ y : ℝ, 0 < y ∧ varR x j + cEps = (y : EReal) := by
  have hx' : ∀ r j, ∃ a : ℝ, x r j = (a : EReal) := hx
  choose a ha using hx'
  obtain ⟨e, he, hE⟩ := cEps_pos
  refine ⟨(∑ r, (a r j - (∑ r, a r j) * (1 / 50000)) * (a r j - (∑ r, a r j) * (1 / 50000))) * (1 / 50000) + e, ?_, ?_⟩
  · exact add_pos_of_nonneg_of_pos (var_real_nonneg _ _) he
  · simp only [varR, mean, colsum, ha, div_cN, hE]
    simp only [← EReal.coe_mul, ← coe_sum, ← EReal.coe_sub, ← EReal.coe_add]

theorem normK_eq_normR {n m : ℕ} (x : Mat n m) (mu v g be : Row m)
    (hv : ∀ j, ∃ y : ℝ, 0 < y ∧ v j + cEps = (y : EReal)) : normK x mu v g be = normR x mu v g be := by
  funext r j
  obtain ⟨y, hy, hY⟩ := hv j
  have hs : Real.sqrt y ≠ 0 := (Real.sqrt_pos.mpr hy).ne'
  simp only [normK, normR, hY, Ideal.rsqrt_coe, Ideal.sqrt_coe, if_neg (not_lt.mpr hy.le), if_neg hy.ne',
    Ideal.div_coe hs, one_div]

theorem bnK_eq_bnR {m : ℕ} (x : Mat 50000 m) (g be : Row m) (hx : IsRealM x) : bnK x g be = bnR x g be := by
  rw [bnK, bnR, varK_eq_varR x hx]
  exact normK_eq_normR x (mean x) (varR x) g be (var_add_eps_pos x hx)

theorem isReal_mean {m : ℕ} (x : Mat 50000 m) (hx : IsRealM x) (j : Fin m) : IsR (mean x j) :=
  IsR.divN (IsR.sum _ _ fun r _ => hx r j)

theorem isReal_bnR {m : ℕ} (x : Mat 50000 m) (g be : Row m) :
    IsRealM x → IsRealR g → IsRealR be → IsRealM (bnR x g be) := by
  intro hx hg hbe r j
  obtain ⟨y, hy, hY⟩ := var_add_eps_pos x hx j
  have hs : Real.sqrt y ≠ 0 := (Real.sqrt_pos.mpr hy).ne'
  show IsR (bnR x g be r j)
  simp only [bnR, normR, hY, Ideal.sqrt_coe, if_neg (not_lt.mpr hy.le), Ideal.div_coe hs]
  exact IsR.max (IsR.add (IsR.mul (IsR.mul (hg j) (IsR.sub (hx r j) (isReal_mean x hx j))) (IsR.coe _)) (hbe j)) IsR.zero

theorem isReal_lin {n : ℕ} {a : Mat n 128} {W : Mat 128 128} {b : Row 128} :
    IsRealM a → IsRealM W → IsRealR b → IsRealM (lin a W b) := by
  intro ha hW hb r j
  exact IsR.add (IsR.sum _ _ fun k _ => IsR.mul (ha r k) (hW k j)) (hb j)

theorem isReal_agg {edge : Fin 2 → Fin 800000 → BitVec 32} {h : Mat 50000 128} :
    IsRealM h → IsRealM (agg edge h) := by
  intro hh c j
  exact IsR.sum _ _ fun e _ => hh _ j

theorem isReal_addAgg {edge : Fin 2 → Fin 800000 → BitVec 32} {h : Mat 50000 128} :
    IsRealM h → IsRealM (fun r j => h r j + agg edge h r j) := by
  intro hh r j
  exact IsR.add (hh r j) (isReal_agg hh r j)

theorem layerK_eq_layerR (edge : Fin 2 → Fin 800000 → BitVec 32) (P : Params) (h : Mat 50000 128)
    (hh : IsRealM h) (hP : P.IsReal) : layerK edge P h = layerR edge P h ∧ IsRealM (layerR edge P h) := by
  obtain ⟨hW1, hb1, hg1, hbe1, hW2, hb2, hg2, hbe2⟩ := hP
  have h1 : IsRealM (lin (fun r j => h r j + agg edge h r j) P.W1 P.b1) :=
    isReal_lin (isReal_addAgg hh) hW1 hb1
  have h2 : IsRealM (bnR (lin (fun r j => h r j + agg edge h r j) P.W1 P.b1) P.g1 P.be1) :=
    isReal_bnR _ _ _ h1 hg1 hbe1
  have h3 : IsRealM (lin (bnR (lin (fun r j => h r j + agg edge h r j) P.W1 P.b1) P.g1 P.be1) P.W2 P.b2) :=
    isReal_lin h2 hW2 hb2
  refine ⟨?_, isReal_bnR _ _ _ h3 hg2 hbe2⟩
  rw [layerK, layerR, bnK_eq_bnR _ P.g1 P.be1 h1, bnK_eq_bnR _ P.g2 P.be2 h3]

theorem outK_eq_outR (edge : Fin 2 → Fin 800000 → BitVec 32) (ids : Fin 50000 → BitVec 32) (P0 P1 : Params)
    (x : Mat 50000 128) (hx : IsRealM x) (hP0 : P0.IsReal) (hP1 : P1.IsReal) :
    outK edge ids P0 P1 x = outR edge ids P0 P1 x := by
  obtain ⟨e0, r0⟩ := layerK_eq_layerR edge P0 x hx hP0
  obtain ⟨e1, _⟩ := layerK_eq_layerR edge P1 (layerR edge P0 x) r0 hP1
  rw [outK, outR, e0, e1]

end Cert.Math

end
-- ==== Proof.Finite.lean ====
import proofs.«400309_j11605001633947_1_alg».proof.Defs
import proofs.«400309_j11605001633947_1_alg».proof.Proof.Spec
import Idealize.ShloMosaic.Lib.ReduceAll

noncomputable section

namespace Cert.Finite

open Idealize.ShloMosaic Idealize.SL.Sem Cert.Pre_finite_inputs

instance : Subsingleton S_.Idx := ⟨fun a b => funext fun d => d.elim0⟩

theorem real_of_abs_lt_top (x : EReal) (h : max x (-x) < ⊤) : ∃ a : ℝ, x = (a : EReal) := by
  induction x using EReal.rec with
  | bot => simp at h
  | coe a => exact ⟨a, rfl⟩
  | top => simp at h

theorem ofBits_inf : Ideal.ofBits .f32 0x7F800000#32 = ⊤ := by simp [Ideal.ofBits, Ideal.ieee]

theorem real_of_mask (x : Ideal .f32)
    (h : FloatOps.cmpf .olt (FloatOps.hostAbsf x) (FloatOps.ofBits (F := Ideal) .f32 0x7F800000#32) = 1#1) :
    ∃ a : ℝ, (x : EReal) = (a : EReal) := by
  apply real_of_abs_lt_top
  have h' : Ideal.cmp .olt (max (x : EReal) (-(x : EReal))) (Ideal.ofBits .f32 0x7F800000#32) = 1#1 := h
  rw [ofBits_inf] at h'
  unfold Ideal.cmp at h'
  by_contra hn
  simp [hn] at h'

theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant S_ .f32 0x7F800000#32))) init hr hu ValueIdx.ix0 = 1#1)
    (i : s.Idx) : ∃ a : ℝ, (x i : EReal) = (a : EReal) :=
  real_of_mask (x i) (Host.reduce_andi_all _ init hr hu ValueIdx.ix0 e i)

theorem realM {n k : ℕ} {axes : List (Fin (⟨2, ![n, k]⟩ : Shape).rank)} (x : FVec Ideal ⟨2, ![n, k]⟩ .f32)
    (hb : S_.BroadcastsInDim ⟨2, ![n, k]⟩ (![] : Fin 0 → Fin (⟨2, ![n, k]⟩ : Shape).rank)) (hr : (⟨2, ![n, k]⟩ : Shape).ReducesTo axes S_)
    (hu : 0 < S_.numel) (init : IVec S_ 1)
    (e : Host.reduce IntOp.andi
          (cmpf .olt (Host.absf x) (broadcastInDim ⟨2, ![n, k]⟩ ![] hb (constant S_ .f32 0x7F800000#32))) init hr hu ValueIdx.ix0 = 1#1) :
    Spec.IsRealM (Spec.toMat x) :=
  fun r j => real_of_all x hb hr hu init e (ValueIdx.ix2 r j)

theorem realR_128 {axes : List (Fin S128.rank)} (x : FVec Ideal S128 .f32)
    (hb : S_.BroadcastsInDim S128 (![] : Fin 0 → Fin S128.rank)) (hr : S128.ReducesTo axes S_)
    (hu : 0 < S_.numel) (init : IVec S_ 1)
    (e : Host.reduce IntOp.andi
          (cmpf .olt (Host.absf x) (broadcastInDim S128 ![] hb (constant S_ .f32 0x7F800000#32))) init hr hu ValueIdx.ix0 = 1#1) :
    Spec.IsRealR (Spec.toRow x) :=
  fun j => real_of_all x hb hr hu init e (ValueIdx.ix1 j)

theorem real_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      Spec.IsRealM (Spec.toMat (m ((c.tc : Thread Cert.KernelIdeal.nD Cert.KernelIdeal.τ).loc Cert.KernelIdeal.main_arg0)))
      ∧ Spec.IsRealM (Spec.toMat (m ((c.tc : Thread Cert.KernelIdeal.nD Cert.KernelIdeal.τ).loc Cert.KernelIdeal.main_arg3)))
      ∧ Spec.IsRealR (Spec.toRow (m ((c.tc : Thread Cert.KernelIdeal.nD Cert.KernelIdeal.τ).loc Cert.KernelIdeal.main_arg4)))
      ∧ Spec.IsRealR (Spec.toRow (m ((c.tc : Thread Cert.KernelIdeal.nD Cert.KernelIdeal.τ).loc Cert.KernelIdeal.main_arg5)))
      ∧ Spec.IsRealR (Spec.toRow (m ((c.tc : Thread Cert.KernelIdeal.nD Cert.KernelIdeal.τ).loc Cert.KernelIdeal.main_arg6)))
      ∧ Spec.IsRealM (Spec.toMat (m ((c.tc : Thread Cert.KernelIdeal.nD Cert.KernelIdeal.τ).loc Cert.KernelIdeal.main_arg7)))
      ∧ Spec.IsRealR (Spec.toRow (m ((c.tc : Thread Cert.KernelIdeal.nD Cert.KernelIdeal.τ).loc Cert.KernelIdeal.main_arg8)))
      ∧ Spec.IsRealR (Spec.toRow (m ((c.tc : Thread Cert.KernelIdeal.nD Cert.KernelIdeal.τ).loc Cert.KernelIdeal.main_arg9)))
      ∧ Spec.IsRealR (Spec.toRow (m ((c.tc : Thread Cert.KernelIdeal.nD Cert.KernelIdeal.τ).loc Cert.KernelIdeal.main_arg10)))
      ∧ Spec.IsRealM (Spec.toMat (m ((c.tc : Thread Cert.KernelIdeal.nD Cert.KernelIdeal.τ).loc Cert.KernelIdeal.main_arg11)))
      ∧ Spec.IsRealR (Spec.toRow (m ((c.tc : Thread Cert.KernelIdeal.nD Cert.KernelIdeal.τ).loc Cert.KernelIdeal.main_arg12)))
      ∧ Spec.IsRealR (Spec.toRow (m ((c.tc : Thread Cert.KernelIdeal.nD Cert.KernelIdeal.τ).loc Cert.KernelIdeal.main_arg13)))
      ∧ Spec.IsRealR (Spec.toRow (m ((c.tc : Thread Cert.KernelIdeal.nD Cert.KernelIdeal.τ).loc Cert.KernelIdeal.main_arg14)))
      ∧ Spec.IsRealM (Spec.toMat (m ((c.tc : Thread Cert.KernelIdeal.nD Cert.KernelIdeal.τ).loc Cert.KernelIdeal.main_arg15)))
      ∧ Spec.IsRealR (Spec.toRow (m ((c.tc : Thread Cert.KernelIdeal.nD Cert.KernelIdeal.τ).loc Cert.KernelIdeal.main_arg16)))
      ∧ Spec.IsRealR (Spec.toRow (m ((c.tc : Thread Cert.KernelIdeal.nD Cert.KernelIdeal.τ).loc Cert.KernelIdeal.main_arg17)))
      ∧ Spec.IsRealR (Spec.toRow (m ((c.tc : Thread Cert.KernelIdeal.nD Cert.KernelIdeal.τ).loc Cert.KernelIdeal.main_arg18))) := by

  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e

  obtain ⟨e, e18⟩ := IntOp.andi_eq_one.1 e
  obtain ⟨e, e17⟩ := IntOp.andi_eq_one.1 e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  exact ⟨realM _ _ _ _ _ e0,
    realM _ _ _ _ _ e3,
    realR_128 _ _ _ _ _ e4,
    realR_128 _ _ _ _ _ e5,
    realR_128 _ _ _ _ _ e6,
    realM _ _ _ _ _ e7,
    realR_128 _ _ _ _ _ e8,
    realR_128 _ _ _ _ _ e9,
    realR_128 _ _ _ _ _ e10,
    realM _ _ _ _ _ e11,
    realR_128 _ _ _ _ _ e12,
    realR_128 _ _ _ _ _ e13,
    realR_128 _ _ _ _ _ e14,
    realM _ _ _ _ _ e15,
    realR_128 _ _ _ _ _ e16,
    realR_128 _ _ _ _ _ e17,
    realR_128 _ _ _ _ _ e18⟩

end Cert.Finite

end
-- ==== Proof.Glue.lean ====
import proofs.«400309_j11605001633947_1_alg».proof.Proof.Spec

noncomputable section

namespace Cert.Glue

open Idealize.ShloMosaic Idealize.ShloMosaic.ValueIdx

theorem toMat_inj {n m : ℕ} (v w : (⟨2, ![n, m]⟩ : Shape).Idx → EReal) (h : Cert.Spec.toMat v = Cert.Spec.toMat w) :
    v = w := by
  funext i
  rw [eq_ix2 i]
  exact congrFun (congrFun h (i 0)) (i 1)

theorem toRow_inj {m : ℕ} (v w : (⟨1, ![m]⟩ : Shape).Idx → EReal) (h : Cert.Spec.toRow v = Cert.Spec.toRow w) :
    v = w := by
  funext i
  rw [eq_ix1 i]
  exact congrFun h (i 0)

end Cert.Glue

end
-- ==== Proof.Alg.lean ====
import proofs.«400309_j11605001633947_1_alg».proof.Defs
import proofs.«400309_j11605001633947_1_alg».proof.Proof.Gen.KernelIdeal
import proofs.«400309_j11605001633947_1_alg».proof.Proof.Gen.ReferenceIdeal
import proofs.«400309_j11605001633947_1_alg».proof.Proof.Gen.Pre_finite_inputs
import proofs.«400309_j11605001633947_1_alg».proof.Proof.Gen.KernelIdeal.Regions
import proofs.«400309_j11605001633947_1_alg».proof.Proof.KI.Launch
import proofs.«400309_j11605001633947_1_alg».proof.Proof.KI.Outs
import proofs.«400309_j11605001633947_1_alg».proof.Proof.KI.Value
import proofs.«400309_j11605001633947_1_alg».proof.Proof.Ref.Run
import proofs.«400309_j11605001633947_1_alg».proof.Proof.Ref.Value
import proofs.«400309_j11605001633947_1_alg».proof.Proof.Spec
import proofs.«400309_j11605001633947_1_alg».proof.Proof.Math
import proofs.«400309_j11605001633947_1_alg».proof.Proof.Finite
import proofs.«400309_j11605001633947_1_alg».proof.Proof.Glue
import Idealize.ShloMosaic.Lib.StableHlo.Run

noncomputable section

namespace Cert.Proof.Alg

open Idealize.ShloMosaic Idealize.ShloMosaic.TcCoe Idealize.SL.Sem
open Cert.ReferenceIdeal.Run (arg_kept)

-- Both programs end at the specification's value of the launch arrays, in two spellings that agree on real entries.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V13 m (Cert.KernelIdeal.Run.outsC m) c Cert.KernelIdeal.main_v69,
    Cert.KernelIdeal.Run.run_main m ρ _ (Cert.KernelIdeal.Run.outsOK m), ?_⟩
  refine (θ_run Cert.ReferenceIdeal.defs _ _).mono (fun r h c => ?_) (Cert.ReferenceIdeal.Run.run_main m' ρ')
  refine ⟨(h c Cert.ReferenceIdeal.main_v128).trans ?_,
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide)), (h c _).trans (arg_kept _ _ (by decide)),
    (h c _).trans (arg_kept _ _ (by decide))⟩
  obtain ⟨a0, a1, a2, a3, a4, a5, a6, a7, a8, a9, a10, a11, a12, a13, a14, a15, a16, a17, a18⟩ := hagree c
  have hr := Cert.Finite.real_args m hpre c
  apply Cert.Glue.toMat_inj
  refine (Cert.ReferenceIdeal.Val.out_val (StableHlo.launchContents m' c)).trans
    (Eq.trans ?_ (Cert.KernelIdeal.Value.final_val m _ (Cert.KernelIdeal.Run.outsOK m) c).symm)
  rw [← a0, ← a3, ← a4, ← a5, ← a6, ← a7, ← a8, ← a9, ← a10, ← a11, ← a12, ← a13, ← a14, ← a15, ← a16, ← a17, ← a18] at hr
  obtain ⟨r0, r3, r4, r5, r6, r7, r8, r9, r10, r11, r12, r13, r14, r15, r16, r17, r18⟩ := hr
  rw [← a0, ← a1, ← a2, ← a3, ← a4, ← a5, ← a6, ← a7, ← a8, ← a9, ← a10, ← a11, ← a12, ← a13, ← a14, ← a15, ← a16, ← a17, ← a18]
  exact (Cert.Math.outK_eq_outR _ _ _ _ _ r0 ⟨r3, r4, r5, r6, r7, r8, r9, r10⟩ ⟨r11, r12, r13, r14, r15, r16, r17, r18⟩).symm

end Cert.Proof.Alg

end
-- ==== Proof.lean ====
import proofs.«400309_j11605001633947_1_alg».proof.Defs
import proofs.«400309_j11605001633947_1_alg».proof.Proof.Gen.Kernel
import proofs.«400309_j11605001633947_1_alg».proof.Proof.Gen.KernelIdeal
import proofs.«400309_j11605001633947_1_alg».proof.Proof.Gen.ReferenceIdeal
import proofs.«400309_j11605001633947_1_alg».proof.Proof.Gen.Pre_finite_inputs
import proofs.«400309_j11605001633947_1_alg».proof.Proof.K.Launch
import proofs.«400309_j11605001633947_1_alg».proof.Proof.K.Outs
import proofs.«400309_j11605001633947_1_alg».proof.Proof.KI.Launch
import proofs.«400309_j11605001633947_1_alg».proof.Proof.KI.Outs
import proofs.«400309_j11605001633947_1_alg».proof.Proof.Ref.Run
import proofs.«400309_j11605001633947_1_alg».proof.Proof.Alg

noncomputable section

namespace Cert.Proof

open Idealize.ShloMosaic Idealize.SL.Sem
open Cert.ReferenceIdeal.Run (arg_kept)

-- Each kernel program's run ends with every argument at its launch contents; the frame forgets the result.
theorem frame_kernel : Cert.frame_Kernel (hKernel := Cert.Kernel.Gen.facts) (hPre_finite_inputs := Cert.Pre_finite_inputs.Gen.facts) :=
  fun m ρ _ => (θ_run _ _ _).mono (fun _ h c => (h c).2)
    (Cert.Kernel.Run.run_main (F := Bits) m ρ _ (Cert.Kernel.Run.outsOK m))

theorem frame_kernelIdeal : Cert.frame_KernelIdeal (hKernelIdeal := Cert.KernelIdeal.Gen.facts) (hPre_finite_inputs := Cert.Pre_finite_inputs.Gen.facts) :=
  fun m ρ _ => (θ_run _ _ _).mono (fun _ h c => (h c).2)
    (Cert.KernelIdeal.Run.run_main (F := Ideal) m ρ _ (Cert.KernelIdeal.Run.outsOK m))

-- The reference is a straight line of host operations none of which writes an argument.
theorem frame_reference : Cert.frame_ReferenceIdeal (hReferenceIdeal := Cert.ReferenceIdeal.Gen.facts) (hPre_finite_inputs := Cert.Pre_finite_inputs.Gen.facts) :=
  fun m ρ _ => (θ_run _ _ _).mono (fun _ h c =>
    ⟨(h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide)), (h c _).trans (arg_kept _ _ (by decide)),
      (h c _).trans (arg_kept _ _ (by decide))⟩)
    (Cert.ReferenceIdeal.Run.run_main (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.Alg.algebraic⟩

end Cert.Proof

end
